-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S1024x1024 : Shape := ⟨2, ![1024, 1024]⟩
abbrev S2x32x65536 : Shape := ⟨3, ![2, 32, 65536]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2x32x65536 : S_.BroadcastsInDim S2x32x65536 (![] : Fin 0 → Fin S2x32x65536.rank)
  reducesTo_S2x32x65536_S_d0_1_2 : S2x32x65536.ReducesTo [0, 1, 2] S_
  bcast_S_S198x128 : S_.BroadcastsInDim S198x128 (![] : Fin 0 → Fin S198x128.rank)
  reducesTo_S198x128_S_d0_1 : S198x128.ReducesTo [0, 1] S_
  bcast_S_S128 : S_.BroadcastsInDim S128 (![] : Fin 0 → Fin S128.rank)
  reducesTo_S128_S_d0 : S128.ReducesTo [0] S_
  bcast_S_S198x64 : S_.BroadcastsInDim S198x64 (![] : Fin 0 → Fin S198x64.rank)
  reducesTo_S198x64_S_d0_1 : S198x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S384x128 .f32) (main_arg8 : FVec F S128 .f32) (main_arg9 : FVec F S384x64 .f32) (main_arg10 : FVec F S64 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S128 .f32) (main_arg5 : FVec F S198x64 .f32) (main_arg6 : FVec F S64 .f32) (main_arg7 : FVec F S384x128 .f32) (main_arg8 : FVec F S128 .f32) (main_arg9 : FVec F S384x64 .f32) (main_arg10 : FVec F S64 .f32) (main_v13 : IVec S_ 1) (main_v16 : IVec S198x128 1) : IVec S_ 1 :=
  let main_c_5 : IVec S_ 1 := constantI S_ 1 1#1
  let main_v17 : IVec S_ 1 := (fun x v => Host.reduce IntOp.andi x v reducesTo_S198x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S198x64 .f32 := Host.absf main_arg5
  let main_cst_8 : FVec F S_ .f32 := constant S_ .f32 0x7F800000#32
  let main_v25 : FVec F S198x64 .f32 := broadcastInDim S198x64 ![] bcast_S_S198x64 main_cst_8
  let main_v26 : IVec S198x64 1 := cmpf .olt main_v24 main_v25
  let main_c_9 : IVec S_ 1 := constantI S_ 1 1#1
  let main_v27 : IVec S_ 1 := (fun x v => Host.reduce IntOp.andi x v reducesTo_S198x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x2048 .f32) (main_arg1 : FVec F S1024x1024 .f32) (main_arg2 : FVec F S2x32x65536 .f32) (main_arg3 : FVec F S198x128 .f32) (main_arg4 : FVec F S128 .f32) (main_arg5 : FVec F S198x64 .f32) (main_arg6 : FVec F S64 .f32) (main_arg7 : FVec F S384x128 .f32) (main_arg8 : FVec F S128 .f32) (main_arg9 : FVec F S384x64 .f32) (main_arg10 : FVec F S64 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2x32x65536 .f32 := Host.absf main_arg2
  let main_cst_2 : FVec F S_ .f32 := constant S_ .f32 0x7F800000#32
  let main_v10 : FVec F S2x32x65536 .f32 := broadcastInDim S2x32x65536 ![] bcast_S_S2x32x65536 main_cst_2
  let main_v11 : IVec S2x32x65536 1 := cmpf .olt main_v9 main_v10
  let main_c_3 : IVec S_ 1 := constantI S_ 1 1#1
  let main_v12 : IVec S_ 1 := (fun x v => Host.reduce IntOp.andi x v reducesTo_S2x32x65536_S_d0_1_2 h_S_) main_v11 main_c_3
  let main_v13 : IVec S_ 1 := andi main_v8 main_v12
  let main_v14 : FVec F S198x128 .f32 := Host.absf main_arg3
  let main_cst_4 : FVec F S_ .f32 := constant S_ .f32 0x7F800000#32
  let main_v15 : FVec F S198x128 .f32 := broadcastInDim S198x128 ![] bcast_S_S198x128 main_cst_4
  let main_v16 : IVec S198x128 1 := cmpf .olt main_v14 main_v15
  fn_part1 (F := F) main_arg4 main_arg5 main_arg6 main_arg7 main_arg8 main_arg9 main_arg10 main_v13 main_v16
-- ==== Kernel.lean ====
abbrev S32x2048 : Shape := ⟨2, ![32, 2048]⟩
abbrev S1024x1024 : Shape := ⟨2, ![1024, 1024]⟩
abbrev S2x32x65536 : Shape := ⟨3, ![2, 32, 65536]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S32x1024x2 : Shape := ⟨3, ![32, 1024, 2]⟩
abbrev S1024x32x2 : Shape := ⟨3, ![1024, 32, 2]⟩
abbrev S32768x2 : Shape := ⟨2, ![32768, 2]⟩
abbrev S1x32x65536 : Shape := ⟨3, ![1, 32, 65536]⟩
abbrev S32x65536 : Shape := ⟨2, ![32, 65536]⟩
abbrev S32x1024x64 : Shape := ⟨3, ![32, 1024, 64]⟩
abbrev S1024x32x64 : Shape := ⟨3, ![1024, 32, 64]⟩
abbrev S32768x64 : Shape := ⟨2, ![32768, 64]⟩
abbrev S66x3x128 : Shape := ⟨3, ![66, 3, 128]⟩
abbrev S3x66x128 : Shape := ⟨3, ![3, 66, 128]⟩
abbrev S3x2x128 : Shape := ⟨3, ![3, 2, 128]⟩
abbrev S3x64x128 : Shape := ⟨3, ![3, 64, 128]⟩
abbrev S66x3x64 : Shape := ⟨3, ![66, 3, 64]⟩
abbrev S3x66x64 : Shape := ⟨3, ![3, 66, 64]⟩
abbrev S3x2x64 : Shape := ⟨3, ![3, 2, 64]⟩
abbrev S3x64x64 : Shape := ⟨3, ![3, 64, 64]⟩
abbrev S128x3x128 : Shape := ⟨3, ![128, 3, 128]⟩
abbrev S3x128x128 : Shape := ⟨3, ![3, 128, 128]⟩
abbrev S128x3x64 : Shape := ⟨3, ![128, 3, 64]⟩
abbrev S3x128x64 : Shape := ⟨3, ![3, 128, 64]⟩
abbrev S1x128 : Shape := ⟨2, ![1, 128]⟩
abbrev S1x64 : Shape := ⟨2, ![1, 64]⟩
abbrev S1024x64 : Shape := ⟨2, ![1024, 64]⟩
abbrev S1024x2048 : Shape := ⟨2, ![1024, 2048]⟩
abbrev S256x1024 : Shape := ⟨2, ![256, 1024]⟩
abbrev S256x64 : Shape := ⟨2, ![256, 64]⟩
abbrev S256x2048 : Shape := ⟨2, ![256, 2048]⟩
abbrev S4096x2 : Shape := ⟨2, ![4096, 2]⟩
abbrev S4096x64 : Shape := ⟨2, ![4096, 64]⟩
abbrev S1x2x128 : Shape := ⟨3, ![1, 2, 128]⟩
abbrev S2x128 : Shape := ⟨2, ![2, 128]⟩
abbrev S4096x128 : Shape := ⟨2, ![4096, 128]⟩
abbrev S1x64x128 : Shape := ⟨3, ![1, 64, 128]⟩
abbrev S64x128 : Shape := ⟨2, ![64, 128]⟩
abbrev S1x2x64 : Shape := ⟨3, ![1, 2, 64]⟩
abbrev S2x64 : Shape := ⟨2, ![2, 64]⟩
abbrev S1x64x64 : Shape := ⟨3, ![1, 64, 64]⟩
abbrev S64x64 : Shape := ⟨2, ![64, 64]⟩

abbrev nBuf : Space → Nat
  | .hbm => 103
  | .vmem => 152
  | .smem => 0
  | _ => 0

abbrev vmemTy0_0 (i : Nat) : BufTy := match i % 128 with
  | 0 => ⟨S256x1024, .bf16⟩
  | 1 => ⟨S256x1024, .bf16⟩
  | 2 => ⟨S1024x64, .bf16⟩
  | 3 => ⟨S1024x2048, .bf16⟩
  | 4 => ⟨S256x64, .bf16⟩
  | 5 => ⟨S256x64, .bf16⟩
  | 6 => ⟨S256x2048, .bf16⟩
  | 7 => ⟨S256x2048, .bf16⟩
  | 8 => ⟨S256x1024, .bf16⟩
  | 9 => ⟨S256x1024, .bf16⟩
  | 10 => ⟨S256x64, .bf16⟩
  | 11 => ⟨S256x64, .bf16⟩
  | 12 => ⟨S1024x64, .bf16⟩
  | 13 => ⟨S256x2048, .bf16⟩
  | 14 => ⟨S256x2048, .bf16⟩
  | 15 => ⟨S1024x2048, .bf16⟩
  | 16 => ⟨S256x64, .bf16⟩
  | 17 => ⟨S256x64, .bf16⟩
  | 18 => ⟨S256x2048, .bf16⟩
  | 19 => ⟨S256x2048, .bf16⟩
  | 20 => ⟨S4096x2, .bf16⟩
  | 21 => ⟨S4096x2, .bf16⟩
  | 22 => ⟨S4096x2, .bf16⟩
  | 23 => ⟨S4096x2, .bf16⟩
  | 24 => ⟨S4096x2, .bf16⟩
  | 25 => ⟨S4096x2, .bf16⟩
  | 26 => ⟨S4096x64, .bf16⟩
  | 27 => ⟨S4096x64, .bf16⟩
  | 28 => ⟨S4096x64, .bf16⟩
  | 29 => ⟨S4096x64, .bf16⟩
  | 30 => ⟨S4096x64, .bf16⟩
  | 31 => ⟨S4096x64, .bf16⟩
  | 32 => ⟨S4096x64, .f32⟩
  | 33 => ⟨S4096x64, .f32⟩
  | 34 => ⟨S3x2x128, .bf16⟩
  | 35 => ⟨S3x64x128, .bf16⟩
  | 36 => ⟨S1x128, .f32⟩
  | 37 => ⟨S4096x64, .bf16⟩
  | 38 => ⟨S4096x64, .bf16⟩
  | 39 => ⟨S4096x64, .f32⟩
  | 40 => ⟨S4096x64, .f32⟩
  | 41 => ⟨S256x1024, .bf16⟩
  | 42 => ⟨S256x1024, .bf16⟩
  | 43 => ⟨S1024x2048, .bf16⟩
  | 44 => ⟨S256x2048, .bf16⟩
  | 45 => ⟨S256x2048, .bf16⟩
  | 46 => ⟨S256x1024, .bf16⟩
  | 47 => ⟨S256x1024, .bf16⟩
  | 48 => ⟨S256x2048, .bf16⟩
  | 49 => ⟨S256x2048, .bf16⟩
  | 50 => ⟨S1024x2048, .bf16⟩
  | 51 => ⟨S256x2048, .bf16⟩
  | 52 => ⟨S256x2048, .bf16⟩
  | 53 => ⟨S4096x2, .bf16⟩
  | 54 => ⟨S4096x2, .bf16⟩
  | 55 => ⟨S4096x2, .bf16⟩
  | 56 => ⟨S4096x2, .bf16⟩
  | 57 => ⟨S4096x2, .bf16⟩
  | 58 => ⟨S4096x2, .bf16⟩
  | 59 => ⟨S4096x64, .bf16⟩
  | 60 => ⟨S4096x64, .bf16⟩
  | 61 => ⟨S4096x64, .bf16⟩
  | 62 => ⟨S4096x64, .bf16⟩
  | 63 => ⟨S4096x64, .bf16⟩
  | 64 => ⟨S4096x64, .bf16⟩
  | 65 => ⟨S4096x64, .f32⟩
  | 66 => ⟨S4096x64, .f32⟩
  | 67 => ⟨S4096x64, .f32⟩
  | 68 => ⟨S4096x64, .f32⟩
  | 69 => ⟨S3x2x64, .bf16⟩
  | 70 => ⟨S3x64x64, .bf16⟩
  | 71 => ⟨S1x64, .f32⟩
  | 72 => ⟨S4096x64, .f32⟩
  | 73 => ⟨S4096x64, .f32⟩
  | 74 => ⟨S4096x64, .bf16⟩
  | 75 => ⟨S4096x64, .bf16⟩
  | 76 => ⟨S256x1024, .bf16⟩
  | 77 => ⟨S256x1024, .bf16⟩
  | 78 => ⟨S1024x2048, .bf16⟩
  | 79 => ⟨S1024x2048, .bf16⟩
  | 80 => ⟨S256x2048, .bf16⟩
  | 81 => ⟨S256x2048, .bf16⟩
  | 82 => ⟨S256x2048, .bf16⟩
  | 83 => ⟨S256x2048, .bf16⟩
  | 84 => ⟨S256x1024, .bf16⟩
  | 85 => ⟨S256x1024, .bf16⟩
  | 86 => ⟨S256x2048, .bf16⟩
  | 87 => ⟨S256x2048, .bf16⟩
  | 88 => ⟨S1024x2048, .bf16⟩
  | 89 => ⟨S256x2048, .bf16⟩
  | 90 => ⟨S256x2048, .bf16⟩
  | 91 => ⟨S1024x2048, .bf16⟩
  | 92 => ⟨S256x2048, .bf16⟩
  | 93 => ⟨S256x2048, .bf16⟩
  | 94 => ⟨S256x2048, .bf16⟩
  | 95 => ⟨S256x2048, .bf16⟩
  | 96 => ⟨S4096x64, .bf16⟩
  | 97 => ⟨S4096x64, .bf16⟩
  | 98 => ⟨S4096x64, .bf16⟩
  | 99 => ⟨S4096x64, .bf16⟩
  | 100 => ⟨S4096x64, .bf16⟩
  | 101 => ⟨S4096x64, .bf16⟩
  | 102 => ⟨S4096x64, .bf16⟩
  | 103 => ⟨S4096x64, .bf16⟩
  | 104 => ⟨S4096x64, .bf16⟩
  | 105 => ⟨S4096x64, .bf16⟩
  | 106 => ⟨S4096x64, .bf16⟩
  | 107 => ⟨S4096x64, .bf16⟩
  | 108 => ⟨S4096x64, .f32⟩
  | 109 => ⟨S4096x64, .f32⟩
  | 110 => ⟨S3x64x128, .bf16⟩
  | 111 => ⟨S3x64x128, .bf16⟩
  | 112 => ⟨S1x128, .f32⟩
  | 113 => ⟨S4096x64, .bf16⟩
  | 114 => ⟨S4096x64, .bf16⟩
  | 115 => ⟨S4096x64, .f32⟩
  | 116 => ⟨S4096x64, .f32⟩
  | 117 => ⟨S256x1024, .bf16⟩
  | 118 => ⟨S256x1024, .bf16⟩
  | 119 => ⟨S1024x2048, .bf16⟩
  | 120 => ⟨S256x2048, .bf16⟩
  | 121 => ⟨S256x2048, .bf16⟩
  | 122 => ⟨S256x1024, .bf16⟩
  | 123 => ⟨S256x1024, .bf16⟩
  | 124 => ⟨S256x2048, .bf16⟩
  | 125 => ⟨S256x2048, .bf16⟩
  | 126 => ⟨S1024x2048, .bf16⟩
  | 127 => ⟨S256x2048, .bf16⟩
  | _ => ⟨S32x2048, .f32⟩

abbrev vmemTy0_1 (i : Nat) : BufTy := match i % 128 with
  | 0 => ⟨S256x2048, .bf16⟩
  | 1 => ⟨S4096x64, .bf16⟩
  | 2 => ⟨S4096x64, .bf16⟩
  | 3 => ⟨S4096x64, .bf16⟩
  | 4 => ⟨S4096x64, .bf16⟩
  | 5 => ⟨S4096x64, .bf16⟩
  | 6 => ⟨S4096x64, .bf16⟩
  | 7 => ⟨S4096x64, .bf16⟩
  | 8 => ⟨S4096x64, .bf16⟩
  | 9 => ⟨S4096x64, .bf16⟩
  | 10 => ⟨S4096x64, .bf16⟩
  | 11 => ⟨S4096x64, .bf16⟩
  | 12 => ⟨S4096x64, .bf16⟩
  | 13 => ⟨S4096x64, .f32⟩
  | 14 => ⟨S4096x64, .f32⟩
  | 15 => ⟨S4096x64, .f32⟩
  | 16 => ⟨S4096x64, .f32⟩
  | 17 => ⟨S3x64x64, .bf16⟩
  | 18 => ⟨S3x64x64, .bf16⟩
  | 19 => ⟨S1x64, .f32⟩
  | 20 => ⟨S4096x64, .f32⟩
  | 21 => ⟨S4096x64, .f32⟩
  | 22 => ⟨S4096x64, .bf16⟩
  | 23 => ⟨S4096x64, .bf16⟩
  | _ => ⟨S32x2048, .f32⟩

abbrev vmemTy (i : Nat) : BufTy := match i / 128 with
  | 0 => vmemTy0_0 i
  | 1 => vmemTy0_1 i
  | _ => ⟨S32x2048, .f32⟩

abbrev bufTy : (tb : Table) → Fin (tcTables nBuf tb) → BufTy
  | .hbm, ⟨0, _⟩ => ⟨S32x2048, .f32⟩
  | .hbm, ⟨1, _⟩ => ⟨S1024x1024, .f32⟩
  | .hbm, ⟨2, _⟩ => ⟨S2x32x65536, .f32⟩
  | .hbm, ⟨3, _⟩ => ⟨S198x128, .f32⟩
  | .hbm, ⟨4, _⟩ => ⟨S128, .f32⟩
  | .hbm, ⟨5, _⟩ => ⟨S198x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S1024x1024, .bf16⟩
  | .hbm, ⟨12, _⟩ => ⟨S32x1024x2, .f32⟩
  | .hbm, ⟨13, _⟩ => ⟨S1024x32x2, .f32⟩
  | .hbm, ⟨14, _⟩ => ⟨S32768x2, .f32⟩
  | .hbm, ⟨15, _⟩ => ⟨S32768x2, .bf16⟩
  | .hbm, ⟨16, _⟩ => ⟨S1x32x65536, .f32⟩
  | .hbm, ⟨17, _⟩ => ⟨S32x65536, .f32⟩
  | .hbm, ⟨18, _⟩ => ⟨S32x1024x64, .f32⟩
  | .hbm, ⟨19, _⟩ => ⟨S1024x32x64, .f32⟩
  | .hbm, ⟨20, _⟩ => ⟨S32768x64, .f32⟩
  | .hbm, ⟨21, _⟩ => ⟨S1x32x65536, .f32⟩
  | .hbm, ⟨22, _⟩ => ⟨S32x65536, .f32⟩
  | .hbm, ⟨23, _⟩ => ⟨S32x1024x64, .f32⟩
  | .hbm, ⟨24, _⟩ => ⟨S1024x32x64, .f32⟩
  | .hbm, ⟨25, _⟩ => ⟨S32768x64, .f32⟩
  | .hbm, ⟨26, _⟩ => ⟨S66x3x128, .f32⟩
  | .hbm, ⟨27, _⟩ => ⟨S3x66x128, .f32⟩
  | .hbm, ⟨28, _⟩ => ⟨S3x66x128, .bf16⟩
  | .hbm, ⟨29, _⟩ => ⟨S3x2x128, .bf16⟩
  | .hbm, ⟨30, _⟩ => ⟨S3x64x128, .bf16⟩
  | .hbm, ⟨31, _⟩ => ⟨S66x3x64, .f32⟩
  | .hbm, ⟨32, _⟩ => ⟨S3x66x64, .f32⟩
  | .hbm, ⟨33, _⟩ => ⟨S3x66x64, .bf16⟩
  | .hbm, ⟨34, _⟩ => ⟨S3x2x64, .bf16⟩
  | .hbm, ⟨35, _⟩ => ⟨S3x64x64, .bf16⟩
  | .hbm, ⟨36, _⟩ => ⟨S128x3x128, .f32⟩
  | .hbm, ⟨37, _⟩ => ⟨S3x128x128, .f32⟩
  | .hbm, ⟨38, _⟩ => ⟨S3x128x128, .bf16⟩
  | .hbm, ⟨39, _⟩ => ⟨S3x64x128, .bf16⟩
  | .hbm, ⟨40, _⟩ => ⟨S3x64x128, .bf16⟩
  | .hbm, ⟨41, _⟩ => ⟨S128x3x64, .f32⟩
  | .hbm, ⟨42, _⟩ => ⟨S3x128x64, .f32⟩
  | .hbm, ⟨43, _⟩ => ⟨S3x128x64, .bf16⟩
  | .hbm, ⟨44, _⟩ => ⟨S3x64x64, .bf16⟩
  | .hbm, ⟨45, _⟩ => ⟨S3x64x64, .bf16⟩
  | .hbm, ⟨46, _⟩ => ⟨S1x128, .f32⟩
  | .hbm, ⟨47, _⟩ => ⟨S1x64, .f32⟩
  | .hbm, ⟨48, _⟩ => ⟨S1x128, .f32⟩
  | .hbm, ⟨49, _⟩ => ⟨S1x64, .f32⟩
  | .hbm, ⟨50, _⟩ => ⟨S32768x64, .bf16⟩
  | .hbm, ⟨51, _⟩ => ⟨S1024x64, .bf16⟩
  | .hbm, ⟨52, _⟩ => ⟨S1024x2048, .bf16⟩
  | .hbm, ⟨53, _⟩ => ⟨S1024x64, .bf16⟩
  | .hbm, ⟨54, _⟩ => ⟨S1024x2048, .bf16⟩
  | .hbm, ⟨55, _⟩ => ⟨S1024x64, .bf16⟩
  | .hbm, ⟨56, _⟩ => ⟨S1024x2048, .bf16⟩
  | .hbm, ⟨57, _⟩ => ⟨S32768x2, .bf16⟩
  | .hbm, ⟨58, _⟩ => ⟨S32768x2, .bf16⟩
  | .hbm, ⟨59, _⟩ => ⟨S32768x64, .bf16⟩
  | .hbm, ⟨60, _⟩ => ⟨S32768x64, .bf16⟩
  | .hbm, ⟨61, _⟩ => ⟨S32768x64, .bf16⟩
  | .hbm, ⟨62, _⟩ => ⟨S32768x64, .f32⟩
  | .hbm, ⟨63, _⟩ => ⟨S1024x2048, .bf16⟩
  | .hbm, ⟨64, _⟩ => ⟨S1024x2048, .bf16⟩
  | .hbm, ⟨65, _⟩ => ⟨S1024x2048, .bf16⟩
  | .hbm, ⟨66, _⟩ => ⟨S32768x2, .bf16⟩
  | .hbm, ⟨67, _⟩ => ⟨S32768x2, .bf16⟩
  | .hbm, ⟨68, _⟩ => ⟨S32768x64, .bf16⟩
  | .hbm, ⟨69, _⟩ => ⟨S32768x64, .bf16⟩
  | .hbm, ⟨70, _⟩ => ⟨S32768x64, .f32⟩
  | .hbm, ⟨71, _⟩ => ⟨S32768x64, .bf16⟩
  | .hbm, ⟨72, _⟩ => ⟨S32768x64, .bf16⟩
  | .hbm, ⟨73, _⟩ => ⟨S1024x2048, .bf16⟩
  | .hbm, ⟨74, _⟩ => ⟨S1024x2048, .bf16⟩
  | .hbm, ⟨75, _⟩ => ⟨S1024x2048, .bf16⟩
  | .hbm, ⟨76, _⟩ => ⟨S1024x2048, .bf16⟩
  | .hbm, ⟨77, _⟩ => ⟨S1024x2048, .bf16⟩
  | .hbm, ⟨78, _⟩ => ⟨S1024x2048, .bf16⟩
  | .hbm, ⟨79, _⟩ => ⟨S32768x64, .bf16⟩
  | .hbm, ⟨80, _⟩ => ⟨S32768x64, .bf16⟩
  | .hbm, ⟨81, _⟩ => ⟨S32768x64, .bf16⟩
  | .hbm, ⟨82, _⟩ => ⟨S32768x64, .bf16⟩
  | .hbm, ⟨83, _⟩ => ⟨S32768x64, .bf16⟩
  | .hbm, ⟨84, _⟩ => ⟨S32768x64, .f32⟩
  | .hbm, ⟨85, _⟩ => ⟨S1024x2048, .bf16⟩
  | .hbm, ⟨86, _⟩ => ⟨S1024x2048, .bf16⟩
  | .hbm, ⟨87, _⟩ => ⟨S1024x2048, .bf16⟩
  | .hbm, ⟨88, _⟩ => ⟨S32768x64, .bf16⟩
  | .hbm, ⟨89, _⟩ => ⟨S32768x64, .bf16⟩
  | .hbm, ⟨90, _⟩ => ⟨S32768x64, .bf16⟩
  | .hbm, ⟨91, _⟩ => ⟨S32768x64, .bf16⟩
  | .hbm, ⟨92, _⟩ => ⟨S32768x64, .f32⟩
  | .hbm, ⟨93, _⟩ => ⟨S32768x64, .bf16⟩
  | .hbm, ⟨94, _⟩ => ⟨S1024x32x64, .f32⟩
  | .hbm, ⟨95, _⟩ => ⟨S32x1024x64, .f32⟩
  | .hbm, ⟨96, _⟩ => ⟨S32x65536, .f32⟩
  | .hbm, ⟨97, _⟩ => ⟨S1024x32x64, .f32⟩
  | .hbm, ⟨98, _⟩ => ⟨S32x1024x64, .f32⟩
  | .hbm, ⟨99, _⟩ => ⟨S32x65536, .f32⟩
  | .hbm, ⟨100, _⟩ => ⟨S1x32x65536, .f32⟩
  | .hbm, ⟨101, _⟩ => ⟨S1x32x65536, .f32⟩
  | .hbm, ⟨102, _⟩ => ⟨S2x32x65536, .f32⟩
  | .local _ .vmem, ⟨i, _⟩ => vmemTy i
  | _, _ => ⟨S32x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 152 → Bool
  | ⟨i, _⟩ => dmaSemScopedAt i

abbrev sig : RefSig :=
  ofTc nBuf bufTy 0 152 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42_0 : Ref sig .tc := ⟨.hbm, 53, rfl⟩
abbrev main_v42_1 : Ref sig .tc := ⟨.hbm, 54, rfl⟩
abbrev main_v43_0 : Ref sig .tc := ⟨.hbm, 55, rfl⟩
abbrev main_v43_1 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48_0 : Ref sig .tc := ⟨.hbm, 61, rfl⟩
abbrev main_v48_1 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56_0 : Ref sig .tc := ⟨.hbm, 70, rfl⟩
abbrev main_v56_1 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60_0 : Ref sig .tc := ⟨.hbm, 75, rfl⟩
abbrev main_v60_1 : Ref sig .tc := ⟨.hbm, 76, rfl⟩
abbrev main_v61_0 : Ref sig .tc := ⟨.hbm, 77, rfl⟩
abbrev main_v61_1 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66_0 : Ref sig .tc := ⟨.hbm, 83, rfl⟩
abbrev main_v66_1 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74_0 : Ref sig .tc := ⟨.hbm, 92, rfl⟩
abbrev main_v74_1 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg10_0 : Ref sig .tc := ⟨.vmem, 37, rfl⟩
abbrev cc2_stg10_1 : Ref sig .tc := ⟨.vmem, 38, rfl⟩
abbrev cc2_stg11_0 : Ref sig .tc := ⟨.vmem, 39, rfl⟩
abbrev cc2_stg11_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg2_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg3_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg2_1 : Ref sig .tc := ⟨.vmem, 58, rfl⟩
abbrev cc5_stg3_0 : Ref sig .tc := ⟨.vmem, 59, rfl⟩
abbrev cc5_stg3_1 : Ref sig .tc := ⟨.vmem, 60, rfl⟩
abbrev cc5_stg4_0 : Ref sig .tc := ⟨.vmem, 61, rfl⟩
abbrev cc5_stg4_1 : Ref sig .tc := ⟨.vmem, 62, rfl⟩
abbrev cc5_stg5_0 : Ref sig .tc := ⟨.vmem, 63, rfl⟩
abbrev cc5_stg5_1 : Ref sig .tc := ⟨.vmem, 64, rfl⟩
abbrev cc5_stg6_0 : Ref sig .tc := ⟨.vmem, 65, rfl⟩
abbrev cc5_stg6_1 : Ref sig .tc := ⟨.vmem, 66, rfl⟩
abbrev cc5_stg7_0 : Ref sig .tc := ⟨.vmem, 67, rfl⟩
abbrev cc5_stg7_1 : Ref sig .tc := ⟨.vmem, 68, rfl⟩
abbrev cc5_stg8_0 : Ref sig .tc := ⟨.vmem, 69, rfl⟩
abbrev cc5_stg9_0 : Ref sig .tc := ⟨.vmem, 70, rfl⟩
abbrev cc5_stg10_0 : Ref sig .tc := ⟨.vmem, 71, rfl⟩
abbrev cc5_stg11_0 : Ref sig .tc := ⟨.vmem, 72, rfl⟩
abbrev cc5_stg11_1 : Ref sig .tc := ⟨.vmem, 73, rfl⟩
abbrev cc5_stg12_0 : Ref sig .tc := ⟨.vmem, 74, rfl⟩
abbrev cc5_stg12_1 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg2_0 : Ref sig .tc := ⟨.vmem, 79, rfl⟩
abbrev cc6_stg3_0 : Ref sig .tc := ⟨.vmem, 80, rfl⟩
abbrev cc6_stg3_1 : Ref sig .tc := ⟨.vmem, 81, rfl⟩
abbrev cc6_stg4_0 : Ref sig .tc := ⟨.vmem, 82, rfl⟩
abbrev cc6_stg4_1 : Ref sig .tc := ⟨.vmem, 83, rfl⟩
abbrev cc7_stg0_0 : Ref sig .tc := ⟨.vmem, 84, rfl⟩
abbrev cc7_stg0_1 : Ref sig .tc := ⟨.vmem, 85, rfl⟩
abbrev cc7_stg1_0 : Ref sig .tc := ⟨.vmem, 86, rfl⟩
abbrev cc7_stg1_1 : Ref sig .tc := ⟨.vmem, 87, rfl⟩
abbrev cc7_stg2_0 : Ref sig .tc := ⟨.vmem, 88, rfl⟩
abbrev cc7_stg3_0 : Ref sig .tc := ⟨.vmem, 89, rfl⟩
abbrev cc7_stg3_1 : Ref sig .tc := ⟨.vmem, 90, rfl⟩
abbrev cc7_stg4_0 : Ref sig .tc := ⟨.vmem, 91, rfl⟩
abbrev cc7_stg5_0 : Ref sig .tc := ⟨.vmem, 92, rfl⟩
abbrev cc7_stg5_1 : Ref sig .tc := ⟨.vmem, 93, rfl⟩
abbrev cc7_stg6_0 : Ref sig .tc := ⟨.vmem, 94, rfl⟩
abbrev cc7_stg6_1 : Ref sig .tc := ⟨.vmem, 95, rfl⟩
abbrev cc8_stg0_0 : Ref sig .tc := ⟨.vmem, 96, rfl⟩
abbrev cc8_stg0_1 : Ref sig .tc := ⟨.vmem, 97, rfl⟩
abbrev cc8_stg1_0 : Ref sig .tc := ⟨.vmem, 98, rfl⟩
abbrev cc8_stg1_1 : Ref sig .tc := ⟨.vmem, 99, rfl⟩
abbrev cc8_stg2_0 : Ref sig .tc := ⟨.vmem, 100, rfl⟩
abbrev cc8_stg2_1 : Ref sig .tc := ⟨.vmem, 101, rfl⟩
abbrev cc8_stg3_0 : Ref sig .tc := ⟨.vmem, 102, rfl⟩
abbrev cc8_stg3_1 : Ref sig .tc := ⟨.vmem, 103, rfl⟩
abbrev cc8_stg4_0 : Ref sig .tc := ⟨.vmem, 104, rfl⟩
abbrev cc8_stg4_1 : Ref sig .tc := ⟨.vmem, 105, rfl⟩
abbrev cc8_stg5_0 : Ref sig .tc := ⟨.vmem, 106, rfl⟩
abbrev cc8_stg5_1 : Ref sig .tc := ⟨.vmem, 107, rfl⟩
abbrev cc8_stg6_0 : Ref sig .tc := ⟨.vmem, 108, rfl⟩
abbrev cc8_stg6_1 : Ref sig .tc := ⟨.vmem, 109, rfl⟩
abbrev cc8_stg7_0 : Ref sig .tc := ⟨.vmem, 110, rfl⟩
abbrev cc8_stg8_0 : Ref sig .tc := ⟨.vmem, 111, rfl⟩
abbrev cc8_stg9_0 : Ref sig .tc := ⟨.vmem, 112, rfl⟩
abbrev cc8_stg10_0 : Ref sig .tc := ⟨.vmem, 113, rfl⟩
abbrev cc8_stg10_1 : Ref sig .tc := ⟨.vmem, 114, rfl⟩
abbrev cc8_stg11_0 : Ref sig .tc := ⟨.vmem, 115, rfl⟩
abbrev cc8_stg11_1 : Ref sig .tc := ⟨.vmem, 116, rfl⟩
abbrev cc9_stg0_0 : Ref sig .tc := ⟨.vmem, 117, rfl⟩
abbrev cc9_stg0_1 : Ref sig .tc := ⟨.vmem, 118, rfl⟩
abbrev cc9_stg1_0 : Ref sig .tc := ⟨.vmem, 119, rfl⟩
abbrev cc9_stg2_0 : Ref sig .tc := ⟨.vmem, 120, rfl⟩
abbrev cc9_stg2_1 : Ref sig .tc := ⟨.vmem, 121, rfl⟩
abbrev cc10_stg0_0 : Ref sig .tc := ⟨.vmem, 122, rfl⟩
abbrev cc10_stg0_1 : Ref sig .tc := ⟨.vmem, 123, rfl⟩
abbrev cc10_stg1_0 : Ref sig .tc := ⟨.vmem, 124, rfl⟩
abbrev cc10_stg1_1 : Ref sig .tc := ⟨.vmem, 125, rfl⟩
abbrev cc10_stg2_0 : Ref sig .tc := ⟨.vmem, 126, rfl⟩
abbrev cc10_stg3_0 : Ref sig .tc := ⟨.vmem, 127, rfl⟩
abbrev cc10_stg3_1 : Ref sig .tc := ⟨.vmem, 128, rfl⟩
abbrev cc11_stg0_0 : Ref sig .tc := ⟨.vmem, 129, rfl⟩
abbrev cc11_stg0_1 : Ref sig .tc := ⟨.vmem, 130, rfl⟩
abbrev cc11_stg1_0 : Ref sig .tc := ⟨.vmem, 131, rfl⟩
abbrev cc11_stg1_1 : Ref sig .tc := ⟨.vmem, 132, rfl⟩
abbrev cc11_stg2_0 : Ref sig .tc := ⟨.vmem, 133, rfl⟩
abbrev cc11_stg2_1 : Ref sig .tc := ⟨.vmem, 134, rfl⟩
abbrev cc11_stg3_0 : Ref sig .tc := ⟨.vmem, 135, rfl⟩
abbrev cc11_stg3_1 : Ref sig .tc := ⟨.vmem, 136, rfl⟩
abbrev cc11_stg4_0 : Ref sig .tc := ⟨.vmem, 137, rfl⟩
abbrev cc11_stg4_1 : Ref sig .tc := ⟨.vmem, 138, rfl⟩
abbrev cc11_stg5_0 : Ref sig .tc := ⟨.vmem, 139, rfl⟩
abbrev cc11_stg5_1 : Ref sig .tc := ⟨.vmem, 140, rfl⟩
abbrev cc11_stg6_0 : Ref sig .tc := ⟨.vmem, 141, rfl⟩
abbrev cc11_stg6_1 : Ref sig .tc := ⟨.vmem, 142, rfl⟩
abbrev cc11_stg7_0 : Ref sig .tc := ⟨.vmem, 143, rfl⟩
abbrev cc11_stg7_1 : Ref sig .tc := ⟨.vmem, 144, rfl⟩
abbrev cc11_stg8_0 : Ref sig .tc := ⟨.vmem, 145, rfl⟩
abbrev cc11_stg9_0 : Ref sig .tc := ⟨.vmem, 146, rfl⟩
abbrev cc11_stg10_0 : Ref sig .tc := ⟨.vmem, 147, rfl⟩
abbrev cc11_stg11_0 : Ref sig .tc := ⟨.vmem, 148, rfl⟩
abbrev cc11_stg11_1 : Ref sig .tc := ⟨.vmem, 149, rfl⟩
abbrev cc11_stg12_0 : Ref sig .tc := ⟨.vmem, 150, rfl⟩
abbrev cc11_stg12_1 : Ref sig .tc := ⟨.vmem, 151, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem8_0 : DmaSem sig := 35
abbrev cc2_sem9_0 : DmaSem sig := 36
abbrev cc2_sem10_0 : DmaSem sig := 37
abbrev cc2_sem10_1 : DmaSem sig := 38
abbrev cc2_sem11_0 : DmaSem sig := 39
abbrev cc2_sem11_1 : DmaSem sig := 40
abbrev cc3_sem0_0 : DmaSem sig := 41
abbrev cc3_sem0_1 : DmaSem sig := 42
abbrev cc3_sem1_0 : DmaSem sig := 43
abbrev cc3_sem2_0 : DmaSem sig := 44
abbrev cc3_sem2_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem3_0 : DmaSem sig := 51
abbrev cc4_sem3_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem2_1 : DmaSem sig := 58
abbrev cc5_sem3_0 : DmaSem sig := 59
abbrev cc5_sem3_1 : DmaSem sig := 60
abbrev cc5_sem4_0 : DmaSem sig := 61
abbrev cc5_sem4_1 : DmaSem sig := 62
abbrev cc5_sem5_0 : DmaSem sig := 63
abbrev cc5_sem5_1 : DmaSem sig := 64
abbrev cc5_sem6_0 : DmaSem sig := 65
abbrev cc5_sem6_1 : DmaSem sig := 66
abbrev cc5_sem7_0 : DmaSem sig := 67
abbrev cc5_sem7_1 : DmaSem sig := 68
abbrev cc5_sem8_0 : DmaSem sig := 69
abbrev cc5_sem9_0 : DmaSem sig := 70
abbrev cc5_sem10_0 : DmaSem sig := 71
abbrev cc5_sem11_0 : DmaSem sig := 72
abbrev cc5_sem11_1 : DmaSem sig := 73
abbrev cc5_sem12_0 : DmaSem sig := 74
abbrev cc5_sem12_1 : DmaSem sig := 75
abbrev cc6_sem0_0 : DmaSem sig := 76
abbrev cc6_sem0_1 : DmaSem sig := 77
abbrev cc6_sem1_0 : DmaSem sig := 78
abbrev cc6_sem2_0 : DmaSem sig := 79
abbrev cc6_sem3_0 : DmaSem sig := 80
abbrev cc6_sem3_1 : DmaSem sig := 81
abbrev cc6_sem4_0 : DmaSem sig := 82
abbrev cc6_sem4_1 : DmaSem sig := 83
abbrev cc7_sem0_0 : DmaSem sig := 84
abbrev cc7_sem0_1 : DmaSem sig := 85
abbrev cc7_sem1_0 : DmaSem sig := 86
abbrev cc7_sem1_1 : DmaSem sig := 87
abbrev cc7_sem2_0 : DmaSem sig := 88
abbrev cc7_sem3_0 : DmaSem sig := 89
abbrev cc7_sem3_1 : DmaSem sig := 90
abbrev cc7_sem4_0 : DmaSem sig := 91
abbrev cc7_sem5_0 : DmaSem sig := 92
abbrev cc7_sem5_1 : DmaSem sig := 93
abbrev cc7_sem6_0 : DmaSem sig := 94
abbrev cc7_sem6_1 : DmaSem sig := 95
abbrev cc8_sem0_0 : DmaSem sig := 96
abbrev cc8_sem0_1 : DmaSem sig := 97
abbrev cc8_sem1_0 : DmaSem sig := 98
abbrev cc8_sem1_1 : DmaSem sig := 99
abbrev cc8_sem2_0 : DmaSem sig := 100
abbrev cc8_sem2_1 : DmaSem sig := 101
abbrev cc8_sem3_0 : DmaSem sig := 102
abbrev cc8_sem3_1 : DmaSem sig := 103
abbrev cc8_sem4_0 : DmaSem sig := 104
abbrev cc8_sem4_1 : DmaSem sig := 105
abbrev cc8_sem5_0 : DmaSem sig := 106
abbrev cc8_sem5_1 : DmaSem sig := 107
abbrev cc8_sem6_0 : DmaSem sig := 108
abbrev cc8_sem6_1 : DmaSem sig := 109
abbrev cc8_sem7_0 : DmaSem sig := 110
abbrev cc8_sem8_0 : DmaSem sig := 111
abbrev cc8_sem9_0 : DmaSem sig := 112
abbrev cc8_sem10_0 : DmaSem sig := 113
abbrev cc8_sem10_1 : DmaSem sig := 114
abbrev cc8_sem11_0 : DmaSem sig := 115
abbrev cc8_sem11_1 : DmaSem sig := 116
abbrev cc9_sem0_0 : DmaSem sig := 117
abbrev cc9_sem0_1 : DmaSem sig := 118
abbrev cc9_sem1_0 : DmaSem sig := 119
abbrev cc9_sem2_0 : DmaSem sig := 120
abbrev cc9_sem2_1 : DmaSem sig := 121
abbrev cc10_sem0_0 : DmaSem sig := 122
abbrev cc10_sem0_1 : DmaSem sig := 123
abbrev cc10_sem1_0 : DmaSem sig := 124
abbrev cc10_sem1_1 : DmaSem sig := 125
abbrev cc10_sem2_0 : DmaSem sig := 126
abbrev cc10_sem3_0 : DmaSem sig := 127
abbrev cc10_sem3_1 : DmaSem sig := 128
abbrev cc11_sem0_0 : DmaSem sig := 129
abbrev cc11_sem0_1 : DmaSem sig := 130
abbrev cc11_sem1_0 : DmaSem sig := 131
abbrev cc11_sem1_1 : DmaSem sig := 132
abbrev cc11_sem2_0 : DmaSem sig := 133
abbrev cc11_sem2_1 : DmaSem sig := 134
abbrev cc11_sem3_0 : DmaSem sig := 135
abbrev cc11_sem3_1 : DmaSem sig := 136
abbrev cc11_sem4_0 : DmaSem sig := 137
abbrev cc11_sem4_1 : DmaSem sig := 138
abbrev cc11_sem5_0 : DmaSem sig := 139
abbrev cc11_sem5_1 : DmaSem sig := 140
abbrev cc11_sem6_0 : DmaSem sig := 141
abbrev cc11_sem6_1 : DmaSem sig := 142
abbrev cc11_sem7_0 : DmaSem sig := 143
abbrev cc11_sem7_1 : DmaSem sig := 144
abbrev cc11_sem8_0 : DmaSem sig := 145
abbrev cc11_sem9_0 : DmaSem sig := 146
abbrev cc11_sem10_0 : DmaSem sig := 147
abbrev cc11_sem11_0 : DmaSem sig := 148
abbrev cc11_sem11_1 : DmaSem sig := 149
abbrev cc11_sem12_0 : DmaSem sig := 150
abbrev cc11_sem12_1 : DmaSem sig := 151

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x2 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x2 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x2 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4096x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4096x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4096x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S3x2x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S3x64x128 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4096x64 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S4096x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1024x2048 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_9 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_12 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x2 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4096x2 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4096x2 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S4096x64 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S4096x64 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S4096x64 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S4096x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S4096x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 1 → Memref sig .tc .vmem S3x2x64 .bf16 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S3x64x64 .bf16 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x64 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 2 → Memref sig .tc .vmem S4096x64 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

abbrev stage5_12 : Fin 2 → Memref sig .tc .vmem S4096x64 .bf16 := fun | 0 => Memref.whole cc5_stg12_0 | 1 => Memref.whole cc5_stg12_1 | ⟨_ + 2, h⟩ => absurd h (Nat.not_lt.2 (Nat.le_add_left _ _))
abbrev sem5_12 : Fin 2 → DmaSem sig := fun | 0 => cc5_sem12_0 | 1 => cc5_sem12_1 | ⟨_ + 2, h⟩ => absurd h (Nat.not_lt.2 (Nat.le_add_left _ _))
abbrev reads5_12 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1024x2048 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S256x2048 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x2048 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S256x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1024x2048 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S256x2048 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1024x2048 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S256x2048 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S256x2048 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_8 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_11 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4096x64 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4096x64 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4096x64 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S4096x64 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S4096x64 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S4096x64 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S4096x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 1 → Memref sig .tc .vmem S3x64x128 .bf16 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S3x64x128 .bf16 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x128 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 2 → Memref sig .tc .vmem S4096x64 .bf16 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev stage8_11 : Fin 2 → Memref sig .tc .vmem S4096x64 .f32 := fun | 0 => Memref.whole cc8_stg11_0 | 1 => Memref.whole cc8_stg11_1 | ⟨_ + 2, h⟩ => absurd h (Nat.not_lt.2 (Nat.le_add_left _ _))
abbrev sem8_11 : Fin 2 → DmaSem sig := fun | 0 => cc8_sem11_0 | 1 => cc8_sem11_1 | ⟨_ + 2, h⟩ => absurd h (Nat.not_lt.2 (Nat.le_add_left _ _))
abbrev reads8_11 : Fin grid8.rank → Bool := ![true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S256x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1024x2048 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S256x2048 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S256x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S256x2048 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1024x2048 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S256x2048 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc11_transform_9 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc11_transform_10 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_11 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_12 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4096x64 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S4096x64 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S4096x64 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S4096x64 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S4096x64 .bf16 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S4096x64 .bf16 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S4096x64 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev stage11_7 : Fin 2 → Memref sig .tc .vmem S4096x64 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 1 → Memref sig .tc .vmem S3x64x64 .bf16 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 1 → Memref sig .tc .vmem S3x64x64 .bf16 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))
abbrev reads11_9 : Fin grid11.rank → Bool := ![false]

abbrev stage11_10 : Fin 1 → Memref sig .tc .vmem S1x64 .f32 := fun | 0 => Memref.whole cc11_stg10_0 | ⟨_ + 1, h⟩ => absurd h (Nat.not_lt.2 (Nat.le_add_left _ _))
abbrev sem11_10 : Fin 1 → DmaSem sig := fun | 0 => cc11_sem10_0 | ⟨_ + 1, h⟩ => absurd h (Nat.not_lt.2 (Nat.le_add_left _ _))
abbrev reads11_10 : Fin grid11.rank → Bool := ![false]

abbrev stage11_11 : Fin 2 → Memref sig .tc .vmem S4096x64 .f32 := fun | 0 => Memref.whole cc11_stg11_0 | 1 => Memref.whole cc11_stg11_1 | ⟨_ + 2, h⟩ => absurd h (Nat.not_lt.2 (Nat.le_add_left _ _))
abbrev sem11_11 : Fin 2 → DmaSem sig := fun | 0 => cc11_sem11_0 | 1 => cc11_sem11_1 | ⟨_ + 2, h⟩ => absurd h (Nat.not_lt.2 (Nat.le_add_left _ _))
abbrev reads11_11 : Fin grid11.rank → Bool := ![true]

abbrev stage11_12 : Fin 2 → Memref sig .tc .vmem S4096x64 .bf16 := fun | 0 => Memref.whole cc11_stg12_0 | 1 => Memref.whole cc11_stg12_1 | ⟨_ + 2, h⟩ => absurd h (Nat.not_lt.2 (Nat.le_add_left _ _))
abbrev sem11_12 : Fin 2 → DmaSem sig := fun | 0 => cc11_sem12_0 | 1 => cc11_sem12_1 | ⟨_ + 2, h⟩ => absurd h (Nat.not_lt.2 (Nat.le_add_left _ _))
abbrev reads11_12 : Fin grid11.rank → Bool := ![true]

class Facts₀ : Prop where
  bitsLt_bf16_f32 : FTy.bits .bf16 < FTy.bits .f32
  shapeCasts_S32x2048_S32x1024x2 : S32x2048.ShapeCasts S32x1024x2
  transposes_S32x1024x2_S1024x32x2_1_0_2 : S32x1024x2.Transposes [1, 0, 2] S1024x32x2
  shapeCasts_S1024x32x2_S32768x2 : S1024x32x2.ShapeCasts S32768x2
  slices_S2x32x65536_S1x32x65536_0_0_0 : S2x32x65536.Slices ![0, 0, 0] S1x32x65536
  shapeCasts_S1x32x65536_S32x65536 : S1x32x65536.ShapeCasts S32x65536
  shapeCasts_S32x65536_S32x1024x64 : S32x65536.ShapeCasts S32x1024x64
  transposes_S32x1024x64_S1024x32x64_1_0_2 : S32x1024x64.Transposes [1, 0, 2] S1024x32x64
  shapeCasts_S1024x32x64_S32768x64 : S1024x32x64.ShapeCasts S32768x64
  slices_S2x32x65536_S1x32x65536_1_0_0 : S2x32x65536.Slices ![1, 0, 0] S1x32x65536
  shapeCasts_S198x128_S66x3x128 : S198x128.ShapeCasts S66x3x128
  transposes_S66x3x128_S3x66x128_1_0_2 : S66x3x128.Transposes [1, 0, 2] S3x66x128
  slices_S3x66x128_S3x2x128_0_0_0 : S3x66x128.Slices ![0, 0, 0] S3x2x128
  slices_S3x66x128_S3x64x128_0_2_0 : S3x66x128.Slices ![0, 2, 0] S3x64x128
  shapeCasts_S198x64_S66x3x64 : S198x64.ShapeCasts S66x3x64
  transposes_S66x3x64_S3x66x64_1_0_2 : S66x3x64.Transposes [1, 0, 2] S3x66x64
  slices_S3x66x64_S3x2x64_0_0_0 : S3x66x64.Slices ![0, 0, 0] S3x2x64
  slices_S3x66x64_S3x64x64_0_2_0 : S3x66x64.Slices ![0, 2, 0] S3x64x64
  shapeCasts_S384x128_S128x3x128 : S384x128.ShapeCasts S128x3x128
  transposes_S128x3x128_S3x128x128_1_0_2 : S128x3x128.Transposes [1, 0, 2] S3x128x128
  slices_S3x128x128_S3x64x128_0_0_0 : S3x128x128.Slices ![0, 0, 0] S3x64x128
  slices_S3x128x128_S3x64x128_0_64_0 : S3x128x128.Slices ![0, 64, 0] S3x64x128
  shapeCasts_S384x64_S128x3x64 : S384x64.ShapeCasts S128x3x64
  transposes_S128x3x64_S3x128x64_1_0_2 : S128x3x64.Transposes [1, 0, 2] S3x128x64
  slices_S3x128x64_S3x64x64_0_0_0 : S3x128x64.Slices ![0, 0, 0] S3x64x64
  slices_S3x128x64_S3x64x64_0_64_0 : S3x128x64.Slices ![0, 64, 0] S3x64x64
  shapeCasts_S128_S1x128 : S128.ShapeCasts S1x128
  shapeCasts_S64_S1x64 : S64.ShapeCasts S1x64
  shapeCasts_S32768x2_S1024x64 : S32768x2.ShapeCasts S1024x64
  shapeCasts_S32768x64_S1024x2048 : S32768x64.ShapeCasts S1024x2048
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S256x64_S256x64_0_0 : ∀ a, (![0, 0] : Fin 2 → Nat) a + S256x64.size a ≤ S256x64.size a
  h_S256x64 : 0 < S256x64.numel
  packedbf16_S256x64_S256x64_0_0 : (Rect.unit (s := S256x64) ![0, 0] S256x64.size inb_S256x64_S256x64_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  packedbf16_S256x2048_S256x2048_0_0 : (Rect.unit (s := S256x2048) ![0, 0] S256x2048.size inb_S256x2048_S256x2048_0_0).PackedRows (EltTy.packing .bf16)
  shapeCasts_S256x64_S256x64 : S256x64.ShapeCasts S256x64
  shapeCasts_S256x2048_S256x2048 : S256x2048.ShapeCasts S256x2048
  shapeCasts_S1024x64_S32768x2 : S1024x64.ShapeCasts S32768x2
  shapeCasts_S1024x2048_S32768x64 : S1024x2048.ShapeCasts S32768x64
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  inb_S3x2x128_S1x2x128_0_0_0 : ∀ a, (![0, 0, 0] : Fin 3 → Nat) a + S1x2x128.size a ≤ S3x2x128.size a
  h_S1x2x128 : 0 < S1x2x128.numel
  shapeCasts_S1x2x128_S2x128 : S1x2x128.ShapeCasts S2x128
  inb_S3x2x128_S1x2x128_1_0_0 : ∀ a, (![1, 0, 0] : Fin 3 → Nat) a + S1x2x128.size a ≤ S3x2x128.size a
  inb_S3x2x128_S1x2x128_2_0_0 : ∀ a, (![2, 0, 0] : Fin 3 → Nat) a + S1x2x128.size a ≤ S3x2x128.size a
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S3x64x128_S1x64x128_0_0_0 : ∀ a, (![0, 0, 0] : Fin 3 → Nat) a + S1x64x128.size a ≤ S3x64x128.size a
  h_S1x64x128 : 0 < S1x64x128.numel
  shapeCasts_S1x64x128_S64x128 : S1x64x128.ShapeCasts S64x128
  inb_S3x64x128_S1x64x128_1_0_0 : ∀ a, (![1, 0, 0] : Fin 3 → Nat) a + S1x64x128.size a ≤ S3x64x128.size a
  inb_S3x64x128_S1x64x128_2_0_0 : ∀ a, (![2, 0, 0] : Fin 3 → Nat) a + S1x64x128.size a ≤ S3x64x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S4096x128_o0_0_S4096x64 : S4096x128.Slices ![0, 0] S4096x64
  slices_S4096x128_o0_64_S4096x64 : S4096x128.Slices ![0, 64] S4096x64
  packedbf16_S4096x64_S4096x64_0_0 : (Rect.unit (s := S4096x64) ![0, 0] S4096x64.size inb_S4096x64_S4096x64_0_0).PackedRows (EltTy.packing .bf16)
  inb_S3x2x64_S1x2x64_0_0_0 : ∀ a, (![0, 0, 0] : Fin 3 → Nat) a + S1x2x64.size a ≤ S3x2x64.size a
  h_S1x2x64 : 0 < S1x2x64.numel
  shapeCasts_S1x2x64_S2x64 : S1x2x64.ShapeCasts S2x64
  inb_S3x2x64_S1x2x64_1_0_0 : ∀ a, (![1, 0, 0] : Fin 3 → Nat) a + S1x2x64.size a ≤ S3x2x64.size a
  inb_S3x2x64_S1x2x64_2_0_0 : ∀ a, (![2, 0, 0] : Fin 3 → Nat) a + S1x2x64.size a ≤ S3x2x64.size a
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  shapeCasts_S32768x64_S1024x32x64 : S32768x64.ShapeCasts S1024x32x64
  transposes_S1024x32x64_S32x1024x64_1_0_2 : S1024x32x64.Transposes [1, 0, 2] S32x1024x64
  shapeCasts_S32x1024x64_S32x65536 : S32x1024x64.ShapeCasts S32x65536
  bcast_S32x65536_S1x32x65536_1_2 : S32x65536.BroadcastsInDim S1x32x65536 (![1, 2] : Fin 2 → Fin S1x32x65536.rank)
  concatenates_S1x32x65536_S1x32x65536_S2x32x65536_d0 : Shape.Concatenates [S1x32x65536, S1x32x65536] S2x32x65536 0
  dot_S256x1024_S1024x64_S256x64_1_0_0_1_n_n_wf : DotDims.WF S256x1024 S1024x64 S256x64 [1] [0] [0] [1] [] []
  dot_S256x1024_S1024x2048_S256x2048_1_0_0_1_n_n_wf : DotDims.WF S256x1024 S1024x2048 S256x2048 [1] [0] [0] [1] [] []
  dot_S4096x2_S2x128_S4096x128_1_0_0_1_n_n_wf : DotDims.WF S4096x2 S2x128 S4096x128 [1] [0] [0] [1] [] []
  dot_S4096x64_S64x128_S4096x128_1_0_0_1_n_n_wf : DotDims.WF S4096x64 S64x128 S4096x128 [1] [0] [0] [1] [] []
  dot_S4096x2_S2x64_S4096x64_1_0_0_1_n_n_wf : DotDims.WF S4096x2 S2x64 S4096x64 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .bf16 = 32 ∨ (Rect.block (s := S1024x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .bf16 = 32 ∨ (Rect.block (s := S1024x64) S1024x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S1024x64.size a
  hwx0_3 : ∀ i : grid0.Coords, EltTy.bits .bf16 = 32 ∨ (Rect.block (s := S1024x64) S256x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S1024x2048.size a
  hwx0_4 : ∀ i : grid0.Coords, EltTy.bits .bf16 = 32 ∨ (Rect.block (s := S1024x2048) S256x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S1024x1024.size a
  hwx1_0 : ∀ i : grid1.Coords, EltTy.bits .bf16 = 32 ∨ (Rect.block (s := S1024x1024) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S1024x64.size a
  hwx1_1 : ∀ i : grid1.Coords, EltTy.bits .bf16 = 32 ∨ (Rect.block (s := S1024x64) S256x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S1024x64.size a
  hwx1_2 : ∀ i : grid1.Coords, EltTy.bits .bf16 = 32 ∨ (Rect.block (s := S1024x64) S1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S1024x2048.size a
  hwx1_3 : ∀ i : grid1.Coords, EltTy.bits .bf16 = 32 ∨ (Rect.block (s := S1024x2048) S256x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x2048.size a ≤ S1024x2048.size a
  hwx1_4 : ∀ i : grid1.Coords, EltTy.bits .bf16 = 32 ∨ (Rect.block (s := S1024x2048) S1024x2048.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S1024x64.size a
  hwx1_5 : ∀ i : grid1.Coords, EltTy.bits .bf16 = 32 ∨ (Rect.block (s := S1024x64) S256x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x2048.size a ≤ S1024x2048.size a
  hwx1_6 : ∀ i : grid1.Coords, EltTy.bits .bf16 = 32 ∨ (Rect.block (s := S1024x2048) S256x2048.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x2.size a ≤ S32768x2.size a
  hwx2_0 : ∀ i : grid2.Coords, EltTy.bits .bf16 = 32 ∨ (Rect.block (s := S32768x2) S4096x2.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x2.size a ≤ S32768x2.size a
  hwx2_1 : ∀ i : grid2.Coords, EltTy.bits .bf16 = 32 ∨ (Rect.block (s := S32768x2) S4096x2.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x2.size a ≤ S32768x2.size a
  hwx2_2 : ∀ i : grid2.Coords, EltTy.bits .bf16 = 32 ∨ (Rect.block (s := S32768x2) S4096x2.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x64.size a ≤ S32768x64.size a
  hwx2_3 : ∀ i : grid2.Coords, EltTy.bits .bf16 = 32 ∨ (Rect.block (s := S32768x64) S4096x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x64.size a ≤ S32768x64.size a
  hwx2_4 : ∀ i : grid2.Coords, EltTy.bits .bf16 = 32 ∨ (Rect.block (s := S32768x64) S4096x64.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x64.size a ≤ S32768x64.size a
  hwx2_5 : ∀ i : grid2.Coords, EltTy.bits .bf16 = 32 ∨ (Rect.block (s := S32768x64) S4096x64.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4096x64.size a ≤ S32768x64.size a
  hwx2_6 : ∀ i : grid2.Coords, EltTy.bits .f32 = 32 ∨ (Rect.block (s := S32768x64) S4096x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S3x2x128.size a ≤ S3x2x128.size a
  hwx2_7 : ∀ i : grid2.Coords, EltTy.bits .bf16 = 32 ∨ (Rect.block (s := S3x2x128) S3x2x128.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S3x64x128.size a ≤ S3x64x128.size a
  hwx2_8 : ∀ i : grid2.Coords, EltTy.bits .bf16 = 32 ∨ (Rect.block (s := S3x64x128) S3x64x128.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4096x64.size a ≤ S32768x64.size a
  hwx2_10 : ∀ i : grid2.Coords, EltTy.bits .bf16 = 32 ∨ (Rect.block (s := S32768x64) S4096x64.size (cc2_transform_10 i) (hinb2_10 i)).WholeWords (EltTy.packing .bf16)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S4096x64.size a ≤ S32768x64.size a
  hwx2_11 : ∀ i : grid2.Coords, EltTy.bits .f32 = 32 ∨ (Rect.block (s := S32768x64) S4096x64.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S1024x1024.size a
  hwx3_0 : ∀ i : grid3.Coords, EltTy.bits .bf16 = 32 ∨ (Rect.block (s := S1024x1024) S256x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S1024x2048.size a
  hwx3_1 : ∀ i : grid3.Coords, EltTy.bits .bf16 = 32 ∨ (Rect.block (s := S1024x2048) S1024x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x2048.size a ≤ S1024x2048.size a
  hwx3_2 : ∀ i : grid3.Coords, EltTy.bits .bf16 = 32 ∨ (Rect.block (s := S1024x2048) S256x2048.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x1024.size a ≤ S1024x1024.size a
  hwx4_0 : ∀ i : grid4.Coords, EltTy.bits .bf16 = 32 ∨ (Rect.block (s := S1024x1024) S256x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x2048.size a ≤ S1024x2048.size a
  hwx4_1 : ∀ i : grid4.Coords, EltTy.bits .bf16 = 32 ∨ (Rect.block (s := S1024x2048) S256x2048.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024x2048.size a ≤ S1024x2048.size a
  hwx4_2 : ∀ i : grid4.Coords, EltTy.bits .bf16 = 32 ∨ (Rect.block (s := S1024x2048) S1024x2048.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x2048.size a ≤ S1024x2048.size a
  hwx4_3 : ∀ i : grid4.Coords, EltTy.bits .bf16 = 32 ∨ (Rect.block (s := S1024x2048) S256x2048.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x2.size a ≤ S32768x2.size a
  hwx5_0 : ∀ i : grid5.Coords, EltTy.bits .bf16 = 32 ∨ (Rect.block (s := S32768x2) S4096x2.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x2.size a ≤ S32768x2.size a
  hwx5_1 : ∀ i : grid5.Coords, EltTy.bits .bf16 = 32 ∨ (Rect.block (s := S32768x2) S4096x2.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x2.size a ≤ S32768x2.size a
  hwx5_2 : ∀ i : grid5.Coords, EltTy.bits .bf16 = 32 ∨ (Rect.block (s := S32768x2) S4096x2.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x64.size a ≤ S32768x64.size a
  hwx5_3 : ∀ i : grid5.Coords, EltTy.bits .bf16 = 32 ∨ (Rect.block (s := S32768x64) S4096x64.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4096x64.size a ≤ S32768x64.size a
  hwx5_4 : ∀ i : grid5.Coords, EltTy.bits .bf16 = 32 ∨ (Rect.block (s := S32768x64) S4096x64.size (cc5_transform_4 i) (hinb5_4 i)).WholeWords (EltTy.packing .bf16)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4096x64.size a ≤ S32768x64.size a
  hwx5_5 : ∀ i : grid5.Coords, EltTy.bits .bf16 = 32 ∨ (Rect.block (s := S32768x64) S4096x64.size (cc5_transform_5 i) (hinb5_5 i)).WholeWords (EltTy.packing .bf16)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4096x64.size a ≤ S32768x64.size a
  hwx5_6 : ∀ i : grid5.Coords, EltTy.bits .f32 = 32 ∨ (Rect.block (s := S32768x64) S4096x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S4096x64.size a ≤ S32768x64.size a
  hwx5_7 : ∀ i : grid5.Coords, EltTy.bits .f32 = 32 ∨ (Rect.block (s := S32768x64) S4096x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S3x2x64.size a ≤ S3x2x64.size a
  hwx5_8 : ∀ i : grid5.Coords, EltTy.bits .bf16 = 32 ∨ (Rect.block (s := S3x2x64) S3x2x64.size (cc5_transform_8 i) (hinb5_8 i)).WholeWords (EltTy.packing .bf16)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S3x64x64.size a ≤ S3x64x64.size a
  hwx5_9 : ∀ i : grid5.Coords, EltTy.bits .bf16 = 32 ∨ (Rect.block (s := S3x64x64) S3x64x64.size (cc5_transform_9 i) (hinb5_9 i)).WholeWords (EltTy.packing .bf16)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x64.size a ≤ S1x64.size a
  hwx5_10 : ∀ i : grid5.Coords, EltTy.bits .f32 = 32 ∨ (Rect.block (s := S1x64) S1x64.size (cc5_transform_10 i) (hinb5_10 i)).WholeWords (EltTy.packing .f32)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S4096x64.size a ≤ S32768x64.size a
  hwx5_11 : ∀ i : grid5.Coords, EltTy.bits .f32 = 32 ∨ (Rect.block (s := S32768x64) S4096x64.size (cc5_transform_11 i) (hinb5_11 i)).WholeWords (EltTy.packing .f32)
  hstage5_12 : ∀ j, (stage5_12 j).IsWhole
  nbuf5_12 : grid5.bufCount reads5_12 false = 2
  hreads5_12 : ∀ i i' : grid5.Coords, (∀ a, reads5_12 a = true → i a = i' a) → cc5_transform_12 i = cc5_transform_12 i'
  hinb5_12 : ∀ (i : grid5.Coords) a, (cc5_transform_12 i a + 1) * S4096x64.size a ≤ S32768x64.size a
  hwx5_12 : ∀ i : grid5.Coords, EltTy.bits .bf16 = 32 ∨ (Rect.block (s := S32768x64) S4096x64.size (cc5_transform_12 i) (hinb5_12 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x1024.size a ≤ S1024x1024.size a
  hwx6_0 : ∀ i : grid6.Coords, EltTy.bits .bf16 = 32 ∨ (Rect.block (s := S1024x1024) S256x1024.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x2048.size a ≤ S1024x2048.size a
  hwx6_1 : ∀ i : grid6.Coords, EltTy.bits .bf16 = 32 ∨ (Rect.block (s := S1024x2048) S1024x2048.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1024x2048.size a ≤ S1024x2048.size a
  hwx6_2 : ∀ i : grid6.Coords, EltTy.bits .bf16 = 32 ∨ (Rect.block (s := S1024x2048) S1024x2048.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S256x2048.size a ≤ S1024x2048.size a
  hwx6_3 : ∀ i : grid6.Coords, EltTy.bits .bf16 = 32 ∨ (Rect.block (s := S1024x2048) S256x2048.size (cc6_transform_3 i) (hinb6_3 i)).WholeWords (EltTy.packing .bf16)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S256x2048.size a ≤ S1024x2048.size a
  hwx6_4 : ∀ i : grid6.Coords, EltTy.bits .bf16 = 32 ∨ (Rect.block (s := S1024x2048) S256x2048.size (cc6_transform_4 i) (hinb6_4 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x1024.size a ≤ S1024x1024.size a
  hwx7_0 : ∀ i : grid7.Coords, EltTy.bits .bf16 = 32 ∨ (Rect.block (s := S1024x1024) S256x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S256x2048.size a ≤ S1024x2048.size a
  hwx7_1 : ∀ i : grid7.Coords, EltTy.bits .bf16 = 32 ∨ (Rect.block (s := S1024x2048) S256x2048.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1024x2048.size a ≤ S1024x2048.size a
  hwx7_2 : ∀ i : grid7.Coords, EltTy.bits .bf16 = 32 ∨ (Rect.block (s := S1024x2048) S1024x2048.size (cc7_transform_2 i) (hinb7_2 i)).WholeWords (EltTy.packing .bf16)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S256x2048.size a ≤ S1024x2048.size a
  hwx7_3 : ∀ i : grid7.Coords, EltTy.bits .bf16 = 32 ∨ (Rect.block (s := S1024x2048) S256x2048.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1024x2048.size a ≤ S1024x2048.size a
  hwx7_4 : ∀ i : grid7.Coords, EltTy.bits .bf16 = 32 ∨ (Rect.block (s := S1024x2048) S1024x2048.size (cc7_transform_4 i) (hinb7_4 i)).WholeWords (EltTy.packing .bf16)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S256x2048.size a ≤ S1024x2048.size a
  hwx7_5 : ∀ i : grid7.Coords, EltTy.bits .bf16 = 32 ∨ (Rect.block (s := S1024x2048) S256x2048.size (cc7_transform_5 i) (hinb7_5 i)).WholeWords (EltTy.packing .bf16)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S256x2048.size a ≤ S1024x2048.size a
  hwx7_6 : ∀ i : grid7.Coords, EltTy.bits .bf16 = 32 ∨ (Rect.block (s := S1024x2048) S256x2048.size (cc7_transform_6 i) (hinb7_6 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x64.size a ≤ S32768x64.size a
  hwx8_0 : ∀ i : grid8.Coords, EltTy.bits .bf16 = 32 ∨ (Rect.block (s := S32768x64) S4096x64.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x64.size a ≤ S32768x64.size a
  hwx8_1 : ∀ i : grid8.Coords, EltTy.bits .bf16 = 32 ∨ (Rect.block (s := S32768x64) S4096x64.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4096x64.size a ≤ S32768x64.size a
  hwx8_2 : ∀ i : grid8.Coords, EltTy.bits .bf16 = 32 ∨ (Rect.block (s := S32768x64) S4096x64.size (cc8_transform_2 i) (hinb8_2 i)).WholeWords (EltTy.packing .bf16)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4096x64.size a ≤ S32768x64.size a
  hwx8_3 : ∀ i : grid8.Coords, EltTy.bits .bf16 = 32 ∨ (Rect.block (s := S32768x64) S4096x64.size (cc8_transform_3 i) (hinb8_3 i)).WholeWords (EltTy.packing .bf16)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S4096x64.size a ≤ S32768x64.size a
  hwx8_4 : ∀ i : grid8.Coords, EltTy.bits .bf16 = 32 ∨ (Rect.block (s := S32768x64) S4096x64.size (cc8_transform_4 i) (hinb8_4 i)).WholeWords (EltTy.packing .bf16)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S4096x64.size a ≤ S32768x64.size a
  hwx8_5 : ∀ i : grid8.Coords, EltTy.bits .bf16 = 32 ∨ (Rect.block (s := S32768x64) S4096x64.size (cc8_transform_5 i) (hinb8_5 i)).WholeWords (EltTy.packing .bf16)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S4096x64.size a ≤ S32768x64.size a
  hwx8_6 : ∀ i : grid8.Coords, EltTy.bits .f32 = 32 ∨ (Rect.block (s := S32768x64) S4096x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S3x64x128.size a ≤ S3x64x128.size a
  hwx8_7 : ∀ i : grid8.Coords, EltTy.bits .bf16 = 32 ∨ (Rect.block (s := S3x64x128) S3x64x128.size (cc8_transform_7 i) (hinb8_7 i)).WholeWords (EltTy.packing .bf16)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S3x64x128.size a ≤ S3x64x128.size a
  hwx8_8 : ∀ i : grid8.Coords, EltTy.bits .bf16 = 32 ∨ (Rect.block (s := S3x64x128) S3x64x128.size (cc8_transform_8 i) (hinb8_8 i)).WholeWords (EltTy.packing .bf16)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x128.size a ≤ S1x128.size a
  hwx8_9 : ∀ i : grid8.Coords, EltTy.bits .f32 = 32 ∨ (Rect.block (s := S1x128) S1x128.size (cc8_transform_9 i) (hinb8_9 i)).WholeWords (EltTy.packing .f32)
  hstage8_10 : ∀ j, (stage8_10 j).IsWhole
  nbuf8_10 : grid8.bufCount reads8_10 false = 2
  hreads8_10 : ∀ i i' : grid8.Coords, (∀ a, reads8_10 a = true → i a = i' a) → cc8_transform_10 i = cc8_transform_10 i'
  hinb8_10 : ∀ (i : grid8.Coords) a, (cc8_transform_10 i a + 1) * S4096x64.size a ≤ S32768x64.size a
  hwx8_10 : ∀ i : grid8.Coords, EltTy.bits .bf16 = 32 ∨ (Rect.block (s := S32768x64) S4096x64.size (cc8_transform_10 i) (hinb8_10 i)).WholeWords (EltTy.packing .bf16)
  hstage8_11 : ∀ j, (stage8_11 j).IsWhole
  nbuf8_11 : grid8.bufCount reads8_11 false = 2
  hreads8_11 : ∀ i i' : grid8.Coords, (∀ a, reads8_11 a = true → i a = i' a) → cc8_transform_11 i = cc8_transform_11 i'
  hinb8_11 : ∀ (i : grid8.Coords) a, (cc8_transform_11 i a + 1) * S4096x64.size a ≤ S32768x64.size a
  hwx8_11 : ∀ i : grid8.Coords, EltTy.bits .f32 = 32 ∨ (Rect.block (s := S32768x64) S4096x64.size (cc8_transform_11 i) (hinb8_11 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S256x1024.size a ≤ S1024x1024.size a
  hwx9_0 : ∀ i : grid9.Coords, EltTy.bits .bf16 = 32 ∨ (Rect.block (s := S1024x1024) S256x1024.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1024x2048.size a ≤ S1024x2048.size a
  hwx9_1 : ∀ i : grid9.Coords, EltTy.bits .bf16 = 32 ∨ (Rect.block (s := S1024x2048) S1024x2048.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S256x2048.size a ≤ S1024x2048.size a
  hwx9_2 : ∀ i : grid9.Coords, EltTy.bits .bf16 = 32 ∨ (Rect.block (s := S1024x2048) S256x2048.size (cc9_transform_2 i) (hinb9_2 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S256x1024.size a ≤ S1024x1024.size a
  hwx10_0 : ∀ i : grid10.Coords, EltTy.bits .bf16 = 32 ∨ (Rect.block (s := S1024x1024) S256x1024.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S256x2048.size a ≤ S1024x2048.size a
  hwx10_1 : ∀ i : grid10.Coords, EltTy.bits .bf16 = 32 ∨ (Rect.block (s := S1024x2048) S256x2048.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1024x2048.size a ≤ S1024x2048.size a
  hwx10_2 : ∀ i : grid10.Coords, EltTy.bits .bf16 = 32 ∨ (Rect.block (s := S1024x2048) S1024x2048.size (cc10_transform_2 i) (hinb10_2 i)).WholeWords (EltTy.packing .bf16)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S256x2048.size a ≤ S1024x2048.size a
  hwx10_3 : ∀ i : grid10.Coords, EltTy.bits .bf16 = 32 ∨ (Rect.block (s := S1024x2048) S256x2048.size (cc10_transform_3 i) (hinb10_3 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4096x64.size a ≤ S32768x64.size a
  hwx11_0 : ∀ i : grid11.Coords, EltTy.bits .bf16 = 32 ∨ (Rect.block (s := S32768x64) S4096x64.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S4096x64.size a ≤ S32768x64.size a
  hwx11_1 : ∀ i : grid11.Coords, EltTy.bits .bf16 = 32 ∨ (Rect.block (s := S32768x64) S4096x64.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S4096x64.size a ≤ S32768x64.size a
  hwx11_2 : ∀ i : grid11.Coords, EltTy.bits .bf16 = 32 ∨ (Rect.block (s := S32768x64) S4096x64.size (cc11_transform_2 i) (hinb11_2 i)).WholeWords (EltTy.packing .bf16)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S4096x64.size a ≤ S32768x64.size a
  hwx11_3 : ∀ i : grid11.Coords, EltTy.bits .bf16 = 32 ∨ (Rect.block (s := S32768x64) S4096x64.size (cc11_transform_3 i) (hinb11_3 i)).WholeWords (EltTy.packing .bf16)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S4096x64.size a ≤ S32768x64.size a
  hwx11_4 : ∀ i : grid11.Coords, EltTy.bits .bf16 = 32 ∨ (Rect.block (s := S32768x64) S4096x64.size (cc11_transform_4 i) (hinb11_4 i)).WholeWords (EltTy.packing .bf16)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S4096x64.size a ≤ S32768x64.size a
  hwx11_5 : ∀ i : grid11.Coords, EltTy.bits .bf16 = 32 ∨ (Rect.block (s := S32768x64) S4096x64.size (cc11_transform_5 i) (hinb11_5 i)).WholeWords (EltTy.packing .bf16)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S4096x64.size a ≤ S32768x64.size a
  hwx11_6 : ∀ i : grid11.Coords, EltTy.bits .f32 = 32 ∨ (Rect.block (s := S32768x64) S4096x64.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S4096x64.size a ≤ S32768x64.size a
  hwx11_7 : ∀ i : grid11.Coords, EltTy.bits .f32 = 32 ∨ (Rect.block (s := S32768x64) S4096x64.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S3x64x64.size a ≤ S3x64x64.size a
  hwx11_8 : ∀ i : grid11.Coords, EltTy.bits .bf16 = 32 ∨ (Rect.block (s := S3x64x64) S3x64x64.size (cc11_transform_8 i) (hinb11_8 i)).WholeWords (EltTy.packing .bf16)
  hstage11_9 : ∀ j, (stage11_9 j).IsWhole
  nbuf11_9 : grid11.bufCount reads11_9 true = 1
  hreads11_9 : ∀ i i' : grid11.Coords, (∀ a, reads11_9 a = true → i a = i' a) → cc11_transform_9 i = cc11_transform_9 i'
  hinb11_9 : ∀ (i : grid11.Coords) a, (cc11_transform_9 i a + 1) * S3x64x64.size a ≤ S3x64x64.size a
  hwx11_9 : ∀ i : grid11.Coords, EltTy.bits .bf16 = 32 ∨ (Rect.block (s := S3x64x64) S3x64x64.size (cc11_transform_9 i) (hinb11_9 i)).WholeWords (EltTy.packing .bf16)
  hstage11_10 : ∀ j, (stage11_10 j).IsWhole
  nbuf11_10 : grid11.bufCount reads11_10 true = 1
  hreads11_10 : ∀ i i' : grid11.Coords, (∀ a, reads11_10 a = true → i a = i' a) → cc11_transform_10 i = cc11_transform_10 i'
  hinb11_10 : ∀ (i : grid11.Coords) a, (cc11_transform_10 i a + 1) * S1x64.size a ≤ S1x64.size a
  hwx11_10 : ∀ i : grid11.Coords, EltTy.bits .f32 = 32 ∨ (Rect.block (s := S1x64) S1x64.size (cc11_transform_10 i) (hinb11_10 i)).WholeWords (EltTy.packing .f32)
  hstage11_11 : ∀ j, (stage11_11 j).IsWhole
  nbuf11_11 : grid11.bufCount reads11_11 false = 2
  hreads11_11 : ∀ i i' : grid11.Coords, (∀ a, reads11_11 a = true → i a = i' a) → cc11_transform_11 i = cc11_transform_11 i'
  hinb11_11 : ∀ (i : grid11.Coords) a, (cc11_transform_11 i a + 1) * S4096x64.size a ≤ S32768x64.size a
  hwx11_11 : ∀ i : grid11.Coords, EltTy.bits .f32 = 32 ∨ (Rect.block (s := S32768x64) S4096x64.size (cc11_transform_11 i) (hinb11_11 i)).WholeWords (EltTy.packing .f32)
  hstage11_12 : ∀ j, (stage11_12 j).IsWhole
  nbuf11_12 : grid11.bufCount reads11_12 false = 2
  hreads11_12 : ∀ i i' : grid11.Coords, (∀ a, reads11_12 a = true → i a = i' a) → cc11_transform_12 i = cc11_transform_12 i'
  hinb11_12 : ∀ (i : grid11.Coords) a, (cc11_transform_12 i a + 1) * S4096x64.size a ≤ S32768x64.size a
  hwx11_12 : ∀ i : grid11.Coords, EltTy.bits .bf16 = 32 ∨ (Rect.block (s := S32768x64) S4096x64.size (cc11_transform_12 i) (hinb11_12 i)).WholeWords (EltTy.packing .bf16)

variable [Facts₀]

def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S4096x2_S2x128_S4096x128_1_0_0_1_n_n : DotDims S4096x2 S2x128 S4096x128 where
  lhsContracting := [1]
  rhsContracting := [0]
  lhsNonContracting := [0]
  rhsNonContracting := [1]
  lhsBatch := []
  rhsBatch := []
  wf := dot_S4096x2_S2x128_S4096x128_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x2_S2x64_S4096x64_1_0_0_1_n_n : DotDims S4096x2 S2x64 S4096x64 where
  lhsContracting := [1]
  rhsContracting := [0]
  lhsNonContracting := [0]
  rhsNonContracting := [1]
  lhsBatch := []
  rhsBatch := []
  wf := dot_S4096x2_S2x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42_0) S256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42_1) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42_0) S1024x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v42_1) S1024x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43_0) S256x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v43_1) S256x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v4) S4096x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S4096x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S4096x2.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S4096x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v46) S4096x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v47) S4096x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v9) S4096x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v18) S3x2x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v19) S3x64x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v35) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v48_0) S4096x64.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v48_1) S4096x64.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v0) S256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1024x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S256x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v0) S256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S256x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1024x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S256x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v4) S4096x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S4096x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S4096x2.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v48_0) S4096x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v54) S4096x64.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v55) S4096x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v48_1) S4096x64.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v9) S4096x64.size cc5_transform_7 reads5_7 false false 2 stage5_7 sem5_7
    hrank5 hreads5_7 hinb5_7 nbuf5_7 (Memref.isWhole_whole _) hwx5_7 hstage5_7

abbrev win5_8 : Pipeline.Window sig grid5 :=
  Pipeline.Window.ofSpec (Memref.whole main_v23) S3x2x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v24) S3x64x64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v36) S1x64.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v56_0) S4096x64.size cc5_transform_11 reads5_11 true false 2 stage5_11 sem5_11
    hrank5 hreads5_11 hinb5_11 nbuf5_11 (Memref.isWhole_whole _) hwx5_11 hstage5_11

abbrev win5_12 : Pipeline.Window sig grid5 :=
  Pipeline.Window.ofSpec (Memref.whole main_v56_1) S4096x64.size cc5_transform_12 reads5_12 true false 2 stage5_12 sem5_12
    hrank5 hreads5_12 hinb5_12 nbuf5_12 (Memref.isWhole_whole _) hwx5_12 hstage5_12

abbrev win5 : Fin 13 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | ⟨_ + 13, h⟩ => absurd h (Nat.not_lt.2 (Nat.le_add_left _ _))
abbrev spec5 : Fin 13 → Pipeline.WinSpec sig grid5.rank := fun w => (win5 w).toWinSpec

abbrev win6_0 : Pipeline.Window sig grid6 :=
  Pipeline.Window.ofSpec (Memref.whole main_v0) S256x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v58) S1024x2048.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v59) S1024x2048.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v60_0) S256x2048.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v60_1) S256x2048.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v0) S256x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v58) S256x2048.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v60_0) S1024x2048.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v59) S256x2048.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v60_1) S1024x2048.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v61_0) S256x2048.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v61_1) S256x2048.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v56_1) S4096x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v62) S4096x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v63) S4096x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v57) S4096x64.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v64) S4096x64.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v65) S4096x64.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v14) S4096x64.size cc8_transform_6 reads8_6 false false 2 stage8_6 sem8_6
    hrank8 hreads8_6 hinb8_6 nbuf8_6 (Memref.isWhole_whole _) hwx8_6 hstage8_6

abbrev win8_7 : Pipeline.Window sig grid8 :=
  Pipeline.Window.ofSpec (Memref.whole main_v28) S3x64x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v29) S3x64x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v37) S1x128.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v66_0) S4096x64.size cc8_transform_10 reads8_10 true false 2 stage8_10 sem8_10
    hrank8 hreads8_10 hinb8_10 nbuf8_10 (Memref.isWhole_whole _) hwx8_10 hstage8_10

abbrev win8_11 : Pipeline.Window sig grid8 :=
  Pipeline.Window.ofSpec (Memref.whole main_v66_1) S4096x64.size cc8_transform_11 reads8_11 true false 2 stage8_11 sem8_11
    hrank8 hreads8_11 hinb8_11 nbuf8_11 (Memref.isWhole_whole _) hwx8_11 hstage8_11

abbrev win8 : Fin 12 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | ⟨_ + 12, h⟩ => absurd h (Nat.not_lt.2 (Nat.le_add_left _ _))
abbrev spec8 : Fin 12 → Pipeline.WinSpec sig grid8.rank := fun w => (win8 w).toWinSpec

abbrev win9_0 : Pipeline.Window sig grid9 :=
  Pipeline.Window.ofSpec (Memref.whole main_v0) S256x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v67) S1024x2048.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v68) S256x2048.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v0) S256x1024.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v67) S256x2048.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v68) S1024x2048.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v69) S256x2048.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v56_1) S4096x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v70) S4096x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v71) S4096x64.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v66_0) S4096x64.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v72) S4096x64.size cc11_transform_4 reads11_4 false false 2 stage11_4 sem11_4
    hrank11 hreads11_4 hinb11_4 nbuf11_4 (Memref.isWhole_whole _) hwx11_4 hstage11_4

abbrev win11_5 : Pipeline.Window sig grid11 :=
  Pipeline.Window.ofSpec (Memref.whole main_v73) S4096x64.size cc11_transform_5 reads11_5 false false 2 stage11_5 sem11_5
    hrank11 hreads11_5 hinb11_5 nbuf11_5 (Memref.isWhole_whole _) hwx11_5 hstage11_5

abbrev win11_6 : Pipeline.Window sig grid11 :=
  Pipeline.Window.ofSpec (Memref.whole main_v66_1) S4096x64.size cc11_transform_6 reads11_6 false false 2 stage11_6 sem11_6
    hrank11 hreads11_6 hinb11_6 nbuf11_6 (Memref.isWhole_whole _) hwx11_6 hstage11_6

abbrev win11_7 : Pipeline.Window sig grid11 :=
  Pipeline.Window.ofSpec (Memref.whole main_v14) S4096x64.size cc11_transform_7 reads11_7 false false 2 stage11_7 sem11_7
    hrank11 hreads11_7 hinb11_7 nbuf11_7 (Memref.isWhole_whole _) hwx11_7 hstage11_7

abbrev win11_8 : Pipeline.Window sig grid11 :=
  Pipeline.Window.ofSpec (Memref.whole main_v33) S3x64x64.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_v34) S3x64x64.size cc11_transform_9 reads11_9 false true 1 stage11_9 sem11_9
    hrank11 hreads11_9 hinb11_9 nbuf11_9 (Memref.isWhole_whole _) hwx11_9 hstage11_9

abbrev win11_10 : Pipeline.Window sig grid11 :=
  Pipeline.Window.ofSpec (Memref.whole main_v38) S1x64.size cc11_transform_10 reads11_10 false true 1 stage11_10 sem11_10
    hrank11 hreads11_10 hinb11_10 nbuf11_10 (Memref.isWhole_whole _) hwx11_10 hstage11_10

abbrev win11_11 : Pipeline.Window sig grid11 :=
  Pipeline.Window.ofSpec (Memref.whole main_v74_0) S4096x64.size cc11_transform_11 reads11_11 true false 2 stage11_11 sem11_11
    hrank11 hreads11_11 hinb11_11 nbuf11_11 (Memref.isWhole_whole _) hwx11_11 hstage11_11

abbrev win11_12 : Pipeline.Window sig grid11 :=
  Pipeline.Window.ofSpec (Memref.whole main_v74_1) S4096x64.size cc11_transform_12 reads11_12 true false 2 stage11_12 sem11_12
    hrank11 hreads11_12 hinb11_12 nbuf11_12 (Memref.isWhole_whole _) hwx11_12 hstage11_12

abbrev win11 : Fin 13 → Pipeline.Window sig grid11 := fun | 0 => win11_0 | 1 => win11_1 | 2 => win11_2 | 3 => win11_3 | 4 => win11_4 | 5 => win11_5 | 6 => win11_6 | 7 => win11_7 | 8 => win11_8 | 9 => win11_9 | 10 => win11_10 | 11 => win11_11 | 12 => win11_12 | ⟨_ + 13, h⟩ => absurd h (Nat.not_lt.2 (Nat.le_add_left _ _))
abbrev spec11 : Fin 13 → Pipeline.WinSpec sig grid11.rank := fun w => (win11 w).toWinSpec

class Facts : Prop extends Facts₀ where

variable [Facts]
-- ==== ReferenceIdeal.lean ====
abbrev S32x2048 : Shape := ⟨2, ![32, 2048]⟩
abbrev S1024x1024 : Shape := ⟨2, ![1024, 1024]⟩
abbrev S2x32x65536 : Shape := ⟨3, ![2, 32, 65536]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S1x32x65536 : Shape := ⟨3, ![1, 32, 65536]⟩
abbrev S32x65536 : Shape := ⟨2, ![32, 65536]⟩
abbrev S32x1024x2 : Shape := ⟨3, ![32, 1024, 2]⟩
abbrev S32x1024x64 : Shape := ⟨3, ![32, 1024, 64]⟩
abbrev S32x1024x66 : Shape := ⟨3, ![32, 1024, 66]⟩
abbrev S1024x66x32 : Shape := ⟨3, ![1024, 66, 32]⟩
abbrev S1024x2112 : Shape := ⟨2, ![1024, 2112]⟩
abbrev S_ : Shape := ⟨0, ![]⟩
abbrev S1x1024x2112 : Shape := ⟨3, ![1, 1024, 2112]⟩
abbrev S3x1024x2112 : Shape := ⟨3, ![3, 1024, 2112]⟩
abbrev S3x1024x66x32 : Shape := ⟨4, ![3, 1024, 66, 32]⟩
abbrev S32x1024x66x3 : Shape := ⟨4, ![32, 1024, 66, 3]⟩
abbrev S32768x198 : Shape := ⟨2, ![32768, 198]⟩
abbrev S32768x128 : Shape := ⟨2, ![32768, 128]⟩
abbrev S1x128 : Shape := ⟨2, ![1, 128]⟩
abbrev S32x1024x128 : Shape := ⟨3, ![32, 1024, 128]⟩
abbrev S32768x64 : Shape := ⟨2, ![32768, 64]⟩
abbrev S1x64 : Shape := ⟨2, ![1, 64]⟩
abbrev S1024x128x32 : Shape := ⟨3, ![1024, 128, 32]⟩
abbrev S1024x4096 : Shape := ⟨2, ![1024, 4096]⟩
abbrev S1x1024x4096 : Shape := ⟨3, ![1, 1024, 4096]⟩
abbrev S3x1024x4096 : Shape := ⟨3, ![3, 1024, 4096]⟩
abbrev S3x1024x128x32 : Shape := ⟨4, ![3, 1024, 128, 32]⟩
abbrev S32x1024x128x3 : Shape := ⟨4, ![32, 1024, 128, 3]⟩
abbrev S32768x384 : Shape := ⟨2, ![32768, 384]⟩

abbrev nBuf : Space → Nat
  | .hbm => 152
  | .vmem => 0
  | .smem => 0
  | _ => 0

abbrev hbmTy0_0 (i : Nat) : BufTy := match i % 128 with
  | 0 => ⟨S32x2048, .f32⟩
  | 1 => ⟨S1024x1024, .f32⟩
  | 2 => ⟨S2x32x65536, .f32⟩
  | 3 => ⟨S198x128, .f32⟩
  | 4 => ⟨S128, .f32⟩
  | 5 => ⟨S198x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S1x32x65536, .f32⟩
  | 12 => ⟨S32x65536, .f32⟩
  | 13 => ⟨S32x1024x2, .f32⟩
  | 14 => ⟨S32x1024x64, .f32⟩
  | 15 => ⟨S32x1024x66, .f32⟩
  | 16 => ⟨S1024x66x32, .f32⟩
  | 17 => ⟨S1024x2112, .f32⟩
  | 18 => ⟨S1024x2112, .f32⟩
  | 19 => ⟨S1024x2112, .f32⟩
  | 20 => ⟨S_, .f32⟩
  | 21 => ⟨S1024x2112, .f32⟩
  | 22 => ⟨S1024x2112, .f32⟩
  | 23 => ⟨S1024x2112, .f32⟩
  | 24 => ⟨S1x1024x2112, .f32⟩
  | 25 => ⟨S1x1024x2112, .f32⟩
  | 26 => ⟨S1x1024x2112, .f32⟩
  | 27 => ⟨S3x1024x2112, .f32⟩
  | 28 => ⟨S3x1024x66x32, .f32⟩
  | 29 => ⟨S32x1024x66x3, .f32⟩
  | 30 => ⟨S32768x198, .f32⟩
  | 31 => ⟨S32768x128, .f32⟩
  | 32 => ⟨S1x128, .f32⟩
  | 33 => ⟨S32768x128, .f32⟩
  | 34 => ⟨S32768x128, .f32⟩
  | 35 => ⟨S32x1024x128, .f32⟩
  | 36 => ⟨S32x1024x128, .f32⟩
  | 37 => ⟨S32x1024x128, .f32⟩
  | 38 => ⟨S_, .f32⟩
  | 39 => ⟨S32x1024x128, .f32⟩
  | 40 => ⟨S32x1024x128, .f32⟩
  | 41 => ⟨S_, .f32⟩
  | 42 => ⟨S32x1024x128, .f32⟩
  | 43 => ⟨S32x1024x128, .f32⟩
  | 44 => ⟨S32x1024x64, .f32⟩
  | 45 => ⟨S32x65536, .f32⟩
  | 46 => ⟨S32x1024x64, .f32⟩
  | 47 => ⟨S32x65536, .f32⟩
  | 48 => ⟨S32x65536, .f32⟩
  | 49 => ⟨S32x1024x2, .f32⟩
  | 50 => ⟨S32x1024x64, .f32⟩
  | 51 => ⟨S32x1024x66, .f32⟩
  | 52 => ⟨S1024x66x32, .f32⟩
  | 53 => ⟨S1024x2112, .f32⟩
  | 54 => ⟨S1024x2112, .f32⟩
  | 55 => ⟨S1024x2112, .f32⟩
  | 56 => ⟨S_, .f32⟩
  | 57 => ⟨S1024x2112, .f32⟩
  | 58 => ⟨S1024x2112, .f32⟩
  | 59 => ⟨S1024x2112, .f32⟩
  | 60 => ⟨S1x1024x2112, .f32⟩
  | 61 => ⟨S1x1024x2112, .f32⟩
  | 62 => ⟨S1x1024x2112, .f32⟩
  | 63 => ⟨S3x1024x2112, .f32⟩
  | 64 => ⟨S3x1024x66x32, .f32⟩
  | 65 => ⟨S32x1024x66x3, .f32⟩
  | 66 => ⟨S32768x198, .f32⟩
  | 67 => ⟨S32768x64, .f32⟩
  | 68 => ⟨S1x64, .f32⟩
  | 69 => ⟨S32768x64, .f32⟩
  | 70 => ⟨S32768x64, .f32⟩
  | 71 => ⟨S32x1024x64, .f32⟩
  | 72 => ⟨S32x65536, .f32⟩
  | 73 => ⟨S32x65536, .f32⟩
  | 74 => ⟨S32x65536, .f32⟩
  | 75 => ⟨S_, .f32⟩
  | 76 => ⟨S32x65536, .f32⟩
  | 77 => ⟨S32x65536, .f32⟩
  | 78 => ⟨S32x65536, .f32⟩
  | 79 => ⟨S32x65536, .f32⟩
  | 80 => ⟨S1x32x65536, .f32⟩
  | 81 => ⟨S32x65536, .f32⟩
  | 82 => ⟨S32x1024x64, .f32⟩
  | 83 => ⟨S32x1024x64, .f32⟩
  | 84 => ⟨S32x1024x128, .f32⟩
  | 85 => ⟨S1024x128x32, .f32⟩
  | 86 => ⟨S1024x4096, .f32⟩
  | 87 => ⟨S1024x4096, .f32⟩
  | 88 => ⟨S1024x4096, .f32⟩
  | 89 => ⟨S_, .f32⟩
  | 90 => ⟨S1024x4096, .f32⟩
  | 91 => ⟨S1024x4096, .f32⟩
  | 92 => ⟨S1024x4096, .f32⟩
  | 93 => ⟨S1x1024x4096, .f32⟩
  | 94 => ⟨S1x1024x4096, .f32⟩
  | 95 => ⟨S1x1024x4096, .f32⟩
  | 96 => ⟨S3x1024x4096, .f32⟩
  | 97 => ⟨S3x1024x128x32, .f32⟩
  | 98 => ⟨S32x1024x128x3, .f32⟩
  | 99 => ⟨S32768x384, .f32⟩
  | 100 => ⟨S32768x128, .f32⟩
  | 101 => ⟨S1x128, .f32⟩
  | 102 => ⟨S32768x128, .f32⟩
  | 103 => ⟨S32768x128, .f32⟩
  | 104 => ⟨S32x1024x128, .f32⟩
  | 105 => ⟨S32x1024x128, .f32⟩
  | 106 => ⟨S32x1024x128, .f32⟩
  | 107 => ⟨S_, .f32⟩
  | 108 => ⟨S32x1024x128, .f32⟩
  | 109 => ⟨S32x1024x128, .f32⟩
  | 110 => ⟨S_, .f32⟩
  | 111 => ⟨S32x1024x128, .f32⟩
  | 112 => ⟨S32x1024x128, .f32⟩
  | 113 => ⟨S32x1024x64, .f32⟩
  | 114 => ⟨S32x65536, .f32⟩
  | 115 => ⟨S32x1024x64, .f32⟩
  | 116 => ⟨S32x65536, .f32⟩
  | 117 => ⟨S32x65536, .f32⟩
  | 118 => ⟨S32x1024x64, .f32⟩
  | 119 => ⟨S32x1024x64, .f32⟩
  | 120 => ⟨S32x1024x128, .f32⟩
  | 121 => ⟨S1024x128x32, .f32⟩
  | 122 => ⟨S1024x4096, .f32⟩
  | 123 => ⟨S1024x4096, .f32⟩
  | 124 => ⟨S1024x4096, .f32⟩
  | 125 => ⟨S_, .f32⟩
  | 126 => ⟨S1024x4096, .f32⟩
  | 127 => ⟨S1024x4096, .f32⟩
  | _ => ⟨S32x2048, .f32⟩

abbrev hbmTy0_1 (i : Nat) : BufTy := match i % 128 with
  | 0 => ⟨S1024x4096, .f32⟩
  | 1 => ⟨S1x1024x4096, .f32⟩
  | 2 => ⟨S1x1024x4096, .f32⟩
  | 3 => ⟨S1x1024x4096, .f32⟩
  | 4 => ⟨S3x1024x4096, .f32⟩
  | 5 => ⟨S3x1024x128x32, .f32⟩
  | 6 => ⟨S32x1024x128x3, .f32⟩
  | 7 => ⟨S32768x384, .f32⟩
  | 8 => ⟨S32768x64, .f32⟩
  | 9 => ⟨S1x64, .f32⟩
  | 10 => ⟨S32768x64, .f32⟩
  | 11 => ⟨S32768x64, .f32⟩
  | 12 => ⟨S32x1024x64, .f32⟩
  | 13 => ⟨S32x65536, .f32⟩
  | 14 => ⟨S32x65536, .f32⟩
  | 15 => ⟨S32x65536, .f32⟩
  | 16 => ⟨S_, .f32⟩
  | 17 => ⟨S32x65536, .f32⟩
  | 18 => ⟨S32x65536, .f32⟩
  | 19 => ⟨S32x65536, .f32⟩
  | 20 => ⟨S32x65536, .f32⟩
  | 21 => ⟨S1x32x65536, .f32⟩
  | 22 => ⟨S1x32x65536, .f32⟩
  | 23 => ⟨S2x32x65536, .f32⟩
  | _ => ⟨S32x2048, .f32⟩

abbrev hbmTy (i : Nat) : BufTy := match i / 128 with
  | 0 => hbmTy0_0 i
  | 1 => hbmTy0_1 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_3 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_4 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_5 : Ref sig .tc := ⟨.hbm, 107, rfl⟩
abbrev main_v90 : Ref sig .tc := ⟨.hbm, 108, rfl⟩
abbrev main_v91 : Ref sig .tc := ⟨.hbm, 109, rfl⟩
abbrev main_cst_6 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_7 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_8 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩

abbrev nD : Nat := 1
abbrev τ : Topo := Topo.v7x

variable {F : FTy → Type} [FloatOps F]

class Facts₀ : Prop where
  slices_S2x32x65536_S1x32x65536_0_0_0 : S2x32x65536.Slices ![0, 0, 0] S1x32x65536
  shapeCasts_S1x32x65536_S32x65536 : S1x32x65536.ShapeCasts S32x65536
  shapeCasts_S32x2048_S32x1024x2 : S32x2048.ShapeCasts S32x1024x2
  shapeCasts_S32x65536_S32x1024x64 : S32x65536.ShapeCasts S32x1024x64
  concatenates_S32x1024x2_S32x1024x64_S32x1024x66_d2 : Shape.Concatenates [S32x1024x2, S32x1024x64] S32x1024x66 2
  transposes_S32x1024x66_S1024x66x32_1_2_0 : S32x1024x66.Transposes [1, 2, 0] S1024x66x32
  shapeCasts_S1024x66x32_S1024x2112 : S1024x66x32.ShapeCasts S1024x2112
  bcast_S_S1024x2112 : S_.BroadcastsInDim S1024x2112 (![] : Fin 0 → Fin S1024x2112.rank)
  bcast_S1024x2112_S1x1024x2112_1_2 : S1024x2112.BroadcastsInDim S1x1024x2112 (![1, 2] : Fin 2 → Fin S1x1024x2112.rank)
  concatenates_S1x1024x2112_S1x1024x2112_S1x1024x2112_S3x1024x2112_d0 : Shape.Concatenates [S1x1024x2112, S1x1024x2112, S1x1024x2112] S3x1024x2112 0
  shapeCasts_S3x1024x2112_S3x1024x66x32 : S3x1024x2112.ShapeCasts S3x1024x66x32
  transposes_S3x1024x66x32_S32x1024x66x3_3_1_2_0 : S3x1024x66x32.Transposes [3, 1, 2, 0] S32x1024x66x3
  shapeCasts_S32x1024x66x3_S32768x198 : S32x1024x66x3.ShapeCasts S32768x198
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  shapeCasts_S32768x128_S32x1024x128 : S32768x128.ShapeCasts S32x1024x128
  bcast_S_S32x1024x128 : S_.BroadcastsInDim S32x1024x128 (![] : Fin 0 → Fin S32x1024x128.rank)
  slices_S32x1024x128_S32x1024x64_0_0_0 : S32x1024x128.Slices ![0, 0, 0] S32x1024x64
  shapeCasts_S32x1024x64_S32x65536 : S32x1024x64.ShapeCasts S32x65536
  slices_S32x1024x128_S32x1024x64_0_0_64 : S32x1024x128.Slices ![0, 0, 64] S32x1024x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  shapeCasts_S32768x64_S32x1024x64 : S32768x64.ShapeCasts S32x1024x64
  bcast_S_S32x65536 : S_.BroadcastsInDim S32x65536 (![] : Fin 0 → Fin S32x65536.rank)
  slices_S2x32x65536_S1x32x65536_1_0_0 : S2x32x65536.Slices ![1, 0, 0] S1x32x65536
  concatenates_S32x1024x64_S32x1024x64_S32x1024x128_d2 : Shape.Concatenates [S32x1024x64, S32x1024x64] S32x1024x128 2
  transposes_S32x1024x128_S1024x128x32_1_2_0 : S32x1024x128.Transposes [1, 2, 0] S1024x128x32
  shapeCasts_S1024x128x32_S1024x4096 : S1024x128x32.ShapeCasts S1024x4096
  bcast_S_S1024x4096 : S_.BroadcastsInDim S1024x4096 (![] : Fin 0 → Fin S1024x4096.rank)
  bcast_S1024x4096_S1x1024x4096_1_2 : S1024x4096.BroadcastsInDim S1x1024x4096 (![1, 2] : Fin 2 → Fin S1x1024x4096.rank)
  concatenates_S1x1024x4096_S1x1024x4096_S1x1024x4096_S3x1024x4096_d0 : Shape.Concatenates [S1x1024x4096, S1x1024x4096, S1x1024x4096] S3x1024x4096 0
  shapeCasts_S3x1024x4096_S3x1024x128x32 : S3x1024x4096.ShapeCasts S3x1024x128x32
  transposes_S3x1024x128x32_S32x1024x128x3_3_1_2_0 : S3x1024x128x32.Transposes [3, 1, 2, 0] S32x1024x128x3
  shapeCasts_S32x1024x128x3_S32768x384 : S32x1024x128x3.ShapeCasts S32768x384
  bcast_S32x65536_S1x32x65536_1_2 : S32x65536.BroadcastsInDim S1x32x65536 (![1, 2] : Fin 2 → Fin S1x32x65536.rank)
  concatenates_S1x32x65536_S1x32x65536_S2x32x65536_d0 : Shape.Concatenates [S1x32x65536, S1x32x65536] S2x32x65536 0
  dot_S1024x1024_S1024x2112_S1024x2112_1_0_0_1_n_n_wf : DotDims.WF S1024x1024 S1024x2112 S1024x2112 [1] [0] [0] [1] [] []
  dot_S32768x198_S198x128_S32768x128_1_0_0_1_n_n_wf : DotDims.WF S32768x198 S198x128 S32768x128 [1] [0] [0] [1] [] []
  dot_S32768x198_S198x64_S32768x64_1_0_0_1_n_n_wf : DotDims.WF S32768x198 S198x64 S32768x64 [1] [0] [0] [1] [] []
  dot_S1024x1024_S1024x4096_S1024x4096_1_0_0_1_n_n_wf : DotDims.WF S1024x1024 S1024x4096 S1024x4096 [1] [0] [0] [1] [] []
  dot_S32768x384_S384x128_S32768x128_1_0_0_1_n_n_wf : DotDims.WF S32768x384 S384x128 S32768x128 [1] [0] [0] [1] [] []
  dot_S32768x384_S384x64_S32768x64_1_0_0_1_n_n_wf : DotDims.WF S32768x384 S384x64 S32768x64 [1] [0] [0] [1] [] []

variable [Facts₀]

def dot_S1024x1024_S1024x2112_S1024x2112_1_0_0_1_n_n : DotDims S1024x1024 S1024x2112 S1024x2112 where
  lhsContracting := [1]
  rhsContracting := [0]
  lhsNonContracting := [0]
  rhsNonContracting := [1]
  lhsBatch := []
  rhsBatch := []
  wf := dot_S1024x1024_S1024x2112_S1024x2112_1_0_0_1_n_n_wf
def dot_S32768x198_S198x128_S32768x128_1_0_0_1_n_n : DotDims S32768x198 S198x128 S32768x128 where
  lhsContracting := [1]
  rhsContracting := [0]
  lhsNonContracting := [0]
  rhsNonContracting := [1]
  lhsBatch := []
  rhsBatch := []
  wf := dot_S32768x198_S198x128_S32768x128_1_0_0_1_n_n_wf
def dot_S32768x198_S198x64_S32768x64_1_0_0_1_n_n : DotDims S32768x198 S198x64 S32768x64 where
  lhsContracting := [1]
  rhsContracting := [0]
  lhsNonContracting := [0]
  rhsNonContracting := [1]
  lhsBatch := []
  rhsBatch := []
  wf := dot_S32768x198_S198x64_S32768x64_1_0_0_1_n_n_wf
def dot_S1024x1024_S1024x4096_S1024x4096_1_0_0_1_n_n : DotDims S1024x1024 S1024x4096 S1024x4096 where
  lhsContracting := [1]
  rhsContracting := [0]
  lhsNonContracting := [0]
  rhsNonContracting := [1]
  lhsBatch := []
  rhsBatch := []
  wf := dot_S1024x1024_S1024x4096_S1024x4096_1_0_0_1_n_n_wf
def dot_S32768x384_S384x128_S32768x128_1_0_0_1_n_n : DotDims S32768x384 S384x128 S32768x128 where
  lhsContracting := [1]
  rhsContracting := [0]
  lhsNonContracting := [0]
  rhsNonContracting := [1]
  lhsBatch := []
  rhsBatch := []
  wf := dot_S32768x384_S384x128_S32768x128_1_0_0_1_n_n_wf
def dot_S32768x384_S384x64_S32768x64_1_0_0_1_n_n : DotDims S32768x384 S384x64 S32768x64 where
  lhsContracting := [1]
  rhsContracting := [0]
  lhsNonContracting := [0]
  rhsNonContracting := [1]
  lhsBatch := []
  rhsBatch := []
  wf := dot_S32768x384_S384x64_S32768x64_1_0_0_1_n_n_wf

class Facts : Prop extends Facts₀ where

variable [Facts]
-- ==== Proof.Arr.lean ====
import Idealize.ShloMosaic.PureOps.Ideal
import Idealize.ShloMosaic.Lib.ValueIdx

noncomputable section

open scoped BigOperators

namespace Cert.Arr

open Idealize.ShloMosaic Idealize.ShloMosaic.ValueIdx

def two : EReal := Ideal.ofBits .f32 0x40000000#32
def one : EReal := Ideal.ofBits .f32 0x3F800000#32

def mm {Q : ℕ} (a : (⟨2, ![1024, 1024]⟩ : Shape).Idx → EReal) (x : (⟨2, ![1024, Q]⟩ : Shape).Idx → EReal) :
    (⟨2, ![1024, Q]⟩ : Shape).Idx → EReal :=
  fun i => ∑ k : Fin 1024, a (ix2 (i 0) k) * x (ix2 k (i 1))

def cheb2 {Q : ℕ} (a : (⟨2, ![1024, 1024]⟩ : Shape).Idx → EReal) (x0 x1 : (⟨2, ![1024, Q]⟩ : Shape).Idx → EReal) :
    (⟨2, ![1024, Q]⟩ : Shape).Idx → EReal :=
  fun i => two * (∑ k : Fin 1024, a (ix2 (i 0) k) * x1 (ix2 k (i 1))) - x0 i

def pre {cin O : ℕ} (x0 x1 x2 : (⟨2, ![32768, cin]⟩ : Shape).Idx → EReal) (h0 h1 h2 : (⟨2, ![32768, 64]⟩ : Shape).Idx → EReal)
    (wx : (⟨3, ![3, cin, O]⟩ : Shape).Idx → EReal) (wh : (⟨3, ![3, 64, O]⟩ : Shape).Idx → EReal)
    (bias : (⟨2, ![1, O]⟩ : Shape).Idx → EReal) (r : Fin 32768) (o : Fin O) : EReal :=
  (((((∑ c : Fin cin, x0 (ix2 r c) * wx (ix3 0 c o)) + ∑ c : Fin cin, x1 (ix2 r c) * wx (ix3 1 c o))
      + ∑ c : Fin cin, x2 (ix2 r c) * wx (ix3 2 c o))
      + ∑ u : Fin 64, h0 (ix2 r u) * wh (ix3 0 u o))
      + ∑ u : Fin 64, h1 (ix2 r u) * wh (ix3 1 u o))
      + ∑ u : Fin 64, h2 (ix2 r u) * wh (ix3 2 u o)
    + bias (ix2 0 o)

def gateS {cin : ℕ} (x0 x1 x2 : (⟨2, ![32768, cin]⟩ : Shape).Idx → EReal) (h0 h1 h2 hf : (⟨2, ![32768, 64]⟩ : Shape).Idx → EReal)
    (wx : (⟨3, ![3, cin, 128]⟩ : Shape).Idx → EReal) (wh : (⟨3, ![3, 64, 128]⟩ : Shape).Idx → EReal)
    (bias : (⟨2, ![1, 128]⟩ : Shape).Idx → EReal) : (⟨2, ![32768, 64]⟩ : Shape).Idx → EReal :=
  fun i => Ideal.logistic (pre x0 x1 x2 h0 h1 h2 wx wh bias (i 0) ⟨(i 1).val, by have := idx2_lt1 i; omega⟩) * hf i

def gateU {cin : ℕ} (x0 x1 x2 : (⟨2, ![32768, cin]⟩ : Shape).Idx → EReal) (h0 h1 h2 : (⟨2, ![32768, 64]⟩ : Shape).Idx → EReal)
    (wx : (⟨3, ![3, cin, 128]⟩ : Shape).Idx → EReal) (wh : (⟨3, ![3, 64, 128]⟩ : Shape).Idx → EReal)
    (bias : (⟨2, ![1, 128]⟩ : Shape).Idx → EReal) : (⟨2, ![32768, 64]⟩ : Shape).Idx → EReal :=
  fun i => Ideal.logistic (pre x0 x1 x2 h0 h1 h2 wx wh bias (i 0) ⟨64 + (i 1).val, by have := idx2_lt1 i; omega⟩)

def cand {cin : ℕ} (x0 x1 x2 : (⟨2, ![32768, cin]⟩ : Shape).Idx → EReal) (s0 s1 s2 u hf : (⟨2, ![32768, 64]⟩ : Shape).Idx → EReal)
    (wx : (⟨3, ![3, cin, 64]⟩ : Shape).Idx → EReal) (ws : (⟨3, ![3, 64, 64]⟩ : Shape).Idx → EReal)
    (bias : (⟨2, ![1, 64]⟩ : Shape).Idx → EReal) : (⟨2, ![32768, 64]⟩ : Shape).Idx → EReal :=
  fun i => u i * hf i + (one - u i) * Ideal.tanh (pre x0 x1 x2 s0 s1 s2 wx ws bias (i 0) (i 1))

end Cert.Arr

end
-- ==== Proof.RegD1.lean ====
import proofs.«150681_g19885698580639_cont_8to1_2033_3_alg».proof.Proof.Gen.KernelIdeal.Frame
import proofs.«150681_g19885698580639_cont_8to1_2033_3_alg».proof.Proof.Arr
import Idealize.ShloMosaic.Lib.Pipeline.Value
import Idealize.ShloMosaic.Lib.ValueIdx
import Idealize.ShloMosaic.PureOps.Ideal.Laws

set_option maxRecDepth 16384

noncomputable section

namespace Cert.KernelIdeal.RegD1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

-- A plain M x K by K x N product into the zero accumulator, at (p, q): the sum over k of a[p,k] * x[k,q].
theorem mm_plain {M K N : ℕ} (a : FVec Ideal ⟨2, ![M, K]⟩ .bf16) (x : FVec Ideal ⟨2, ![K, N]⟩ .bf16) (j : (⟨2, ![M, N]⟩ : Shape).Idx) :
    FloatOps.matmul (DotDims.plain M K N) none a x (constant ⟨2, ![M, N]⟩ .f32 0x00000000#32) j
      = ∑ k : Fin K, a (ix2 (j 0) k) * x (ix2 k (j 1)) := by
  rw [Ideal.matmul_constant_zero_apply, ← Equiv.sum_comp (contrEquiv1 (DotDims.plain M K N) K rfl rfl).symm]
  refine Finset.sum_congr rfl fun k _ => congrArg₂ (· * ·) (congrArg a ?_) (congrArg x ?_) <;>
    exact funext fun d => Fin.ext (by match d with | ⟨0, _⟩ => rfl | ⟨1, _⟩ => rfl)

theorem hz : (![0, 0] : Fin 2 → ℕ) = fun _ => 0 := funext fun a => by fin_cases a <;> rfl

-- An index within a block's range on every axis is under the block.
theorem mem_blk {κ : Kind} {b : Ref sig κ} {off size : Fin b.ty.shape.rank → ℕ} {inb} {i : b.ty.shape.Idx}
    (h : ∀ a, off a ≤ i a ∧ (i a : ℕ) < off a + size a) : i ∈ ((View.whole b).slice (Rect.unit off size inb)).set := by
  rw [View.set_slice_whole]; exact Rect.mem_set_unit.2 h

-- Four blocks of 256 rows, block t at block row t, cover the 1024 rows: row r lies in block r / 256.
theorem cover {Q N : ℕ} (hN : N = 4) {ix : Fin N → Fin 2 → ℕ} (h : ∀ t, ix t = ![t.val, 0]) {fl : Fin N → Bool} (hf : ∀ t, fl t = true)
    {B : Fin N → Finset (⟨2, ![1024, Q]⟩ : Shape).Idx}
    (hB : ∀ t i, (∀ d, ix t d * ![256, Q] d ≤ (i d : ℕ) ∧ (i d : ℕ) < ix t d * ![256, Q] d + ![256, Q] d) → i ∈ B t := by
      exact fun _ _ h => mem_blk h) :
    ∀ i, ∃ t, fl t = true ∧ i ∈ B t := by
  subst hN
  intro i
  have h0 := idx2_lt0 i
  have h1 := idx2_lt1 i
  refine ⟨⟨i 0 / 256, by omega⟩, hf _, hB _ i fun d => ?_⟩
  rw [h]
  match d with
  | ⟨0, _⟩ => show (i 0 : ℕ) / 256 * 256 ≤ i 0 ∧ (i 0 : ℕ) < (i 0 : ℕ) / 256 * 256 + 256; omega
  | ⟨1, _⟩ => show 0 * Q ≤ (i 1 : ℕ) ∧ (i 1 : ℕ) < 0 * Q + Q; omega

-- The stored block at an entry is the block product there.
theorem pay_mm {M K N : ℕ} {h1 h2 h3} {a : FVec Ideal ⟨2, ![M, K]⟩ .bf16} {x : FVec Ideal ⟨2, ![K, N]⟩ .bf16} {j : (⟨2, ![M, N]⟩ : Shape).Idx} :
    (truncf .bf16 (matmul (F := Ideal) (DotDims.plain M K N) none (shapeCast ⟨2, ![M, K]⟩ a h1) (shapeCast ⟨2, ![K, N]⟩ x h2)
      (constant ⟨2, ![M, N]⟩ .f32 0x00000000#32)) h3 : FVec Ideal ⟨2, ![M, N]⟩ .bf16) j = ∑ k : Fin K, a (ix2 (j 0) k) * x (ix2 k (j 1)) := by
  rw [shapeCast_self, shapeCast_self]; exact mm_plain a x j

variable {Q r : ℕ} {A : (⟨2, ![1024, 1024]⟩ : Shape).Idx → EReal} {X : (⟨2, ![1024, Q]⟩ : Shape).Idx → EReal} {a : (⟨2, ![256, 1024]⟩ : Shape).Idx → EReal}
  {x : (⟨2, ![1024, Q]⟩ : Shape).Idx → EReal} {iA iX iO : Fin 2 → ℕ} {fA : (⟨2, ![256, 1024]⟩ : Shape).Idx → (⟨2, ![1024, 1024]⟩ : Shape).Idx}
  {fX : (⟨2, ![1024, Q]⟩ : Shape).Idx → (⟨2, ![1024, Q]⟩ : Shape).Idx} {j : (⟨2, ![256, Q]⟩ : Shape).Idx} {i : (⟨2, ![1024, Q]⟩ : Shape).Idx}

-- Rows 256 r .. 256 r + 255 of the adjacency against the whole feature matrix are rows 256 r .. of the product.
theorem mm_blk (eA : iA = ![r, 0]) (eX : iX = ![0, 0]) (eO : iO = ![r, 0])
    (ha : ∀ y, a y = A (fA y) := by intros; rfl) (hA : ∀ y d, (fA y d : ℕ) = iA d * ![256, 1024] d + 1 * y d := by intros; rfl)
    (hx : ∀ y, x y = X (fX y) := by intros; rfl) (hX : ∀ y d, (fX y d : ℕ) = iX d * ![1024, Q] d + 1 * y d := by intros; rfl)
    (hi : ∀ d, (i d : ℕ) = iO d * ![256, Q] d + 1 * j d := by intros; rfl) :
    ∑ k : Fin 1024, a (ix2 (j 0) k) * x (ix2 k (j 1)) = Cert.Arr.mm A X i := by
  subst eA eX eO
  refine Finset.sum_congr rfl fun k _ => ?_
  rw [ha, hx]
  refine congrArg₂ (· * ·) (congrArg A (Shape.idx_ext₂ ?_ ?_)) (congrArg X (Shape.idx_ext₂ ?_ ?_))
  · exact (hA _ 0).trans (hi 0).symm
  · exact (hA _ 1).trans (show 0 * 1024 + 1 * (k : ℕ) = k by omega)
  · exact (hX _ 0).trans (show 0 * 1024 + 1 * (k : ℕ) = k by omega)
  · exact (hX _ 1).trans (hi 1).symm

variable (V : (c : Dev nD) → (b : Ref sig .tc) → Buf (Elt Ideal) ((c : Thread nD τ).loc b))

theorem ix0 : ∀ t : Fin cfg0.N, win0_0.index t = ![t.val, 0] ∧ win0_1.index t = ![0, 0] ∧ win0_2.index t = ![0, 0] ∧ win0_3.index t = ![t.val, 0]
    ∧ win0_4.index t = ![t.val, 0] :=
  (by decide +kernel : ∀ t : Fin grid0.N, _)

theorem r0_out3 (c : Dev nD) : (dat0 V c).arrAt 3 cfg0.N = Cert.Arr.mm (V c main_v0) (V c main_v40) :=
  (dat0 V c).arrAt_eq_of_cover 3 _ (fun t _ => by
    obtain ⟨e0, e1, e2, e3, e4⟩ := ix0 t
    rw [Dat.flushed, after0_3, out0_3, View.canon_unit_zero hz, View.ld_unit_zero hz, View.ld_unit_zero hz]
    exact funext fun _ => pay_mm.trans (mm_blk e0 e1 e3))
    (cover N_0 (fun t => (ix0 t).2.2.2.1) flush0_3)

theorem r0_out4 (c : Dev nD) : (dat0 V c).arrAt 4 cfg0.N = Cert.Arr.mm (V c main_v0) (V c main_v41) :=
  (dat0 V c).arrAt_eq_of_cover 4 _ (fun t _ => by
    obtain ⟨e0, e1, e2, e3, e4⟩ := ix0 t
    rw [Dat.flushed, after0_4, out0_4, View.canon_unit_zero hz, View.ld_unit_zero hz, View.ld_unit_zero hz]
    exact funext fun _ => pay_mm.trans (mm_blk e0 e2 e4))
    (cover N_0 (fun t => (ix0 t).2.2.2.2) flush0_4)

theorem ix3 : ∀ t : Fin cfg3.N, win3_0.index t = ![t.val, 0] ∧ win3_1.index t = ![0, 0] ∧ win3_2.index t = ![t.val, 0] :=
  (by decide +kernel : ∀ t : Fin grid3.N, _)

theorem r3_out2 (c : Dev nD) : (dat3 V c).arrAt 2 cfg3.N = Cert.Arr.mm (V c main_v0) (V c main_v49) :=
  (dat3 V c).arrAt_eq_of_cover 2 _ (fun t _ => by
    obtain ⟨e0, e1, e2⟩ := ix3 t
    rw [Dat.flushed, after3_2, out3_2, View.canon_unit_zero hz, View.ld_unit_zero hz, View.ld_unit_zero hz]
    exact funext fun _ => pay_mm.trans (mm_blk e0 e1 e2))
    (cover N_3 (fun t => (ix3 t).2.2) flush3_2)

theorem ix6 : ∀ t : Fin cfg6.N, win6_0.index t = ![t.val, 0] ∧ win6_1.index t = ![0, 0] ∧ win6_2.index t = ![0, 0] ∧ win6_3.index t = ![t.val, 0]
    ∧ win6_4.index t = ![t.val, 0] :=
  (by decide +kernel : ∀ t : Fin grid6.N, _)

theorem r6_out3 (c : Dev nD) : (dat6 V c).arrAt 3 cfg6.N = Cert.Arr.mm (V c main_v0) (V c main_v58) :=
  (dat6 V c).arrAt_eq_of_cover 3 _ (fun t _ => by
    obtain ⟨e0, e1, e2, e3, e4⟩ := ix6 t
    rw [Dat.flushed, after6_3, out6_3, View.canon_unit_zero hz, View.ld_unit_zero hz, View.ld_unit_zero hz]
    exact funext fun _ => pay_mm.trans (mm_blk e0 e1 e3))
    (cover N_6 (fun t => (ix6 t).2.2.2.1) flush6_3)

theorem r6_out4 (c : Dev nD) : (dat6 V c).arrAt 4 cfg6.N = Cert.Arr.mm (V c main_v0) (V c main_v59) :=
  (dat6 V c).arrAt_eq_of_cover 4 _ (fun t _ => by
    obtain ⟨e0, e1, e2, e3, e4⟩ := ix6 t
    rw [Dat.flushed, after6_4, out6_4, View.canon_unit_zero hz, View.ld_unit_zero hz, View.ld_unit_zero hz]
    exact funext fun _ => pay_mm.trans (mm_blk e0 e2 e4))
    (cover N_6 (fun t => (ix6 t).2.2.2.2) flush6_4)

theorem ix9 : ∀ t : Fin cfg9.N, win9_0.index t = ![t.val, 0] ∧ win9_1.index t = ![0, 0] ∧ win9_2.index t = ![t.val, 0] :=
  (by decide +kernel : ∀ t : Fin grid9.N, _)

theorem r9_out2 (c : Dev nD) : (dat9 V c).arrAt 2 cfg9.N = Cert.Arr.mm (V c main_v0) (V c main_v67) :=
  (dat9 V c).arrAt_eq_of_cover 2 _ (fun t _ => by
    obtain ⟨e0, e1, e2⟩ := ix9 t
    rw [Dat.flushed, after9_2, out9_2, View.canon_unit_zero hz, View.ld_unit_zero hz, View.ld_unit_zero hz]
    exact funext fun _ => pay_mm.trans (mm_blk e0 e1 e2))
    (cover N_9 (fun t => (ix9 t).2.2) flush9_2)

end Cert.KernelIdeal.RegD1

end
-- ==== Proof.RegD2.lean ====
import proofs.«150681_g19885698580639_cont_8to1_2033_3_alg».proof.Proof.RegD1

noncomputable section

namespace Cert.KernelIdeal.RegD2

open Cert.KernelIdeal Cert.KernelIdeal.Gen Cert.KernelIdeal.RegD1
open Idealize.ShloMosaic Idealize.ShloMosaic.TcCoe Idealize.ShloMosaic.ValueIdx Idealize.SL.Sem
open Idealize.ShloMosaic.Pipeline (Dat Cfg Window)
open scoped BigOperators

-- The stored block at an entry: twice the block product there minus the step-zero entry.
theorem pay_cheb {M K N : ℕ} {h1 h2 h3 h4 h5} {a : FVec Ideal ⟨2, ![M, K]⟩ .bf16} {x : FVec Ideal ⟨2, ![K, N]⟩ .bf16}
    {x0 : FVec Ideal ⟨2, ![M, N]⟩ .bf16} {j : (⟨2, ![M, N]⟩ : Shape).Idx} :
    (truncf .bf16 (subf (mulf (broadcast ⟨2, ![M, N]⟩ (Scalar.ofBits .f32 0x40000000#32 : Ideal .f32))
        (matmul (F := Ideal) (DotDims.plain M K N) none (shapeCast ⟨2, ![M, K]⟩ a h1) (shapeCast ⟨2, ![K, N]⟩ x h2)
          (constant ⟨2, ![M, N]⟩ .f32 0x00000000#32)))
      (extf .f32 (shapeCast ⟨2, ![M, N]⟩ x0 h3) h4)) h5 : FVec Ideal ⟨2, ![M, N]⟩ .bf16) j
      = Cert.Arr.two * (∑ k : Fin K, a (ix2 (j 0) k) * x (ix2 k (j 1))) - x0 j := by
  rw [shapeCast_self, shapeCast_self, shapeCast_self]
  exact congrArg (Cert.Arr.two * · - x0 j) (mm_plain a x j)

variable {Q r : ℕ} {A : (⟨2, ![1024, 1024]⟩ : Shape).Idx → EReal} {X X0 : (⟨2, ![1024, Q]⟩ : Shape).Idx → EReal} {a : (⟨2, ![256, 1024]⟩ : Shape).Idx → EReal}
  {x : (⟨2, ![1024, Q]⟩ : Shape).Idx → EReal} {x0 : (⟨2, ![256, Q]⟩ : Shape).Idx → EReal} {iA iX i0 iO : Fin 2 → ℕ} {fA : (⟨2, ![256, 1024]⟩ : Shape).Idx → (⟨2, ![1024, 1024]⟩ : Shape).Idx}
  {fX : (⟨2, ![1024, Q]⟩ : Shape).Idx → (⟨2, ![1024, Q]⟩ : Shape).Idx} {f0 : (⟨2, ![256, Q]⟩ : Shape).Idx → (⟨2, ![1024, Q]⟩ : Shape).Idx} {j : (⟨2, ![256, Q]⟩ : Shape).Idx} {i : (⟨2, ![1024, Q]⟩ : Shape).Idx}

-- With rows 256 r .. of the step-zero features, the block is rows 256 r .. of the second Chebyshev step.
theorem cheb_blk (eA : iA = ![r, 0]) (eX : iX = ![0, 0]) (e0 : i0 = ![r, 0]) (eO : iO = ![r, 0])
    (ha : ∀ y, a y = A (fA y) := by intros; rfl) (hA : ∀ y d, (fA y d : ℕ) = iA d * ![256, 1024] d + 1 * y d := by intros; rfl)
    (hx : ∀ y, x y = X (fX y) := by intros; rfl) (hX : ∀ y d, (fX y d : ℕ) = iX d * ![1024, Q] d + 1 * y d := by intros; rfl)
    (h0 : ∀ y, x0 y = X0 (f0 y) := by intros; rfl) (H0 : ∀ y d, (f0 y d : ℕ) = i0 d * ![256, Q] d + 1 * y d := by intros; rfl)
    (hi : ∀ d, (i d : ℕ) = iO d * ![256, Q] d + 1 * j d := by intros; rfl) :
    Cert.Arr.two * (∑ k : Fin 1024, a (ix2 (j 0) k) * x (ix2 k (j 1))) - x0 j = Cert.Arr.cheb2 A X0 X i := by
  subst e0 eO
  rw [mm_blk eA eX rfl ha hA hx hX hi, h0, Shape.idx_ext₂ ((H0 j 0).trans (hi 0).symm) ((H0 j 1).trans (hi 1).symm)]; rfl

variable (V : (c : Dev nD) → (b : Ref sig .tc) → Buf (Elt Ideal) ((c : Thread nD τ).loc b))

theorem ix1 : ∀ t : Fin cfg1.N, win1_0.index t = ![t.val, 0] ∧ win1_1.index t = ![t.val, 0] ∧ win1_2.index t = ![0, 0] ∧ win1_3.index t = ![t.val, 0]
    ∧ win1_4.index t = ![0, 0] ∧ win1_5.index t = ![t.val, 0] ∧ win1_6.index t = ![t.val, 0] :=
  (by decide +kernel : ∀ t : Fin grid1.N, _)

theorem r1_out5 (c : Dev nD) : (dat1 V c).arrAt 5 cfg1.N = Cert.Arr.cheb2 (V c main_v0) (V c main_v40) (V c main_v42_0) :=
  (dat1 V c).arrAt_eq_of_cover 5 _ (fun t _ => by
    obtain ⟨e0, e1, e2, e3, e4, e5, e6⟩ := ix1 t
    rw [Dat.flushed, after1_5, out1_5, View.canon_unit_zero hz, View.ld_unit_zero hz, View.ld_unit_zero hz, View.ld_unit_zero hz]
    exact funext fun _ => pay_cheb.trans (cheb_blk e0 e2 e1 e5))
    (cover N_1 (fun t => (ix1 t).2.2.2.2.2.1) flush1_5)

theorem r1_out6 (c : Dev nD) : (dat1 V c).arrAt 6 cfg1.N = Cert.Arr.cheb2 (V c main_v0) (V c main_v41) (V c main_v42_1) :=
  (dat1 V c).arrAt_eq_of_cover 6 _ (fun t _ => by
    obtain ⟨e0, e1, e2, e3, e4, e5, e6⟩ := ix1 t
    rw [Dat.flushed, after1_6, out1_6, View.canon_unit_zero hz, View.ld_unit_zero hz, View.ld_unit_zero hz, View.ld_unit_zero hz]
    exact funext fun _ => pay_cheb.trans (cheb_blk e0 e4 e3 e6))
    (cover N_1 (fun t => (ix1 t).2.2.2.2.2.2) flush1_6)

theorem ix4 : ∀ t : Fin cfg4.N, win4_0.index t = ![t.val, 0] ∧ win4_1.index t = ![t.val, 0] ∧ win4_2.index t = ![0, 0] ∧ win4_3.index t = ![t.val, 0] :=
  (by decide +kernel : ∀ t : Fin grid4.N, _)

theorem r4_out3 (c : Dev nD) : (dat4 V c).arrAt 3 cfg4.N = Cert.Arr.cheb2 (V c main_v0) (V c main_v49) (V c main_v50) :=
  (dat4 V c).arrAt_eq_of_cover 3 _ (fun t _ => by
    obtain ⟨e0, e1, e2, e3⟩ := ix4 t
    rw [Dat.flushed, after4_3, out4_3, View.canon_unit_zero hz, View.ld_unit_zero hz, View.ld_unit_zero hz, View.ld_unit_zero hz]
    exact funext fun _ => pay_cheb.trans (cheb_blk e0 e2 e1 e3))
    (cover N_4 (fun t => (ix4 t).2.2.2) flush4_3)

theorem ix7 : ∀ t : Fin cfg7.N, win7_0.index t = ![t.val, 0] ∧ win7_1.index t = ![t.val, 0] ∧ win7_2.index t = ![0, 0] ∧ win7_3.index t = ![t.val, 0]
    ∧ win7_4.index t = ![0, 0] ∧ win7_5.index t = ![t.val, 0] ∧ win7_6.index t = ![t.val, 0] :=
  (by decide +kernel : ∀ t : Fin grid7.N, _)

theorem r7_out5 (c : Dev nD) : (dat7 V c).arrAt 5 cfg7.N = Cert.Arr.cheb2 (V c main_v0) (V c main_v58) (V c main_v60_0) :=
  (dat7 V c).arrAt_eq_of_cover 5 _ (fun t _ => by
    obtain ⟨e0, e1, e2, e3, e4, e5, e6⟩ := ix7 t
    rw [Dat.flushed, after7_5, out7_5, View.canon_unit_zero hz, View.ld_unit_zero hz, View.ld_unit_zero hz, View.ld_unit_zero hz]
    exact funext fun _ => pay_cheb.trans (cheb_blk e0 e2 e1 e5))
    (cover N_7 (fun t => (ix7 t).2.2.2.2.2.1) flush7_5)

theorem r7_out6 (c : Dev nD) : (dat7 V c).arrAt 6 cfg7.N = Cert.Arr.cheb2 (V c main_v0) (V c main_v59) (V c main_v60_1) :=
  (dat7 V c).arrAt_eq_of_cover 6 _ (fun t _ => by
    obtain ⟨e0, e1, e2, e3, e4, e5, e6⟩ := ix7 t
    rw [Dat.flushed, after7_6, out7_6, View.canon_unit_zero hz, View.ld_unit_zero hz, View.ld_unit_zero hz, View.ld_unit_zero hz]
    exact funext fun _ => pay_cheb.trans (cheb_blk e0 e4 e3 e6))
    (cover N_7 (fun t => (ix7 t).2.2.2.2.2.2) flush7_6)

theorem ix10 : ∀ t : Fin cfg10.N, win10_0.index t = ![t.val, 0] ∧ win10_1.index t = ![t.val, 0] ∧ win10_2.index t = ![0, 0]
    ∧ win10_3.index t = ![t.val, 0] :=
  (by decide +kernel : ∀ t : Fin grid10.N, _)

theorem r10_out3 (c : Dev nD) : (dat10 V c).arrAt 3 cfg10.N = Cert.Arr.cheb2 (V c main_v0) (V c main_v67) (V c main_v68) :=
  (dat10 V c).arrAt_eq_of_cover 3 _ (fun t _ => by
    obtain ⟨e0, e1, e2, e3⟩ := ix10 t
    rw [Dat.flushed, after10_3, out10_3, View.canon_unit_zero hz, View.ld_unit_zero hz, View.ld_unit_zero hz, View.ld_unit_zero hz]
    exact funext fun _ => pay_cheb.trans (cheb_blk e0 e2 e1 e3))
    (cover N_10 (fun t => (ix10 t).2.2.2) flush10_3)

end Cert.KernelIdeal.RegD2

end
-- ==== Proof.RegGate.lean ====
import proofs.«150681_g19885698580639_cont_8to1_2033_3_alg».proof.Proof.RegD1
import Idealize.ShloMosaic.Lib.ValueLayout

noncomputable section

namespace Cert.KernelIdeal.RegGate

open Cert.KernelIdeal Cert.KernelIdeal.Gen
open Idealize.ShloMosaic Idealize.ShloMosaic.TcCoe Idealize.ShloMosaic.ValueIdx Idealize.SL.Sem
open Idealize.ShloMosaic.Pipeline (Dat)
open Cert.KernelIdeal.RegD1 (mm_plain hz mem_blk)
open scoped BigOperators

-- A row block times slab s of the weights (its unit axis dropped), at (p, o): the sum over the K contracted positions.
theorem mm_slab {K s : ℕ} (σ : Fin 3) (hσ : σ.val = s) (x : FVec Ideal ⟨2, ![4096, K]⟩ .bf16) (w : Vec Ideal ⟨3, ![3, K, 128]⟩ .bf16)
    (inb) (h : (⟨3, ![1, K, 128]⟩ : Shape).ShapeCasts ⟨2, ![K, 128]⟩) (p : Fin 4096) (o : Fin 128) :
    matmul (DotDims.plain 4096 K 128) none x
        (shapeCast ⟨2, ![K, 128]⟩ (View.ld w (Rect.unit (s := ⟨3, ![3, K, 128]⟩) ![s, 0, 0] (⟨3, ![1, K, 128]⟩ : Shape).size inb)) h : FVec Ideal _ .bf16)
        (constant ⟨2, ![4096, 128]⟩ .f32 0x00000000#32) (ix2 p o)
      = ∑ k : Fin K, x (ix2 p k) * w (ix3 σ k o) := by
  refine (mm_plain x _ (ix2 p o)).trans (Finset.sum_congr rfl fun k _ => congrArg (x (ix2 p k) * ·) ?_)
  refine (shapeCast_1ab_ab_apply _ h k o).trans (congrArg w (funext fun a => Fin.ext ?_))
  match a with
  | ⟨0, _⟩ => show s + 1 * 0 = σ.val; omega
  | ⟨1, _⟩ => show 0 + 1 * k.val = k.val; omega
  | ⟨2, _⟩ => show 0 + 1 * o.val = o.val; omega

theorem logistic_at {s : Shape} {φ : FTy} (v : FVec Ideal s φ) (i : s.Idx) : logistic v i = Ideal.logistic (v i) := rfl

section
variable (acc : FVec Ideal S4096x128 .f32) (h2 : Vec Ideal S4096x64 .bf16) (w : Vec Ideal S1x64x128 .bf16) (b : Vec Ideal S1x128 .f32)
  (p : Fin 4096) (q : Fin 64) (o : Fin 128)

-- The update gate's block is columns 64 to 127 of the logistic.
theorem pay2_at (ho : o.val = 64 + q.val) : k2_pay2 acc h2 w b (ix2 p q) = k2_pay1 acc h2 w b (ix2 p o) := by
  unfold k2_pay2
  exact slice2_axis1_apply 64 _ _ p q o ho

-- The reset state's block is columns 0 to 63 of the logistic, times the state.
theorem pay3_at (hf : Vec Ideal S4096x64 .f32) (ho : o.val = 0 + q.val) :
    k2_pay3 acc h2 w b hf (ix2 p q) = k2_pay1 acc h2 w b (ix2 p o) * hf (ix2 p q) := by
  unfold k2_pay3
  simp only [truncf_apply, mulf_apply, shapeCast_self]
  rw [slice2_axis1_apply 0 _ _ p q o ho]

end

section
variable {h0 h1 h2 : Vec Ideal S4096x64 .bf16} {wh : Vec Ideal S3x64x128 .bf16} {b : Vec Ideal S1x128 .f32}
  {H0 H1 H2 : S32768x64.Idx → EReal} {WH : S3x64x128.Idx → EReal} {B : S1x128.Idx → EReal} {p : Fin 4096} {r : Fin 32768}

-- Region 2: the logistic of the pre-activation of array row r, read off blocks whose row p is that row.
theorem gate_at2 {x0 x1 x2 : Vec Ideal S4096x2 .bf16} {wx : Vec Ideal S3x2x128 .bf16}
    {X0 X1 X2 : S32768x2.Idx → EReal} {WX : S3x2x128.Idx → EReal}
    (e0 : ∀ c, X0 (ix2 r c) = x0 (ix2 p c)) (e1 : ∀ c, X1 (ix2 r c) = x1 (ix2 p c)) (e2 : ∀ c, X2 (ix2 r c) = x2 (ix2 p c))
    (e3 : ∀ u, H0 (ix2 r u) = h0 (ix2 p u)) (e4 : ∀ u, H1 (ix2 r u) = h1 (ix2 p u)) (e5 : ∀ u, H2 (ix2 r u) = h2 (ix2 p u))
    (e7 : wx = WX) (e8 : wh = WH) (e9 : b = B) (o : Fin 128) :
    k2_pay1 (k2_pay4 x0 (View.ld wx r2_1) x1 (View.ld wx r2_2) x2 (View.ld wx r2_3) h0 (View.ld wh r2_5) h1 (View.ld wh r2_6))
        h2 (View.ld wh r2_7) b (ix2 p o)
      = Ideal.logistic (Cert.Arr.pre X0 X1 X2 H0 H1 H2 WX WH B r o) := by
  subst e7 e8 e9
  unfold k2_pay1 k2_pay4 Cert.Arr.pre
  simp only [logistic_at, addf_apply, shapeCast_self]
  rw [show dot_S4096x2_S2x128_S4096x128_1_0_0_1_n_n = DotDims.plain 4096 2 128 from rfl,
    show dot_S4096x64_S64x128_S4096x128_1_0_0_1_n_n = DotDims.plain 4096 64 128 from rfl]
  rw [mm_slab (s := 0) 0 rfl x0 wx, mm_slab (s := 1) 1 rfl x1 wx, mm_slab (s := 2) 2 rfl x2 wx, mm_slab (s := 0) 0 rfl h0 wh, mm_slab (s := 1) 1 rfl h1 wh,
    mm_slab (s := 2) 2 rfl h2 wh, broadcastTo_1b_ab_apply]
  simp only [e0, e1, e2, e3, e4, e5]

-- Region 8: the logistic of the pre-activation of array row r, read off blocks whose row p is that row.
theorem gate_at8 {x0 x1 x2 : Vec Ideal S4096x64 .bf16} {wx : Vec Ideal S3x64x128 .bf16}
    {X0 X1 X2 : S32768x64.Idx → EReal} {WX : S3x64x128.Idx → EReal}
    (e0 : ∀ c, X0 (ix2 r c) = x0 (ix2 p c)) (e1 : ∀ c, X1 (ix2 r c) = x1 (ix2 p c)) (e2 : ∀ c, X2 (ix2 r c) = x2 (ix2 p c))
    (e3 : ∀ u, H0 (ix2 r u) = h0 (ix2 p u)) (e4 : ∀ u, H1 (ix2 r u) = h1 (ix2 p u)) (e5 : ∀ u, H2 (ix2 r u) = h2 (ix2 p u))
    (e7 : wx = WX) (e8 : wh = WH) (e9 : b = B) (o : Fin 128) :
    k2_pay1 (k8_pay4 x0 (View.ld wx r8_1) x1 (View.ld wx r8_2) x2 (View.ld wx r8_3) h0 (View.ld wh r8_1) h1 (View.ld wh r8_2))
        h2 (View.ld wh r8_3) b (ix2 p o)
      = Ideal.logistic (Cert.Arr.pre X0 X1 X2 H0 H1 H2 WX WH B r o) := by
  subst e7 e8 e9
  unfold k2_pay1 k8_pay4 Cert.Arr.pre
  simp only [logistic_at, addf_apply, shapeCast_self]
  rw [show dot_S4096x64_S64x128_S4096x128_1_0_0_1_n_n = DotDims.plain 4096 64 128 from rfl]
  rw [mm_slab (s := 0) 0 rfl x0 wx, mm_slab (s := 1) 1 rfl x1 wx, mm_slab (s := 2) 2 rfl x2 wx, mm_slab (s := 0) 0 rfl h0 wh, mm_slab (s := 1) 1 rfl h1 wh,
    mm_slab (s := 2) 2 rfl h2 wh, broadcastTo_1b_ab_apply]
  simp only [e0, e1, e2, e3, e4, e5]

end

-- A block index (t, 0): the block is rows 4096 t … 4096 t + 4095 of its array.
abbrev Row (f : Fin 2 → ℕ) (t : ℕ) : Prop := f 0 = t ∧ f 1 = 0

-- A block index zero on every axis: the one block is the whole array.
abbrev Zero {n : ℕ} (f : Fin n → ℕ) : Prop := ∀ a, f a = 0

-- Entry (4096 t + p, q) of the array is entry (p, q) of row block t.
theorem row_at {K t : ℕ} {f : Fin 2 → ℕ} {A : (⟨2, ![32768, K]⟩ : Shape).Idx → EReal} (hf : Row f t) {p : Fin 4096} {r : Fin 32768} (hr : r.val = t * 4096 + p.val) (q : Fin K)
    (x : (⟨2, ![32768, K]⟩ : Shape).Idx) (h0 : (x 0).val = f 0 * 4096 + 1 * p.val) (h1 : (x 1).val = f 1 * K + 1 * q.val) :
    A (ix2 r q) = A x := by
  rw [hf.1] at h0; rw [hf.2] at h1
  refine congrArg A (funext fun a => Fin.ext ?_)
  match a with
  | ⟨0, _⟩ => show r.val = (x 0).val; omega
  | ⟨1, _⟩ => show q.val = (x 1).val; omega

-- A block function X and an array function G that agree row by row: X is G read through row block t.
theorem rows_eq {K t : ℕ} {f : Fin 2 → ℕ} (hf : Row f t) {X : (⟨2, ![4096, K]⟩ : Shape).Idx → EReal}
    {G : (⟨2, ![32768, K]⟩ : Shape).Idx → EReal}
    (h : ∀ (p : Fin 4096) (q : Fin K) (r : Fin 32768), r.val = t * 4096 + p.val → X (ix2 p q) = G (ix2 r q))
    (j : (⟨2, ![4096, K]⟩ : Shape).Idx) (y : (⟨2, ![32768, K]⟩ : Shape).Idx)
    (h0 : (y 0).val = f 0 * 4096 + 1 * (j 0).val) (h1 : (y 1).val = f 1 * K + 1 * (j 1).val) : X j = G y :=
  (congrArg X (eq_ix2 j)).trans ((h _ _ ⟨t * 4096 + (j 0).val, by have := idx2_lt0 y; have := hf.1; omega⟩ rfl).trans
    (row_at hf rfl _ y h0 h1))

-- Eight blocks of 4096 rows, block t at block row t, cover the 32768 rows: row i lies in block i / 4096.
theorem cover {K N : ℕ} (hN : N = 8) {ix : Fin N → Fin 2 → ℕ} (h : ∀ t, Row (ix t) t.val) {fl : Fin N → Bool} (hf : ∀ t, fl t = true)
    {B : Fin N → Finset (⟨2, ![32768, K]⟩ : Shape).Idx}
    (hB : ∀ t i, (∀ a, ix t a * ![4096, K] a ≤ (i a).val ∧ (i a).val < ix t a * ![4096, K] a + ![4096, K] a) → i ∈ B t := by
      exact fun _ _ h => mem_blk h) (i : (⟨2, ![32768, K]⟩ : Shape).Idx) : ∃ t, fl t = true ∧ i ∈ B t := by
  subst hN
  have h0 := idx2_lt0 i
  have h1 := idx2_lt1 i
  have ht : (i 0).val / 4096 < 8 := by omega
  have e0 : ix ⟨_, ht⟩ 0 = (i 0).val / 4096 := (h _).1
  have e1 : ix ⟨_, ht⟩ 1 = 0 := (h _).2
  refine ⟨⟨_, ht⟩, hf _, hB _ i fun a => ?_⟩
  match a with
  | ⟨0, _⟩ => show ix _ 0 * 4096 ≤ (i 0).val ∧ (i 0).val < ix _ 0 * 4096 + 4096; rw [e0]; omega
  | ⟨1, _⟩ => show ix _ 1 * K ≤ (i 1).val ∧ (i 1).val < ix _ 1 * K + K; rw [e1]; omega

variable (V : (c : Dev nD) → (b : Ref sig .tc) → Buf (Elt Ideal) ((c : Thread nD τ).loc b))

theorem idx2 : ∀ t : Fin cfg2.N,
    Row (win2_0.index t) t
    ∧ Row (win2_1.index t) t
    ∧ Row (win2_2.index t) t
    ∧ Row (win2_3.index t) t
    ∧ Row (win2_4.index t) t
    ∧ Row (win2_5.index t) t
    ∧ Row (win2_6.index t) t
    ∧ Zero (win2_7.index t)
    ∧ Zero (win2_8.index t)
    ∧ Zero (win2_9.index t)
    ∧ Row (win2_10.index t) t
    ∧ Row (win2_11.index t) t :=
  (by decide +kernel : ∀ t : Fin grid2.N, _)

-- Region 2: the logistic of the pre-activation of the array row that block row p of point t holds.
theorem gate2 (c : Dev nD) (t : Fin cfg2.N) {p : Fin 4096} {r : Fin 32768} (hr : r.val = t.val * 4096 + p.val) (o : Fin 128) :
    k2_pay1 (k2_pay4 (iblk2 V c 0 t) (View.ld (iblk2 V c 7 t) r2_1) (iblk2 V c 1 t) (View.ld (iblk2 V c 7 t) r2_2) (iblk2 V c 2 t) (View.ld (iblk2 V c 7 t) r2_3) (iblk2 V c 3 t) (View.ld (iblk2 V c 8 t) r2_5) (iblk2 V c 4 t) (View.ld (iblk2 V c 8 t) r2_6))
        (iblk2 V c 5 t) (View.ld (iblk2 V c 8 t) r2_7) (iblk2 V c 9 t) (ix2 p o)
      = Ideal.logistic (Cert.Arr.pre (V c main_v4) (V c main_v44) (V c main_v45) (V c main_v39) (V c main_v46) (V c main_v47) (V c main_v18) (V c main_v19) (V c main_v35) r o) :=
  gate_at2
    (fun q => row_at (idx2 t).1 hr q _ rfl rfl)
    (fun q => row_at (idx2 t).2.1 hr q _ rfl rfl)
    (fun q => row_at (idx2 t).2.2.1 hr q _ rfl rfl)
    (fun q => row_at (idx2 t).2.2.2.1 hr q _ rfl rfl)
    (fun q => row_at (idx2 t).2.2.2.2.1 hr q _ rfl rfl)
    (fun q => row_at (idx2 t).2.2.2.2.2.1 hr q _ rfl rfl)
    (funext fun y => congrArg (V c main_v18) (funext fun a => Fin.ext (win2_7.rect_emb_val_of_index_zero t a ((idx2 t).2.2.2.2.2.2.2.1 a) y)))
    (funext fun y => congrArg (V c main_v19) (funext fun a => Fin.ext (win2_8.rect_emb_val_of_index_zero t a ((idx2 t).2.2.2.2.2.2.2.2.1 a) y)))
    (funext fun y => congrArg (V c main_v35) (funext fun a => Fin.ext (win2_9.rect_emb_val_of_index_zero t a ((idx2 t).2.2.2.2.2.2.2.2.2.1 a) y))) o

theorem r2_out10 (c : Dev nD) : (dat2 V c).arrAt 10 cfg2.N =
    Cert.Arr.gateS (V c main_v4) (V c main_v44) (V c main_v45) (V c main_v39) (V c main_v46) (V c main_v47) (V c main_v9) (V c main_v18) (V c main_v19) (V c main_v35) :=
  (dat2 V c).arrAt_eq_of_cover 10 _ (fun t _ => by
    rw [Dat.flushed, after2_10, out2_10, View.canon_unit_zero hz]
    simp only [View.ld_unit_zero (S := ⟨2, _⟩) hz]
    funext j
    show _ = Cert.Arr.gateS _ _ _ _ _ _ _ _ _ _ (((cfg2.win 10).blk t).view.emb j)
    refine rows_eq (K := 64) (idx2 t).2.2.2.2.2.2.2.2.2.2.1 (fun p q r hr => ?_) j _ rfl rfl
    refine (pay3_at _ _ _ _ p q ⟨q.val, by have := q.isLt; omega⟩ _ (Nat.zero_add _).symm).trans ?_
    unfold Cert.Arr.gateS
    exact congrArg₂ (· * ·) (gate2 V c t hr _) (row_at (idx2 t).2.2.2.2.2.2.1 hr q _ rfl rfl).symm)
    (cover N_2 (fun t => (idx2 t).2.2.2.2.2.2.2.2.2.2.1) flush2_10)

theorem r2_out11 (c : Dev nD) : (dat2 V c).arrAt 11 cfg2.N =
    Cert.Arr.gateU (V c main_v4) (V c main_v44) (V c main_v45) (V c main_v39) (V c main_v46) (V c main_v47) (V c main_v18) (V c main_v19) (V c main_v35) :=
  (dat2 V c).arrAt_eq_of_cover 11 _ (fun t _ => by
    rw [Dat.flushed, after2_11, out2_11, View.canon_unit_zero hz]
    simp only [View.ld_unit_zero (S := ⟨2, _⟩) hz]
    funext j
    show _ = Cert.Arr.gateU _ _ _ _ _ _ _ _ _ (((cfg2.win 11).blk t).view.emb j)
    refine rows_eq (K := 64) (idx2 t).2.2.2.2.2.2.2.2.2.2.2 (fun p q r hr => ?_) j _ rfl rfl
    refine (pay2_at _ _ _ _ p q ⟨64 + q.val, by have := q.isLt; omega⟩ rfl).trans ?_
    unfold Cert.Arr.gateU
    exact gate2 V c t hr _)
    (cover N_2 (fun t => (idx2 t).2.2.2.2.2.2.2.2.2.2.2) flush2_11)

theorem idx8 : ∀ t : Fin cfg8.N,
    Row (win8_0.index t) t
    ∧ Row (win8_1.index t) t
    ∧ Row (win8_2.index t) t
    ∧ Row (win8_3.index t) t
    ∧ Row (win8_4.index t) t
    ∧ Row (win8_5.index t) t
    ∧ Row (win8_6.index t) t
    ∧ Zero (win8_7.index t)
    ∧ Zero (win8_8.index t)
    ∧ Zero (win8_9.index t)
    ∧ Row (win8_10.index t) t
    ∧ Row (win8_11.index t) t :=
  (by decide +kernel : ∀ t : Fin grid8.N, _)

-- Region 8: the logistic of the pre-activation of the array row that block row p of point t holds.
theorem gate8 (c : Dev nD) (t : Fin cfg8.N) {p : Fin 4096} {r : Fin 32768} (hr : r.val = t.val * 4096 + p.val) (o : Fin 128) :
    k2_pay1 (k8_pay4 (iblk8 V c 0 t) (View.ld (iblk8 V c 7 t) r8_1) (iblk8 V c 1 t) (View.ld (iblk8 V c 7 t) r8_2) (iblk8 V c 2 t) (View.ld (iblk8 V c 7 t) r8_3) (iblk8 V c 3 t) (View.ld (iblk8 V c 8 t) r8_1) (iblk8 V c 4 t) (View.ld (iblk8 V c 8 t) r8_2))
        (iblk8 V c 5 t) (View.ld (iblk8 V c 8 t) r8_3) (iblk8 V c 9 t) (ix2 p o)
      = Ideal.logistic (Cert.Arr.pre (V c main_v56_1) (V c main_v62) (V c main_v63) (V c main_v57) (V c main_v64) (V c main_v65) (V c main_v28) (V c main_v29) (V c main_v37) r o) :=
  gate_at8
    (fun q => row_at (idx8 t).1 hr q _ rfl rfl)
    (fun q => row_at (idx8 t).2.1 hr q _ rfl rfl)
    (fun q => row_at (idx8 t).2.2.1 hr q _ rfl rfl)
    (fun q => row_at (idx8 t).2.2.2.1 hr q _ rfl rfl)
    (fun q => row_at (idx8 t).2.2.2.2.1 hr q _ rfl rfl)
    (fun q => row_at (idx8 t).2.2.2.2.2.1 hr q _ rfl rfl)
    (funext fun y => congrArg (V c main_v28) (funext fun a => Fin.ext (win8_7.rect_emb_val_of_index_zero t a ((idx8 t).2.2.2.2.2.2.2.1 a) y)))
    (funext fun y => congrArg (V c main_v29) (funext fun a => Fin.ext (win8_8.rect_emb_val_of_index_zero t a ((idx8 t).2.2.2.2.2.2.2.2.1 a) y)))
    (funext fun y => congrArg (V c main_v37) (funext fun a => Fin.ext (win8_9.rect_emb_val_of_index_zero t a ((idx8 t).2.2.2.2.2.2.2.2.2.1 a) y))) o

theorem r8_out10 (c : Dev nD) : (dat8 V c).arrAt 10 cfg8.N =
    Cert.Arr.gateS (V c main_v56_1) (V c main_v62) (V c main_v63) (V c main_v57) (V c main_v64) (V c main_v65) (V c main_v14) (V c main_v28) (V c main_v29) (V c main_v37) :=
  (dat8 V c).arrAt_eq_of_cover 10 _ (fun t _ => by
    rw [Dat.flushed, after8_10, out8_10, View.canon_unit_zero hz]
    simp only [View.ld_unit_zero (S := ⟨2, _⟩) hz]
    funext j
    show _ = Cert.Arr.gateS _ _ _ _ _ _ _ _ _ _ (((cfg8.win 10).blk t).view.emb j)
    refine rows_eq (K := 64) (idx8 t).2.2.2.2.2.2.2.2.2.2.1 (fun p q r hr => ?_) j _ rfl rfl
    refine (pay3_at _ _ _ _ p q ⟨q.val, by have := q.isLt; omega⟩ _ (Nat.zero_add _).symm).trans ?_
    unfold Cert.Arr.gateS
    exact congrArg₂ (· * ·) (gate8 V c t hr _) (row_at (idx8 t).2.2.2.2.2.2.1 hr q _ rfl rfl).symm)
    (cover N_8 (fun t => (idx8 t).2.2.2.2.2.2.2.2.2.2.1) flush8_10)

theorem r8_out11 (c : Dev nD) : (dat8 V c).arrAt 11 cfg8.N =
    Cert.Arr.gateU (V c main_v56_1) (V c main_v62) (V c main_v63) (V c main_v57) (V c main_v64) (V c main_v65) (V c main_v28) (V c main_v29) (V c main_v37) :=
  (dat8 V c).arrAt_eq_of_cover 11 _ (fun t _ => by
    rw [Dat.flushed, after8_11, out8_11, View.canon_unit_zero hz]
    simp only [View.ld_unit_zero (S := ⟨2, _⟩) hz]
    funext j
    show _ = Cert.Arr.gateU _ _ _ _ _ _ _ _ _ (((cfg8.win 11).blk t).view.emb j)
    refine rows_eq (K := 64) (idx8 t).2.2.2.2.2.2.2.2.2.2.2 (fun p q r hr => ?_) j _ rfl rfl
    refine (pay2_at _ _ _ _ p q ⟨64 + q.val, by have := q.isLt; omega⟩ rfl).trans ?_
    unfold Cert.Arr.gateU
    exact gate8 V c t hr _)
    (cover N_8 (fun t => (idx8 t).2.2.2.2.2.2.2.2.2.2.2) flush8_11)

end Cert.KernelIdeal.RegGate

end
-- ==== Proof.RegCand.lean ====
import proofs.«150681_g19885698580639_cont_8to1_2033_3_alg».proof.Proof.Gen.KernelIdeal.Frame
import proofs.«150681_g19885698580639_cont_8to1_2033_3_alg».proof.Proof.Arr
import proofs.«150681_g19885698580639_cont_8to1_2033_3_alg».proof.Proof.RegD1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegCand

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

theorem hz3 : (![0, 0, 0] : Fin 3 → ℕ) = fun _ => 0 := funext fun a => by fin_cases a <;> rfl

-- A whole rank-two block loaded at offset zero is the block.
theorem ld0 {n m : ℕ} {e : EltTy} (X : (⟨2, ![n, m]⟩ : Shape).Idx → Elt Ideal e) {inb} :
    View.ld X (Rect.unit ![0, 0] (⟨2, ![n, m]⟩ : Shape).size inb) = X := View.ld_unit_zero RegD1.hz inb X

-- Slab o of a [3, n, m] array, loaded as a [1, n, m] block, is the array at leading index o.
theorem ld_slab {n m o : ℕ} {e : EltTy} (x : Vec Ideal (⟨3, ![3, n, m]⟩ : Shape) e) {inb} :
    View.ld (Val := Elt Ideal) (e' := e) x (Rect.unit (s := ⟨3, ![3, n, m]⟩) ![o, 0, 0] (⟨3, ![1, n, m]⟩ : Shape).size inb)
      = fun y => x (ix3 ⟨o, inb 0⟩ (y 1) (y 2)) := by
  funext y
  show x _ = x _
  congr 1
  funext d; apply Fin.ext
  match d with
  | ⟨0, _⟩ => show o + 1 * (y 0).val = o; have h : (y 0).val < 1 := (y 0).isLt; omega
  | ⟨1, _⟩ => exact Nat.zero_add _ |>.trans (Nat.one_mul _)
  | ⟨2, _⟩ => exact Nat.zero_add _ |>.trans (Nat.one_mul _)

theorem tanh_at {s : Shape} {φ : FTy} (v : FVec Ideal s φ) (i : s.Idx) : tanh v i = Ideal.tanh (v i) := rfl

abbrev rowOf (t : ℕ) (ht : t < 8) (p : Fin 4096) : Fin 32768 := ⟨t * 4096 + p.val, by have := p.isLt; omega⟩

-- Rows t * 4096 .. t * 4096 + 4095 of an array with 32768 rows.
def rows {n : ℕ} (A : (⟨2, ![32768, n]⟩ : Shape).Idx → EReal) (t : ℕ) (ht : t < 8) : (⟨2, ![4096, n]⟩ : Shape).Idx → EReal :=
  fun j => A (ix2 (rowOf t ht (j 0)) (j 1))

-- An index at block offset (t, 0) of a block 4096 rows high has row t * 4096 + (row in the block) and the block's column.
theorem row_idx {ni nj : Fin 2 → ℕ} {i : (a : Fin 2) → Fin (ni a)} {j : (a : Fin 2) → Fin (nj a)} {idx sz : Fin 2 → ℕ} {t : ℕ}
    (h : ∀ a, (i a : ℕ) = idx a * sz a + j a) (hi : idx 0 = t ∧ idx 1 = 0) (hs : sz 0 = 4096 := by rfl) :
    (i 0 : ℕ) = t * 4096 + j 0 ∧ (i 1 : ℕ) = j 1 := by
  rw [h 0, h 1, hi.1, hi.2, hs, Nat.zero_mul, Nat.zero_add]; exact ⟨rfl, rfl⟩

theorem rows_eq {n : ℕ} {A : (⟨2, ![32768, n]⟩ : Shape).Idx → EReal} {B : (⟨2, ![4096, n]⟩ : Shape).Idx → EReal}
    {emb : (⟨2, ![4096, n]⟩ : Shape).Idx → (⟨2, ![32768, n]⟩ : Shape).Idx} {idx sz : Fin 2 → ℕ} {t : ℕ} {ht : t < 8}
    (h : ∀ y a, (emb y a : ℕ) = idx a * sz a + y a) (hi : idx 0 = t ∧ idx 1 = 0) (hs : sz 0 = 4096 := by rfl)
    (hB : ∀ y, B y = A (emb y) := by intro; rfl) : B = rows A t ht :=
  funext fun y => (hB y).trans (congrArg A (Shape.idx_ext₂ (row_idx (h y) hi hs).1 (row_idx (h y) hi hs).2))

-- A block at offset zero that is as large as its array is the array.
theorem whole_eq {s : Shape} {A B : s.Idx → EReal} {emb : s.Idx → s.Idx} {idx sz : Fin s.rank → ℕ}
    (h : ∀ y a, (emb y a : ℕ) = idx a * sz a + y a) (hi : idx = fun _ => 0) (hB : ∀ y, B y = A (emb y) := by intro; rfl) : B = A :=
  funext fun y => (hB y).trans (congrArg A (funext fun a => Fin.ext (by rw [h, hi, Nat.zero_mul, Nat.zero_add])))

-- Eight blocks of 4096 rows, block t at block row t, cover the 32768 rows: row r lies in block r / 4096.
theorem cover {N : ℕ} (hN : N = 8) {ix : Fin N → Fin 2 → ℕ} (h : ∀ t, ix t 0 = t.val ∧ ix t 1 = 0) {fl : Fin N → Bool} (hf : ∀ t, fl t = true)
    {B : Fin N → Finset S32768x64.Idx}
    (hB : ∀ t i, (∀ d, ix t d * S4096x64.size d ≤ (i d : ℕ) ∧ (i d : ℕ) < ix t d * S4096x64.size d + S4096x64.size d) → i ∈ B t := by
      exact fun _ _ h => RegD1.mem_blk h) :
    ∀ i, ∃ t, fl t = true ∧ i ∈ B t := by
  intro i
  have h0 : (i 0).val < 32768 := (i 0).isLt
  have h1 : (i 1).val < 64 := (i 1).isLt
  obtain ⟨t, ht⟩ : ∃ t : Fin N, t.val = (i 0).val / 4096 := ⟨⟨(i 0).val / 4096, by omega⟩, rfl⟩
  refine ⟨t, hf t, hB t i fun d => ?_⟩
  match d with
  | ⟨0, _⟩ => show ix t 0 * 4096 ≤ (i 0).val ∧ (i 0).val < ix t 0 * 4096 + 4096; rw [(h t).1]; omega
  | ⟨1, _⟩ => show ix t 1 * 64 ≤ (i 1).val ∧ (i 1).val < ix t 1 * 64 + 64; rw [(h t).2]; omega

theorem point5 {x0 x1 x2 : FVec Ideal S4096x2 .bf16} {x3 x4 x5 : FVec Ideal S4096x64 .bf16} {x6 x7 : FVec Ideal S4096x64 .f32}
    {x8 : FVec Ideal S3x2x64 .bf16} {x9 : FVec Ideal S3x64x64 .bf16} {x10 : FVec Ideal S1x64 .f32}
    {A0 A1 A2 : S32768x2.Idx → EReal} {A3 A4 A5 A6 A7 : S32768x64.Idx → EReal}
    {W8 : S3x2x64.Idx → EReal} {W9 : S3x64x64.Idx → EReal} {W10 : S1x64.Idx → EReal} {t : ℕ} (ht : t < 8)
    (h0 : x0 = rows A0 t ht) (h1 : x1 = rows A1 t ht) (h2 : x2 = rows A2 t ht) (h3 : x3 = rows A3 t ht) (h4 : x4 = rows A4 t ht)
    (h5 : x5 = rows A5 t ht) (h6 : x6 = rows A6 t ht) (h7 : x7 = rows A7 t ht) (h8 : x8 = W8) (h9 : x9 = W9) (h10 : x10 = W10)
    {j : S4096x64.Idx} {i : S32768x64.Idx} (hi : (i 0 : ℕ) = t * 4096 + j 0 ∧ (i 1 : ℕ) = j 1) :
    out5_11 (F := Ideal) x0 x1 x2 x3 x4 x5 x6 x7 x8 x9 x10 j
      = Cert.Arr.cand A0 A1 A2 A3 A4 A5 A6 A7 W8 W9 W10 i := by
  subst h0 h1 h2 h3 h4 h5 h6 h7 h8 h9 h10
  obtain ⟨p, q, rfl⟩ : ∃ (p : Fin 4096) (q : Fin 64), j = ix2 p q := ⟨j 0, j 1, eq_ix2 j⟩
  obtain rfl : i = ix2 (rowOf t ht p) q := Shape.idx_ext₂ hi.1 hi.2
  unfold out5_11
  rw [View.canon_unit_zero RegD1.hz]
  unfold k5_pay1 k5_pay3
  simp only [ld0, ld_slab, addf_apply, mulf_apply, subf_apply, tanh_at, broadcast_apply, (show dot_S4096x2_S2x64_S4096x64_1_0_0_1_n_n = DotDims.plain 4096 2 64 from rfl), (show dot_S4096x64_S64x64_S4096x64_1_0_0_1_n_n = DotDims.plain 4096 64 64 from rfl), RegD1.mm_plain,
    shapeCast_self, shapeCast_1ab_ab_apply, broadcastTo_1b_ab_apply]
  rfl

-- The second output holds the same values: narrowing them changes nothing at the extended reals.
theorem out12_eq (x0 x1 x2 : FVec Ideal S4096x2 .bf16) (x3 x4 x5 : FVec Ideal S4096x64 .bf16) (x6 x7 : FVec Ideal S4096x64 .f32)
    (x8 : FVec Ideal S3x2x64 .bf16) (x9 : FVec Ideal S3x64x64 .bf16) (x10 : FVec Ideal S1x64 .f32) :
    out5_12 (F := Ideal) x0 x1 x2 x3 x4 x5 x6 x7 x8 x9 x10 = out5_11 (F := Ideal) x0 x1 x2 x3 x4 x5 x6 x7 x8 x9 x10 := by
  unfold out5_12 out5_11
  rw [View.canon_unit_zero RegD1.hz, View.canon_unit_zero RegD1.hz]
  rfl

theorem point11 {x0 x1 x2 : FVec Ideal S4096x64 .bf16} {x3 x4 x5 : FVec Ideal S4096x64 .bf16} {x6 x7 : FVec Ideal S4096x64 .f32}
    {x8 : FVec Ideal S3x64x64 .bf16} {x9 : FVec Ideal S3x64x64 .bf16} {x10 : FVec Ideal S1x64 .f32}
    {A0 A1 A2 : S32768x64.Idx → EReal} {A3 A4 A5 A6 A7 : S32768x64.Idx → EReal}
    {W8 : S3x64x64.Idx → EReal} {W9 : S3x64x64.Idx → EReal} {W10 : S1x64.Idx → EReal} {t : ℕ} (ht : t < 8)
    (h0 : x0 = rows A0 t ht) (h1 : x1 = rows A1 t ht) (h2 : x2 = rows A2 t ht) (h3 : x3 = rows A3 t ht) (h4 : x4 = rows A4 t ht)
    (h5 : x5 = rows A5 t ht) (h6 : x6 = rows A6 t ht) (h7 : x7 = rows A7 t ht) (h8 : x8 = W8) (h9 : x9 = W9) (h10 : x10 = W10)
    {j : S4096x64.Idx} {i : S32768x64.Idx} (hi : (i 0 : ℕ) = t * 4096 + j 0 ∧ (i 1 : ℕ) = j 1) :
    out11_11 (F := Ideal) x0 x1 x2 x3 x4 x5 x6 x7 x8 x9 x10 j
      = Cert.Arr.cand A0 A1 A2 A3 A4 A5 A6 A7 W8 W9 W10 i := by
  subst h0 h1 h2 h3 h4 h5 h6 h7 h8 h9 h10
  obtain ⟨p, q, rfl⟩ : ∃ (p : Fin 4096) (q : Fin 64), j = ix2 p q := ⟨j 0, j 1, eq_ix2 j⟩
  obtain rfl : i = ix2 (rowOf t ht p) q := Shape.idx_ext₂ hi.1 hi.2
  unfold out11_11
  rw [View.canon_unit_zero RegD1.hz]
  unfold k11_pay1 k11_pay3
  simp only [ld0, ld_slab, addf_apply, mulf_apply, subf_apply, tanh_at, broadcast_apply, (show dot_S4096x64_S64x64_S4096x64_1_0_0_1_n_n = DotDims.plain 4096 64 64 from rfl), RegD1.mm_plain,
    shapeCast_self, shapeCast_1ab_ab_apply, broadcastTo_1b_ab_apply]
  rfl

variable (V : (c : Dev nD) → (b : Ref sig .tc) → Buf (Elt Ideal) ((c : Thread nD τ).loc b))

-- Every row window of region 5 is at block (t, 0) at point t: their index maps are one map.
theorem idx5 : ∀ t : Fin cfg5.N, win5_0.index t (0 : Fin 2) = t.val ∧ win5_0.index t (1 : Fin 2) = 0 :=
  (by decide +kernel : ∀ t : Fin grid5.N, _)

-- Region 5's stored value at entry j of point t's block is the candidate function of the arrays at row t * 4096 + (row of j).
theorem body5 (c : Dev nD) (t : Fin cfg5.N) {j : S4096x64.Idx} {i : S32768x64.Idx} (hi : (i 0 : ℕ) = t.val * 4096 + j 0 ∧ (i 1 : ℕ) = j 1) :
    out5_11 (F := Ideal) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) j
      = Cert.Arr.cand (V c main_v4) (V c main_v52) (V c main_v53) (V c main_v48_0) (V c main_v54) (V c main_v55) (V c main_v48_1) (V c main_v9) (V c main_v23) (V c main_v24) (V c main_v36) i :=
  point5 (lt_of_lt_of_eq t.isLt N_5)
    (rows_eq (win5_0.rect_emb_val t) (idx5 t)) (rows_eq (win5_1.rect_emb_val t) (idx5 t)) (rows_eq (win5_2.rect_emb_val t) (idx5 t)) (rows_eq (win5_3.rect_emb_val t) (idx5 t))
    (rows_eq (win5_4.rect_emb_val t) (idx5 t)) (rows_eq (win5_5.rect_emb_val t) (idx5 t)) (rows_eq (win5_6.rect_emb_val t) (idx5 t)) (rows_eq (win5_7.rect_emb_val t) (idx5 t))
    (whole_eq (win5_8.rect_emb_val t) hz3) (whole_eq (win5_9.rect_emb_val t) hz3) (whole_eq (win5_10.rect_emb_val t) RegD1.hz) hi

theorem r5_out11 (c : Dev nD) : (dat5 V c).arrAt 11 cfg5.N =
    Cert.Arr.cand (V c main_v4) (V c main_v52) (V c main_v53) (V c main_v48_0) (V c main_v54) (V c main_v55) (V c main_v48_1) (V c main_v9) (V c main_v23) (V c main_v24) (V c main_v36) :=
  (dat5 V c).arrAt_eq_of_cover 11 _ (fun t _ => by
    show (cfg5.win 11).cut (grid5.coords t) ((dat5 V c).after 11 t) = _
    rw [after5_11]
    exact funext fun j => body5 V c t (row_idx (win5_11.rect_emb_val t j) (idx5 t)))
    (cover N_5 idx5 flush5_11)
theorem r5_out12 (c : Dev nD) : (dat5 V c).arrAt 12 cfg5.N =
    Cert.Arr.cand (V c main_v4) (V c main_v52) (V c main_v53) (V c main_v48_0) (V c main_v54) (V c main_v55) (V c main_v48_1) (V c main_v9) (V c main_v23) (V c main_v24) (V c main_v36) :=
  (dat5 V c).arrAt_eq_of_cover 12 _ (fun t _ => by
    show (cfg5.win 12).cut (grid5.coords t) ((dat5 V c).after 12 t) = _
    rw [after5_12, out12_eq]
    exact funext fun j => body5 V c t (row_idx (win5_12.rect_emb_val t j) (idx5 t)))
    (cover N_5 idx5 flush5_12)

theorem idx11 : ∀ t : Fin cfg11.N, win11_0.index t (0 : Fin 2) = t.val ∧ win11_0.index t (1 : Fin 2) = 0 :=
  (by decide +kernel : ∀ t : Fin grid11.N, _)

theorem r11_out11 (c : Dev nD) : (dat11 V c).arrAt 11 cfg11.N =
    Cert.Arr.cand (V c main_v56_1) (V c main_v70) (V c main_v71) (V c main_v66_0) (V c main_v72) (V c main_v73) (V c main_v66_1) (V c main_v14) (V c main_v33) (V c main_v34) (V c main_v38) :=
  (dat11 V c).arrAt_eq_of_cover 11 _ (fun t _ => by
    show (cfg11.win 11).cut (grid11.coords t) ((dat11 V c).after 11 t) = _
    rw [after11_11]
    exact funext fun j => point11 (lt_of_lt_of_eq t.isLt N_11)
      (rows_eq (win11_0.rect_emb_val t) (idx11 t)) (rows_eq (win11_1.rect_emb_val t) (idx11 t)) (rows_eq (win11_2.rect_emb_val t) (idx11 t)) (rows_eq (win11_3.rect_emb_val t) (idx11 t))
      (rows_eq (win11_4.rect_emb_val t) (idx11 t)) (rows_eq (win11_5.rect_emb_val t) (idx11 t)) (rows_eq (win11_6.rect_emb_val t) (idx11 t)) (rows_eq (win11_7.rect_emb_val t) (idx11 t))
      (whole_eq (win11_8.rect_emb_val t) hz3) (whole_eq (win11_9.rect_emb_val t) hz3) (whole_eq (win11_10.rect_emb_val t) RegD1.hz)
      (row_idx (win11_11.rect_emb_val t j) (idx11 t)))
    (cover N_11 idx11 flush11_11)

end Cert.KernelIdeal.RegCand

end
-- ==== Proof.Sem.lean ====
import Idealize.ShloMosaic.PureOps.Ideal
import Idealize.ShloMosaic.Lib.ValueIdx

noncomputable section

open scoped BigOperators

namespace Cert.Sem

open Idealize.ShloMosaic Idealize.ShloMosaic.ValueIdx

def two : EReal := Ideal.ofBits .f32 0x40000000#32
def one : EReal := Ideal.ofBits .f32 0x3F800000#32

section cell
variable (A : Fin 1024 → Fin 1024 → EReal)

def d1 (f : Fin 1024 → EReal) : Fin 1024 → EReal := fun n => ∑ m : Fin 1024, A n m * f m
def d2 (f : Fin 1024 → EReal) : Fin 1024 → EReal := fun n => two * (∑ m : Fin 1024, A n m * d1 A f m) - f n
def cheb (k : ℕ) (f : Fin 1024 → EReal) : Fin 1024 → EReal :=
  if k = 0 then f else if k = 1 then d1 A f else d2 A f

variable {cin : ℕ}

def cat (X : Fin 32 → Fin 1024 → Fin cin → EReal) (S : Fin 32 → Fin 1024 → Fin 64 → EReal) (b : Fin 32) (n : Fin 1024) (c : ℕ) : EReal :=
  if h : c < cin then X b n ⟨c, h⟩ else if h' : c - cin < 64 then S b n ⟨c - cin, h'⟩ else 0

def xcat (X : Fin 32 → Fin 1024 → Fin cin → EReal) (S : Fin 32 → Fin 1024 → Fin 64 → EReal) (b : Fin 32) (n : Fin 1024) (j : ℕ) : EReal :=
  cheb A (j % 3) (fun m => cat X S b m (j / 3)) n

def gconv {O : ℕ} (X : Fin 32 → Fin 1024 → Fin cin → EReal) (S : Fin 32 → Fin 1024 → Fin 64 → EReal)
    (W : Fin ((cin + 64) * 3) → Fin O → EReal) (bias : Fin O → EReal) (b : Fin 32) (n : Fin 1024) (o : Fin O) : EReal :=
  (∑ j : Fin ((cin + 64) * 3), xcat A X S b n j.val * W j o) + bias o

def gconvK {O : ℕ} (X : Fin 32 → Fin 1024 → Fin cin → EReal) (S : Fin 32 → Fin 1024 → Fin 64 → EReal)
    (W : Fin ((cin + 64) * 3) → Fin O → EReal) (bias : Fin O → EReal) (b : Fin 32) (n : Fin 1024) (o : Fin O) : EReal :=
  (((((∑ c : Fin cin, X b n c * W ⟨c.val * 3 + 0, by have := c.isLt; omega⟩ o)
      + ∑ c : Fin cin, d1 A (fun m => X b m c) n * W ⟨c.val * 3 + 1, by have := c.isLt; omega⟩ o)
      + ∑ c : Fin cin, d2 A (fun m => X b m c) n * W ⟨c.val * 3 + 2, by have := c.isLt; omega⟩ o)
      + ∑ u : Fin 64, S b n u * W ⟨(cin + u.val) * 3 + 0, by have := u.isLt; omega⟩ o)
      + ∑ u : Fin 64, d1 A (fun m => S b m u) n * W ⟨(cin + u.val) * 3 + 1, by have := u.isLt; omega⟩ o)
      + ∑ u : Fin 64, d2 A (fun m => S b m u) n * W ⟨(cin + u.val) * 3 + 2, by have := u.isLt; omega⟩ o
    + bias o

theorem gconvK_eq {O : ℕ} (X : Fin 32 → Fin 1024 → Fin cin → EReal) (S : Fin 32 → Fin 1024 → Fin 64 → EReal)
    (W : Fin ((cin + 64) * 3) → Fin O → EReal) (bias : Fin O → EReal) (b : Fin 32) (n : Fin 1024) (o : Fin O) :
    gconvK A X S W bias b n o = gconv A X S W bias b n o := by
  unfold gconvK gconv
  congr 1
  rw [← (finProdFinEquiv (m := cin + 64) (n := 3)).sum_comp, Fintype.sum_prod_type]
  have hterm : ∀ (c : Fin (cin + 64)) (k : Fin 3),
      xcat A X S b n (finProdFinEquiv (c, k)).val * W (finProdFinEquiv (c, k)) o
        = cheb A k.val (fun m => cat X S b m c.val) n
            * W ⟨c.val * 3 + k.val, by have := c.isLt; have := k.isLt; omega⟩ o := by
    intro c k
    have hv : (finProdFinEquiv (c, k)).val = k.val + 3 * c.val := rfl
    have hmod : (k.val + 3 * c.val) % 3 = k.val := by have := k.isLt; omega
    have hdiv : (k.val + 3 * c.val) / 3 = c.val := by have := k.isLt; omega
    have hidx : finProdFinEquiv (c, k)
        = (⟨c.val * 3 + k.val, by have := c.isLt; have := k.isLt; omega⟩ : Fin ((cin + 64) * 3)) := by
      apply Fin.ext; rw [hv]; show k.val + 3 * c.val = c.val * 3 + k.val; omega
    unfold xcat
    rw [hv, hmod, hdiv, hidx]
  simp only [hterm]
  rw [Fin.sum_univ_add]
  simp only [Fin.sum_univ_three, Finset.sum_add_distrib]
  have hX : ∀ c : Fin cin, (fun m => cat X S b m (Fin.castAdd 64 c).val) = fun m => X b m c := by
    intro c; funext m
    have hc : (Fin.castAdd 64 c).val < cin := c.isLt
    unfold cat; rw [dif_pos hc]; rfl
  have hS : ∀ u : Fin 64, (fun m => cat X S b m (Fin.natAdd cin u).val) = fun m => S b m u := by
    intro u; funext m
    have hv : (Fin.natAdd cin u).val = cin + u.val := rfl
    have h1 : ¬ (cin + u.val < cin) := by omega
    have h2 : cin + u.val - cin < 64 := by have := u.isLt; omega
    have h3 : (⟨cin + u.val - cin, h2⟩ : Fin 64) = u := by apply Fin.ext; show cin + u.val - cin = u.val; omega
    unfold cat; rw [hv, dif_neg h1, dif_pos h2, h3]
  have c0 : ∀ f : Fin 1024 → EReal, cheb A (0 : Fin 3).val f = f := by intro f; rfl
  have c1 : ∀ f : Fin 1024 → EReal, cheb A (1 : Fin 3).val f = d1 A f := by intro f; rfl
  have c2 : ∀ f : Fin 1024 → EReal, cheb A (2 : Fin 3).val f = d2 A f := by intro f; rfl
  simp only [hX, hS, c0, c1, c2]
  have z0 : ((0 : Fin 3) : ℕ) = 0 := rfl
  have z1 : ((1 : Fin 3) : ℕ) = 1 := rfl
  have z2 : ((2 : Fin 3) : ℕ) = 2 := rfl
  simp only [Fin.coe_castAdd, Fin.coe_natAdd, z0, z1, z2, add_assoc]

def reset (X : Fin 32 → Fin 1024 → Fin cin → EReal) (H : Fin 32 → Fin 1024 → Fin 64 → EReal)
    (Wg : Fin ((cin + 64) * 3) → Fin 128 → EReal) (bg : Fin 128 → EReal) (b : Fin 32) (n : Fin 1024) (u : Fin 64) : EReal :=
  Ideal.logistic (gconv A X H Wg bg b n ⟨u.val, by have := u.isLt; omega⟩)
def update (X : Fin 32 → Fin 1024 → Fin cin → EReal) (H : Fin 32 → Fin 1024 → Fin 64 → EReal)
    (Wg : Fin ((cin + 64) * 3) → Fin 128 → EReal) (bg : Fin 128 → EReal) (b : Fin 32) (n : Fin 1024) (u : Fin 64) : EReal :=
  Ideal.logistic (gconv A X H Wg bg b n ⟨64 + u.val, by have := u.isLt; omega⟩)
def cell (X : Fin 32 → Fin 1024 → Fin cin → EReal) (H : Fin 32 → Fin 1024 → Fin 64 → EReal)
    (Wg : Fin ((cin + 64) * 3) → Fin 128 → EReal) (bg : Fin 128 → EReal)
    (Wc : Fin ((cin + 64) * 3) → Fin 64 → EReal) (bc : Fin 64 → EReal) (b : Fin 32) (n : Fin 1024) (u : Fin 64) : EReal :=
  update A X H Wg bg b n u * H b n u
    + (one - update A X H Wg bg b n u)
      * Ideal.tanh (gconv A X (fun b' n' u' => reset A X H Wg bg b' n' u' * H b' n' u') Wc bc b n u)

end cell

def adj (a : (⟨2, ![1024, 1024]⟩ : Shape).Idx → EReal) : Fin 1024 → Fin 1024 → EReal := fun n m => a (ix2 n m)
def feat (a : (⟨2, ![32, 2048]⟩ : Shape).Idx → EReal) : Fin 32 → Fin 1024 → Fin 2 → EReal :=
  fun b n c => a (ix2 b ⟨n.val * 2 + c.val, by have := n.isLt; have := c.isLt; omega⟩)
def state (a : (⟨3, ![2, 32, 65536]⟩ : Shape).Idx → EReal) (l : Fin 2) : Fin 32 → Fin 1024 → Fin 64 → EReal :=
  fun b n u => a (ix3 l b ⟨n.val * 64 + u.val, by have := n.isLt; have := u.isLt; omega⟩)
def wmat {J O : ℕ} (a : (⟨2, ![J, O]⟩ : Shape).Idx → EReal) : Fin J → Fin O → EReal := fun j o => a (ix2 j o)
def bvec {O : ℕ} (a : (⟨1, ![O]⟩ : Shape).Idx → EReal) : Fin O → EReal := fun o => a (ix1 o)

def layer0 (a0 : (⟨2, ![32, 2048]⟩ : Shape).Idx → EReal) (a1 : (⟨2, ![1024, 1024]⟩ : Shape).Idx → EReal)
    (a2 : (⟨3, ![2, 32, 65536]⟩ : Shape).Idx → EReal) (a3 : (⟨2, ![198, 128]⟩ : Shape).Idx → EReal) (a4 : (⟨1, ![128]⟩ : Shape).Idx → EReal)
    (a5 : (⟨2, ![198, 64]⟩ : Shape).Idx → EReal) (a6 : (⟨1, ![64]⟩ : Shape).Idx → EReal) : Fin 32 → Fin 1024 → Fin 64 → EReal :=
  cell (cin := 2) (adj a1) (feat a0) (state a2 0) (wmat a3) (bvec a4) (wmat a5) (bvec a6)

def layer1 (a0 : (⟨2, ![32, 2048]⟩ : Shape).Idx → EReal) (a1 : (⟨2, ![1024, 1024]⟩ : Shape).Idx → EReal)
    (a2 : (⟨3, ![2, 32, 65536]⟩ : Shape).Idx → EReal) (a3 : (⟨2, ![198, 128]⟩ : Shape).Idx → EReal) (a4 : (⟨1, ![128]⟩ : Shape).Idx → EReal)
    (a5 : (⟨2, ![198, 64]⟩ : Shape).Idx → EReal) (a6 : (⟨1, ![64]⟩ : Shape).Idx → EReal)
    (a7 : (⟨2, ![384, 128]⟩ : Shape).Idx → EReal) (a8 : (⟨1, ![128]⟩ : Shape).Idx → EReal)
    (a9 : (⟨2, ![384, 64]⟩ : Shape).Idx → EReal) (a10 : (⟨1, ![64]⟩ : Shape).Idx → EReal) : Fin 32 → Fin 1024 → Fin 64 → EReal :=
  cell (cin := 64) (adj a1) (layer0 a0 a1 a2 a3 a4 a5 a6) (state a2 1) (wmat a7) (bvec a8) (wmat a9) (bvec a10)

end Cert.Sem

end
-- ==== Proof.ArrSem.lean ====
import proofs.«150681_g19885698580639_cont_8to1_2033_3_alg».proof.Proof.Arr
import proofs.«150681_g19885698580639_cont_8to1_2033_3_alg».proof.Proof.Sem

noncomputable section

open scoped BigOperators

namespace Cert.ArrSem

open Idealize.ShloMosaic Idealize.ShloMosaic.ValueIdx

def row (n : Fin 1024) (b : Fin 32) : Fin 32768 := ⟨n.val * 32 + b.val, by have := n.isLt; have := b.isLt; omega⟩

theorem mm_sem {Q : ℕ} (A : Fin 1024 → Fin 1024 → EReal) (a : (⟨2, ![1024, 1024]⟩ : Shape).Idx → EReal)
    (x : (⟨2, ![1024, Q]⟩ : Shape).Idx → EReal) (ha : ∀ n m, a (ix2 n m) = A n m) (n : Fin 1024) (q : Fin Q) :
    Cert.Arr.mm a x (ix2 n q) = Cert.Sem.d1 A (fun m => x (ix2 m q)) n := by
  show ∑ k : Fin 1024, a (ix2 n k) * x (ix2 k q) = ∑ m : Fin 1024, A n m * x (ix2 m q)
  exact Finset.sum_congr rfl fun k _ => by rw [ha n k]

theorem cheb2_sem {Q : ℕ} (A : Fin 1024 → Fin 1024 → EReal) (a : (⟨2, ![1024, 1024]⟩ : Shape).Idx → EReal)
    (x0 x1 : (⟨2, ![1024, Q]⟩ : Shape).Idx → EReal) (ha : ∀ n m, a (ix2 n m) = A n m) (q : Fin Q)
    (f : Fin 1024 → EReal) (h0 : ∀ m, x0 (ix2 m q) = f m) (h1 : ∀ m, x1 (ix2 m q) = Cert.Sem.d1 A f m) (n : Fin 1024) :
    Cert.Arr.cheb2 a x0 x1 (ix2 n q) = Cert.Sem.d2 A f n := by
  have e : (∑ k : Fin 1024, a (ix2 n k) * x1 (ix2 k q)) = ∑ m : Fin 1024, A n m * Cert.Sem.d1 A f m :=
    Finset.sum_congr rfl fun k _ => by rw [ha n k, h1 k]
  show Cert.Arr.two * (∑ k : Fin 1024, a (ix2 n k) * x1 (ix2 k q)) - x0 (ix2 n q)
    = Cert.Sem.two * (∑ m : Fin 1024, A n m * Cert.Sem.d1 A f m) - f n
  rw [e, h0 n]
  rfl

section gates
variable {cin : ℕ} (A : Fin 1024 → Fin 1024 → EReal)
  (X : Fin 32 → Fin 1024 → Fin cin → EReal) (H : Fin 32 → Fin 1024 → Fin 64 → EReal)

theorem pre_sem {O : ℕ} (W : Fin ((cin + 64) * 3) → Fin O → EReal) (bv : Fin O → EReal)
    (x0 x1 x2 : (⟨2, ![32768, cin]⟩ : Shape).Idx → EReal) (h0 h1 h2 : (⟨2, ![32768, 64]⟩ : Shape).Idx → EReal)
    (wx : (⟨3, ![3, cin, O]⟩ : Shape).Idx → EReal) (wh : (⟨3, ![3, 64, O]⟩ : Shape).Idx → EReal)
    (bias : (⟨2, ![1, O]⟩ : Shape).Idx → EReal)
    (hx0 : ∀ n b c, x0 (ix2 (row n b) c) = X b n c)
    (hx1 : ∀ n b c, x1 (ix2 (row n b) c) = Cert.Sem.d1 A (fun m => X b m c) n)
    (hx2 : ∀ n b c, x2 (ix2 (row n b) c) = Cert.Sem.d2 A (fun m => X b m c) n)
    (hh0 : ∀ n b u, h0 (ix2 (row n b) u) = H b n u)
    (hh1 : ∀ n b u, h1 (ix2 (row n b) u) = Cert.Sem.d1 A (fun m => H b m u) n)
    (hh2 : ∀ n b u, h2 (ix2 (row n b) u) = Cert.Sem.d2 A (fun m => H b m u) n)
    (hwx : ∀ (k : Fin 3) (c : Fin cin) (o : Fin O), wx (ix3 k c o) = W ⟨c.val * 3 + k.val, by have := c.isLt; have := k.isLt; omega⟩ o)
    (hwh : ∀ (k : Fin 3) (u : Fin 64) (o : Fin O), wh (ix3 k u o) = W ⟨(cin + u.val) * 3 + k.val, by have := u.isLt; have := k.isLt; omega⟩ o)
    (hb : ∀ o, bias (ix2 0 o) = bv o) (n : Fin 1024) (b : Fin 32) (o : Fin O) :
    Cert.Arr.pre x0 x1 x2 h0 h1 h2 wx wh bias (row n b) o = Cert.Sem.gconv A X H W bv b n o := by
  rw [← Cert.Sem.gconvK_eq]
  have e0 : (∑ c : Fin cin, x0 (ix2 (row n b) c) * wx (ix3 0 c o))
      = ∑ c : Fin cin, X b n c * W ⟨c.val * 3 + 0, by have := c.isLt; omega⟩ o :=
    Finset.sum_congr rfl fun c _ => by rw [hx0 n b c, hwx 0 c o]; rfl
  have e1 : (∑ c : Fin cin, x1 (ix2 (row n b) c) * wx (ix3 1 c o))
      = ∑ c : Fin cin, Cert.Sem.d1 A (fun m => X b m c) n * W ⟨c.val * 3 + 1, by have := c.isLt; omega⟩ o :=
    Finset.sum_congr rfl fun c _ => by rw [hx1 n b c, hwx 1 c o]; rfl
  have e2 : (∑ c : Fin cin, x2 (ix2 (row n b) c) * wx (ix3 2 c o))
      = ∑ c : Fin cin, Cert.Sem.d2 A (fun m => X b m c) n * W ⟨c.val * 3 + 2, by have := c.isLt; omega⟩ o :=
    Finset.sum_congr rfl fun c _ => by rw [hx2 n b c, hwx 2 c o]; rfl
  have f0 : (∑ u : Fin 64, h0 (ix2 (row n b) u) * wh (ix3 0 u o))
      = ∑ u : Fin 64, H b n u * W ⟨(cin + u.val) * 3 + 0, by have := u.isLt; omega⟩ o :=
    Finset.sum_congr rfl fun u _ => by rw [hh0 n b u, hwh 0 u o]; rfl
  have f1 : (∑ u : Fin 64, h1 (ix2 (row n b) u) * wh (ix3 1 u o))
      = ∑ u : Fin 64, Cert.Sem.d1 A (fun m => H b m u) n * W ⟨(cin + u.val) * 3 + 1, by have := u.isLt; omega⟩ o :=
    Finset.sum_congr rfl fun u _ => by rw [hh1 n b u, hwh 1 u o]; rfl
  have f2 : (∑ u : Fin 64, h2 (ix2 (row n b) u) * wh (ix3 2 u o))
      = ∑ u : Fin 64, Cert.Sem.d2 A (fun m => H b m u) n * W ⟨(cin + u.val) * 3 + 2, by have := u.isLt; omega⟩ o :=
    Finset.sum_congr rfl fun u _ => by rw [hh2 n b u, hwh 2 u o]; rfl
  unfold Cert.Arr.pre Cert.Sem.gconvK
  rw [e0, e1, e2, f0, f1, f2, hb o]

theorem gate_sem (Wg : Fin ((cin + 64) * 3) → Fin 128 → EReal) (bg : Fin 128 → EReal)
    (x0 x1 x2 : (⟨2, ![32768, cin]⟩ : Shape).Idx → EReal) (h0 h1 h2 hf : (⟨2, ![32768, 64]⟩ : Shape).Idx → EReal)
    (wx : (⟨3, ![3, cin, 128]⟩ : Shape).Idx → EReal) (wh : (⟨3, ![3, 64, 128]⟩ : Shape).Idx → EReal)
    (bias : (⟨2, ![1, 128]⟩ : Shape).Idx → EReal)
    (hx0 : ∀ n b c, x0 (ix2 (row n b) c) = X b n c)
    (hx1 : ∀ n b c, x1 (ix2 (row n b) c) = Cert.Sem.d1 A (fun m => X b m c) n)
    (hx2 : ∀ n b c, x2 (ix2 (row n b) c) = Cert.Sem.d2 A (fun m => X b m c) n)
    (hh0 : ∀ n b u, h0 (ix2 (row n b) u) = H b n u)
    (hh1 : ∀ n b u, h1 (ix2 (row n b) u) = Cert.Sem.d1 A (fun m => H b m u) n)
    (hh2 : ∀ n b u, h2 (ix2 (row n b) u) = Cert.Sem.d2 A (fun m => H b m u) n)
    (hhf : ∀ n b u, hf (ix2 (row n b) u) = H b n u)
    (hwx : ∀ (k : Fin 3) (c : Fin cin) (o : Fin 128), wx (ix3 k c o) = Wg ⟨c.val * 3 + k.val, by have := c.isLt; have := k.isLt; omega⟩ o)
    (hwh : ∀ (k : Fin 3) (u : Fin 64) (o : Fin 128), wh (ix3 k u o) = Wg ⟨(cin + u.val) * 3 + k.val, by have := u.isLt; have := k.isLt; omega⟩ o)
    (hb : ∀ o, bias (ix2 0 o) = bg o) (n : Fin 1024) (b : Fin 32) (u : Fin 64) :
    Cert.Arr.gateS x0 x1 x2 h0 h1 h2 hf wx wh bias (ix2 (row n b) u) = Cert.Sem.reset A X H Wg bg b n u * H b n u
    ∧ Cert.Arr.gateU x0 x1 x2 h0 h1 h2 wx wh bias (ix2 (row n b) u) = Cert.Sem.update A X H Wg bg b n u := by
  have hr := pre_sem A X H Wg bg x0 x1 x2 h0 h1 h2 wx wh bias hx0 hx1 hx2 hh0 hh1 hh2 hwx hwh hb n b
    ⟨u.val, by have := u.isLt; omega⟩
  have hz := pre_sem A X H Wg bg x0 x1 x2 h0 h1 h2 wx wh bias hx0 hx1 hx2 hh0 hh1 hh2 hwx hwh hb n b
    ⟨64 + u.val, by have := u.isLt; omega⟩
  refine ⟨?_, ?_⟩
  · show Ideal.logistic (Cert.Arr.pre x0 x1 x2 h0 h1 h2 wx wh bias (row n b) ⟨u.val, by have := u.isLt; omega⟩)
        * hf (ix2 (row n b) u) = Cert.Sem.reset A X H Wg bg b n u * H b n u
    rw [hr, hhf n b u]
    rfl
  · show Ideal.logistic (Cert.Arr.pre x0 x1 x2 h0 h1 h2 wx wh bias (row n b) ⟨64 + u.val, by have := u.isLt; omega⟩)
        = Cert.Sem.update A X H Wg bg b n u
    rw [hz]
    rfl

theorem cand_sem (Wg : Fin ((cin + 64) * 3) → Fin 128 → EReal) (bg : Fin 128 → EReal)
    (Wc : Fin ((cin + 64) * 3) → Fin 64 → EReal) (bc : Fin 64 → EReal)
    (x0 x1 x2 : (⟨2, ![32768, cin]⟩ : Shape).Idx → EReal) (s0 s1 s2 uu hf : (⟨2, ![32768, 64]⟩ : Shape).Idx → EReal)
    (wx : (⟨3, ![3, cin, 64]⟩ : Shape).Idx → EReal) (ws : (⟨3, ![3, 64, 64]⟩ : Shape).Idx → EReal)
    (bias : (⟨2, ![1, 64]⟩ : Shape).Idx → EReal)
    (hx0 : ∀ n b c, x0 (ix2 (row n b) c) = X b n c)
    (hx1 : ∀ n b c, x1 (ix2 (row n b) c) = Cert.Sem.d1 A (fun m => X b m c) n)
    (hx2 : ∀ n b c, x2 (ix2 (row n b) c) = Cert.Sem.d2 A (fun m => X b m c) n)
    (hs0 : ∀ n b u, s0 (ix2 (row n b) u) = Cert.Sem.reset A X H Wg bg b n u * H b n u)
    (hs1 : ∀ n b u, s1 (ix2 (row n b) u) = Cert.Sem.d1 A (fun m => Cert.Sem.reset A X H Wg bg b m u * H b m u) n)
    (hs2 : ∀ n b u, s2 (ix2 (row n b) u) = Cert.Sem.d2 A (fun m => Cert.Sem.reset A X H Wg bg b m u * H b m u) n)
    (hu : ∀ n b u, uu (ix2 (row n b) u) = Cert.Sem.update A X H Wg bg b n u)
    (hhf : ∀ n b u, hf (ix2 (row n b) u) = H b n u)
    (hwx : ∀ (k : Fin 3) (c : Fin cin) (o : Fin 64), wx (ix3 k c o) = Wc ⟨c.val * 3 + k.val, by have := c.isLt; have := k.isLt; omega⟩ o)
    (hws : ∀ (k : Fin 3) (u : Fin 64) (o : Fin 64), ws (ix3 k u o) = Wc ⟨(cin + u.val) * 3 + k.val, by have := u.isLt; have := k.isLt; omega⟩ o)
    (hb : ∀ o, bias (ix2 0 o) = bc o) (n : Fin 1024) (b : Fin 32) (u : Fin 64) :
    Cert.Arr.cand x0 x1 x2 s0 s1 s2 uu hf wx ws bias (ix2 (row n b) u) = Cert.Sem.cell A X H Wg bg Wc bc b n u := by
  have hp := pre_sem A X (fun b' n' u' => Cert.Sem.reset A X H Wg bg b' n' u' * H b' n' u') Wc bc
    x0 x1 x2 s0 s1 s2 wx ws bias hx0 hx1 hx2 hs0 hs1 hs2 hwx hws hb n b u
  show uu (ix2 (row n b) u) * hf (ix2 (row n b) u)
      + (Cert.Arr.one - uu (ix2 (row n b) u)) * Ideal.tanh (Cert.Arr.pre x0 x1 x2 s0 s1 s2 wx ws bias (row n b) u)
    = Cert.Sem.cell A X H Wg bg Wc bc b n u
  rw [hp, hu n b u, hhf n b u]
  rfl

end gates

end Cert.ArrSem

end
-- ==== Proof.LibRelayout.lean ====
import Idealize.ShloMosaic.Lib.Pipeline.Value
import Idealize.ShloMosaic.Lib.ValueIdx
import Idealize.ShloMosaic.Lib.ValueLayout

noncomputable section

namespace Cert.LibRelayout

open Idealize.ShloMosaic Idealize.ShloMosaic.ValueIdx

variable {α : Type}

def row (n : Fin 1024) (b : Fin 32) : Fin 32768 := ⟨n.val * 32 + b.val, by have := n.isLt; have := b.isLt; omega⟩

theorem cols_of_rows2 (x : (⟨2, ![32768, 2]⟩ : Shape).Idx → α) (h : (⟨2, ![32768, 2]⟩ : Shape).ShapeCasts ⟨2, ![1024, 64]⟩)
    (n : Fin 1024) (b : Fin 32) (c : Fin 2) :
    shapeCast ⟨2, ![1024, 64]⟩ x h (ix2 n ⟨b.val * 2 + c.val, by have := b.isLt; have := c.isLt; omega⟩) = x (ix2 (row n b) c) := by
  exact shapeCast_apply x h _ _ (by
    rw [Shape.rowMajor_val_two, Shape.rowMajor_val_two]
    show (n.val * 32 + b.val) * 2 + c.val = n.val * 64 + (b.val * 2 + c.val)
    omega)

theorem cols_of_rows64 (x : (⟨2, ![32768, 64]⟩ : Shape).Idx → α) (h : (⟨2, ![32768, 64]⟩ : Shape).ShapeCasts ⟨2, ![1024, 2048]⟩)
    (n : Fin 1024) (b : Fin 32) (u : Fin 64) :
    shapeCast ⟨2, ![1024, 2048]⟩ x h (ix2 n ⟨b.val * 64 + u.val, by have := b.isLt; have := u.isLt; omega⟩) = x (ix2 (row n b) u) := by
  exact shapeCast_apply x h _ _ (by
    rw [Shape.rowMajor_val_two, Shape.rowMajor_val_two]
    show (n.val * 32 + b.val) * 64 + u.val = n.val * 2048 + (b.val * 64 + u.val)
    omega)

theorem node_major64 (x : (⟨2, ![32, 65536]⟩ : Shape).Idx → α)
    (h1 : (⟨2, ![32, 65536]⟩ : Shape).ShapeCasts ⟨3, ![32, 1024, 64]⟩)
    (h2 : (⟨3, ![32, 1024, 64]⟩ : Shape).Transposes [1, 0, 2] ⟨3, ![1024, 32, 64]⟩)
    (h3 : (⟨3, ![1024, 32, 64]⟩ : Shape).ShapeCasts ⟨2, ![32768, 64]⟩)
    (n : Fin 1024) (b : Fin 32) (u : Fin 64) :
    shapeCast ⟨2, ![32768, 64]⟩ (transpose ⟨3, ![1024, 32, 64]⟩ [1, 0, 2] (shapeCast ⟨3, ![32, 1024, 64]⟩ x h1) h2) h3
        (ix2 (row n b) u)
      = x (ix2 b ⟨n.val * 64 + u.val, by have := n.isLt; have := u.isLt; omega⟩) := by
  refine (shapeCast_apply _ h3 _ (ix3 n b u) (by
    rw [Shape.rowMajor_val_three, Shape.rowMajor_val_two]
    rfl)).trans ?_
  refine (transpose_apply _ _ h2 (ix3 n b u) (ix3 b n u)
    (fun a => match a with | ⟨0, _⟩ => rfl | ⟨1, _⟩ => rfl | ⟨2, _⟩ => rfl)).trans ?_
  exact shapeCast_apply x h1 _ _ (by
    rw [Shape.rowMajor_val_two, Shape.rowMajor_val_three]
    show b.val * 65536 + (n.val * 64 + u.val) = (b.val * 1024 + n.val) * 64 + u.val
    omega)

theorem node_major2 (x : (⟨2, ![32, 2048]⟩ : Shape).Idx → α)
    (h1 : (⟨2, ![32, 2048]⟩ : Shape).ShapeCasts ⟨3, ![32, 1024, 2]⟩)
    (h2 : (⟨3, ![32, 1024, 2]⟩ : Shape).Transposes [1, 0, 2] ⟨3, ![1024, 32, 2]⟩)
    (h3 : (⟨3, ![1024, 32, 2]⟩ : Shape).ShapeCasts ⟨2, ![32768, 2]⟩)
    (n : Fin 1024) (b : Fin 32) (c : Fin 2) :
    shapeCast ⟨2, ![32768, 2]⟩ (transpose ⟨3, ![1024, 32, 2]⟩ [1, 0, 2] (shapeCast ⟨3, ![32, 1024, 2]⟩ x h1) h2) h3
        (ix2 (row n b) c)
      = x (ix2 b ⟨n.val * 2 + c.val, by have := n.isLt; have := c.isLt; omega⟩) := by
  refine (shapeCast_apply _ h3 _ (ix3 n b c) (by
    rw [Shape.rowMajor_val_three, Shape.rowMajor_val_two]
    rfl)).trans ?_
  refine (transpose_apply _ _ h2 (ix3 n b c) (ix3 b n c)
    (fun a => match a with | ⟨0, _⟩ => rfl | ⟨1, _⟩ => rfl | ⟨2, _⟩ => rfl)).trans ?_
  exact shapeCast_apply x h1 _ _ (by
    rw [Shape.rowMajor_val_two, Shape.rowMajor_val_three]
    show b.val * 2048 + (n.val * 2 + c.val) = (b.val * 1024 + n.val) * 2 + c.val
    omega)

end Cert.LibRelayout

end
-- ==== Proof.KLayer0a.lean ====
import proofs.«150681_g19885698580639_cont_8to1_2033_3_alg».proof.Proof.Gen.KernelIdeal.Launch
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Lay

open Idealize.ShloMosaic Idealize.ShloMosaic.ValueIdx

variable {α : Type}

theorem reshape22 {p q p' q' : ℕ} (x : (⟨2, ![p, q]⟩ : Shape).Idx → α)
    (h : (⟨2, ![p, q]⟩ : Shape).ShapeCasts ⟨2, ![p', q']⟩)
    (i : Fin p) (j : Fin q) (i' : Fin p') (j' : Fin q') (e : i.val * q + j.val = i'.val * q' + j'.val) :
    shapeCast ⟨2, ![p', q']⟩ x h (ix2 i' j') = x (ix2 i j) :=
  shapeCast_apply x h _ _ (by
    rw [Shape.rowMajor_val_two, Shape.rowMajor_val_two]
    exact e)

-- A function that is a rank-two reshape of x reads, at an index, x at the index with the same row-major position.
theorem rd {p q p' q' : ℕ} {F : (⟨2, ![p', q']⟩ : Shape).Idx → α} {x : (⟨2, ![p, q]⟩ : Shape).Idx → α} {h}
    (e : F = shapeCast ⟨2, ![p', q']⟩ x h) (i : Fin p) (j : Fin q) (i' : Fin p') (j' : Fin q')
    (eq : i.val * q + j.val = i'.val * q' + j'.val) : F (ix2 i' j') = x (ix2 i j) :=
  e ▸ reshape22 x h i j i' j' eq

theorem reshape23 {p q a b c : ℕ} (x : (⟨2, ![p, q]⟩ : Shape).Idx → α)
    (h : (⟨2, ![p, q]⟩ : Shape).ShapeCasts ⟨3, ![a, b, c]⟩)
    (i : Fin p) (j : Fin q) (i' : Fin a) (j' : Fin b) (k' : Fin c)
    (e : i.val * q + j.val = (i'.val * b + j'.val) * c + k'.val) :
    shapeCast ⟨3, ![a, b, c]⟩ x h (ix3 i' j' k') = x (ix2 i j) :=
  shapeCast_apply x h _ _ (by
    rw [Shape.rowMajor_val_two, Shape.rowMajor_val_three]
    exact e)

theorem swap01 {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

theorem slab0 {n0 n1 n2 : ℕ} (o : ℕ) (X : (⟨3, ![n0, n1, n2]⟩ : Shape).Idx → α)
    (h : (⟨3, ![n0, n1, n2]⟩ : Shape).Slices ![o, 0, 0] ⟨3, ![1, n1, n2]⟩)
    (z : Fin 1) (j : Fin n1) (e : Fin n2) (k : Fin n0) (hk : k.val = o) :
    extractStridedSlice ⟨3, ![1, n1, n2]⟩ ![o, 0, 0] X h (ix3 z j e) = X (ix3 k j e) :=
  extractStridedSlice_apply _ _ _ _ _ (fun ax => by
    match ax with
    | ⟨0, _⟩ => have hz : z.val = 0 := by omega
                show k.val = o + z.val
                omega
    | ⟨1, _⟩ => exact (Nat.zero_add _).symm
    | ⟨2, _⟩ => exact (Nat.zero_add _).symm)

end Cert.KernelIdeal.Lay

namespace Cert.KernelIdeal.KLayer0

open Cert.KernelIdeal Cert.KernelIdeal.Gen
open Idealize.ShloMosaic Idealize.ShloMosaic.TcCoe Idealize.ShloMosaic.ValueIdx Idealize.SL.Sem

abbrev colX (b : Fin 32) (cc : Fin 2) : Fin 64 := ⟨b.val * 2 + cc.val, by have := b.isLt; have := cc.isLt; omega⟩
abbrev colH (b : Fin 32) (u : Fin 64) : Fin 2048 := ⟨b.val * 64 + u.val, by have := b.isLt; have := u.isLt; omega⟩

variable (V : Valuation τ sig (Elt Ideal))

theorem host2_v44 (n : Fin 1024) (b : Fin 32) (cc : Fin 2) (r : Fin 32768) (hr : r.val = n.val * 32 + b.val) :
    StableHlo.after hostOps2 V (Proc.devRef .tc main_v44) (ix2 r cc) = V (Proc.devRef .tc main_v42_0) (ix2 n (colX b cc)) :=
  Lay.rd (by after_results; rfl) n (colX b cc) r cc (by show n.val * 64 + (b.val * 2 + cc.val) = r.val * 2 + cc.val; omega)

theorem host2_v45 (n : Fin 1024) (b : Fin 32) (cc : Fin 2) (r : Fin 32768) (hr : r.val = n.val * 32 + b.val) :
    StableHlo.after hostOps2 V (Proc.devRef .tc main_v45) (ix2 r cc) = V (Proc.devRef .tc main_v43_0) (ix2 n (colX b cc)) :=
  Lay.rd (by after_results; rfl) n (colX b cc) r cc (by show n.val * 64 + (b.val * 2 + cc.val) = r.val * 2 + cc.val; omega)

theorem host2_v46 (n : Fin 1024) (b : Fin 32) (u : Fin 64) (r : Fin 32768) (hr : r.val = n.val * 32 + b.val) :
    StableHlo.after hostOps2 V (Proc.devRef .tc main_v46) (ix2 r u) = V (Proc.devRef .tc main_v42_1) (ix2 n (colH b u)) :=
  Lay.rd (by after_results; rfl) n (colH b u) r u (by show n.val * 2048 + (b.val * 64 + u.val) = r.val * 64 + u.val; omega)

theorem host2_v47 (n : Fin 1024) (b : Fin 32) (u : Fin 64) (r : Fin 32768) (hr : r.val = n.val * 32 + b.val) :
    StableHlo.after hostOps2 V (Proc.devRef .tc main_v47) (ix2 r u) = V (Proc.devRef .tc main_v43_1) (ix2 n (colH b u)) :=
  Lay.rd (by after_results; rfl) n (colH b u) r u (by show n.val * 2048 + (b.val * 64 + u.val) = r.val * 64 + u.val; omega)

theorem host3_v49 (n : Fin 1024) (b : Fin 32) (u : Fin 64) (r : Fin 32768) (hr : r.val = n.val * 32 + b.val) :
    StableHlo.after hostOps3 V (Proc.devRef .tc main_v49) (ix2 n (colH b u)) = V (Proc.devRef .tc main_v48_0) (ix2 r u) :=
  Lay.rd (by after_results; rfl) r u n (colH b u) (by show r.val * 64 + u.val = n.val * 2048 + (b.val * 64 + u.val); omega)

theorem host5_v52 (n : Fin 1024) (b : Fin 32) (cc : Fin 2) (r : Fin 32768) (hr : r.val = n.val * 32 + b.val) :
    StableHlo.after hostOps5 V (Proc.devRef .tc main_v52) (ix2 r cc) = V (Proc.devRef .tc main_v42_0) (ix2 n (colX b cc)) :=
  Lay.rd (by after_results; rfl) n (colX b cc) r cc (by show n.val * 64 + (b.val * 2 + cc.val) = r.val * 2 + cc.val; omega)

theorem host5_v53 (n : Fin 1024) (b : Fin 32) (cc : Fin 2) (r : Fin 32768) (hr : r.val = n.val * 32 + b.val) :
    StableHlo.after hostOps5 V (Proc.devRef .tc main_v53) (ix2 r cc) = V (Proc.devRef .tc main_v43_0) (ix2 n (colX b cc)) :=
  Lay.rd (by after_results; rfl) n (colX b cc) r cc (by show n.val * 64 + (b.val * 2 + cc.val) = r.val * 2 + cc.val; omega)

theorem host5_v54 (n : Fin 1024) (b : Fin 32) (u : Fin 64) (r : Fin 32768) (hr : r.val = n.val * 32 + b.val) :
    StableHlo.after hostOps5 V (Proc.devRef .tc main_v54) (ix2 r u) = V (Proc.devRef .tc main_v50) (ix2 n (colH b u)) :=
  Lay.rd (by after_results; rfl) n (colH b u) r u (by show n.val * 2048 + (b.val * 64 + u.val) = r.val * 64 + u.val; omega)

theorem host5_v55 (n : Fin 1024) (b : Fin 32) (u : Fin 64) (r : Fin 32768) (hr : r.val = n.val * 32 + b.val) :
    StableHlo.after hostOps5 V (Proc.devRef .tc main_v55) (ix2 r u) = V (Proc.devRef .tc main_v51) (ix2 n (colH b u)) :=
  Lay.rd (by after_results; rfl) n (colH b u) r u (by show n.val * 2048 + (b.val * 64 + u.val) = r.val * 64 + u.val; omega)

end Cert.KernelIdeal.KLayer0

end
-- ==== Proof.KInputs.lean ====
import proofs.«150681_g19885698580639_cont_8to1_2033_3_alg».proof.Proof.Gen.KernelIdeal.Frame
import proofs.«150681_g19885698580639_cont_8to1_2033_3_alg».proof.Proof.Sem
import proofs.«150681_g19885698580639_cont_8to1_2033_3_alg».proof.Proof.ArrSem
import proofs.«150681_g19885698580639_cont_8to1_2033_3_alg».proof.Proof.LibRelayout
import proofs.«150681_g19885698580639_cont_8to1_2033_3_alg».proof.Proof.KLayer0a
import Idealize.ShloMosaic.Lib.ValueIdx
import Idealize.ShloMosaic.Lib.ValueLayout

noncomputable section

namespace Cert.KernelIdeal.KInputs

open Cert.KernelIdeal Cert.KernelIdeal.Gen
open Idealize.ShloMosaic Idealize.ShloMosaic.TcCoe Idealize.ShloMosaic.ValueIdx Idealize.SL.Sem
open Cert.ArrSem (row)

variable (m : (ℓ : Loc nD τ sig) → Buf (Elt Ideal) ℓ) (ρ : Dev nD → PrngReg)

theorem adj_v0 (c : Dev nD) (n k : Fin 1024) : V1 m ρ c main_v0 (ix2 n k) = Cert.Sem.adj (m ((c : Thread nD τ).loc main_arg1)) n k := by
  unfold V1 W1
  after_results_simp <;> rfl

theorem x_v4 (c : Dev nD) (n : Fin 1024) (b : Fin 32) (cc : Fin 2) :
    V1 m ρ c main_v4 (ix2 (row n b) cc) = Cert.Sem.feat (m ((c : Thread nD τ).loc main_arg0)) b n cc := by
  unfold V1 W1
  after_results_simp
  refine (truncf_apply (ψ := .bf16) _ bitsLt_bf16_f32 _).trans ?_
  exact Cert.LibRelayout.node_major2 _ _ _ _ n b cc
theorem x_v40 (c : Dev nD) (n : Fin 1024) (b : Fin 32) (cc : Fin 2) :
    V1 m ρ c main_v40 (ix2 n ⟨b.val * 2 + cc.val, by have := b.isLt; have := cc.isLt; omega⟩) = Cert.Sem.feat (m ((c : Thread nD τ).loc main_arg0)) b n cc := by
  unfold V1 W1
  after_results_simp
  refine (Cert.LibRelayout.cols_of_rows2 _ _ n b cc).trans ?_
  refine (truncf_apply (ψ := .bf16) _ bitsLt_bf16_f32 _).trans ?_
  exact Cert.LibRelayout.node_major2 _ _ _ _ n b cc

-- Row (n, b) of the node-major state, slab g of the stacked states, is the state of batch b at node n.
theorem hread (g : Fin 2) (A : FVec Ideal S2x32x65536 .f32) (hs) (h1) (h2) (ht) (h3) (n : Fin 1024) (b : Fin 32) (u : Fin 64) :
    shapeCast S32768x64 (transpose S1024x32x64 [1, 0, 2] (shapeCast S32x1024x64 (shapeCast S32x65536
      (extractStridedSlice S1x32x65536 ![g.val, 0, 0] A hs) h1) h2) ht) h3 (ix2 (row n b) u) = Cert.Sem.state A g b n u := by
  refine (Cert.LibRelayout.node_major64 _ _ _ _ n b u).trans ?_
  refine (shapeCast_1ab_ab_apply _ _ b _).trans ?_
  exact Cert.KernelIdeal.Lay.slab0 g.val A _ 0 b _ g rfl

theorem h_v9 (c : Dev nD) (n : Fin 1024) (b : Fin 32) (u : Fin 64) :
    V1 m ρ c main_v9 (ix2 (row n b) u) = Cert.Sem.state (m ((c : Thread nD τ).loc main_arg2)) 0 b n u := by
  unfold V1 W1
  after_results_simp
  exact hread 0 _ _ _ _ _ _ n b u
theorem h_v39 (c : Dev nD) (n : Fin 1024) (b : Fin 32) (u : Fin 64) :
    V1 m ρ c main_v39 (ix2 (row n b) u) = Cert.Sem.state (m ((c : Thread nD τ).loc main_arg2)) 0 b n u := by
  unfold V1 W1
  after_results_simp
  exact (truncf_apply (ψ := .bf16) _ bitsLt_bf16_f32 _).trans (hread 0 _ _ _ _ _ _ n b u)
theorem h_v41 (c : Dev nD) (n : Fin 1024) (b : Fin 32) (u : Fin 64) :
    V1 m ρ c main_v41 (ix2 n ⟨b.val * 64 + u.val, by have := b.isLt; have := u.isLt; omega⟩) = Cert.Sem.state (m ((c : Thread nD τ).loc main_arg2)) 0 b n u := by
  unfold V1 W1
  after_results_simp
  refine (Cert.LibRelayout.cols_of_rows64 _ _ n b u).trans ?_
  exact (truncf_apply (ψ := .bf16) _ bitsLt_bf16_f32 _).trans (hread 0 _ _ _ _ _ _ n b u)
theorem h_v14 (c : Dev nD) (n : Fin 1024) (b : Fin 32) (u : Fin 64) :
    V1 m ρ c main_v14 (ix2 (row n b) u) = Cert.Sem.state (m ((c : Thread nD τ).loc main_arg2)) 1 b n u := by
  unfold V1 W1
  after_results_simp
  exact hread 1 _ _ _ _ _ _ n b u

-- The slice at offset s on axis 1 of the order-major re-laid weights, at (k, j, o), is row (s + j) * 3 + k, column o of the weight matrix.
theorem wread {P R J O : ℕ} (s : ℕ) (A : FVec Ideal ⟨2, ![P, O]⟩ .f32) (hc) (ht) (hs) (k : Fin 3) (j : Fin J) (o : Fin O)
    (r : Fin R) (hr : r.val = s + j.val) (hi : r.val * 3 + k.val < P) :
    extractStridedSlice ⟨3, ![3, J, O]⟩ ![0, s, 0] (truncf .bf16 (transpose ⟨3, ![3, R, O]⟩ [1, 0, 2]
      (shapeCast ⟨3, ![R, 3, O]⟩ A hc) ht) bitsLt_bf16_f32) hs (ix3 k j o) = A (ix2 ⟨r.val * 3 + k.val, hi⟩ o) := by
  refine (slice3_axis1_apply s _ _ k j o r hr).trans ?_
  refine (truncf_apply (ψ := .bf16) _ bitsLt_bf16_f32 _).trans ?_
  refine (Cert.KernelIdeal.Lay.swap01 _ _ k r o).trans ?_
  exact Cert.KernelIdeal.Lay.reshape23 A _ _ o r k o rfl

theorem wg0x (c : Dev nD) (k : Fin 3) (cc : Fin 2) (o : Fin 128) :
    V1 m ρ c main_v18 (ix3 k cc o) = Cert.Sem.wmat (m ((c : Thread nD τ).loc main_arg3)) ⟨cc.val * 3 + k.val, by have := cc.isLt; have := k.isLt; omega⟩ o := by
  unfold V1 W1
  after_results_simp
  exact wread 0 _ _ _ _ k cc o (⟨cc.val, by have := cc.isLt; omega⟩ : Fin 66) (Nat.zero_add _).symm _
theorem wg0h (c : Dev nD) (k : Fin 3) (u : Fin 64) (o : Fin 128) :
    V1 m ρ c main_v19 (ix3 k u o) = Cert.Sem.wmat (m ((c : Thread nD τ).loc main_arg3)) ⟨(2 + u.val) * 3 + k.val, by have := u.isLt; have := k.isLt; omega⟩ o := by
  unfold V1 W1
  after_results_simp
  exact wread 2 _ _ _ _ k u o (⟨2 + u.val, by have := u.isLt; omega⟩ : Fin 66) rfl _

theorem wc0x (c : Dev nD) (k : Fin 3) (cc : Fin 2) (o : Fin 64) :
    V1 m ρ c main_v23 (ix3 k cc o) = Cert.Sem.wmat (m ((c : Thread nD τ).loc main_arg5)) ⟨cc.val * 3 + k.val, by have := cc.isLt; have := k.isLt; omega⟩ o := by
  unfold V1 W1
  after_results_simp
  exact wread 0 _ _ _ _ k cc o (⟨cc.val, by have := cc.isLt; omega⟩ : Fin 66) (Nat.zero_add _).symm _
theorem wc0h (c : Dev nD) (k : Fin 3) (u : Fin 64) (o : Fin 64) :
    V1 m ρ c main_v24 (ix3 k u o) = Cert.Sem.wmat (m ((c : Thread nD τ).loc main_arg5)) ⟨(2 + u.val) * 3 + k.val, by have := u.isLt; have := k.isLt; omega⟩ o := by
  unfold V1 W1
  after_results_simp
  exact wread 2 _ _ _ _ k u o (⟨2 + u.val, by have := u.isLt; omega⟩ : Fin 66) rfl _

theorem wg1x (c : Dev nD) (k : Fin 3) (cc : Fin 64) (o : Fin 128) :
    V1 m ρ c main_v28 (ix3 k cc o) = Cert.Sem.wmat (m ((c : Thread nD τ).loc main_arg7)) ⟨cc.val * 3 + k.val, by have := cc.isLt; have := k.isLt; omega⟩ o := by
  unfold V1 W1
  after_results_simp
  exact wread 0 _ _ _ _ k cc o (⟨cc.val, by have := cc.isLt; omega⟩ : Fin 128) (Nat.zero_add _).symm _
theorem wg1h (c : Dev nD) (k : Fin 3) (u : Fin 64) (o : Fin 128) :
    V1 m ρ c main_v29 (ix3 k u o) = Cert.Sem.wmat (m ((c : Thread nD τ).loc main_arg7)) ⟨(64 + u.val) * 3 + k.val, by have := u.isLt; have := k.isLt; omega⟩ o := by
  unfold V1 W1
  after_results_simp
  exact wread 64 _ _ _ _ k u o (⟨64 + u.val, by have := u.isLt; omega⟩ : Fin 128) rfl _

theorem wc1x (c : Dev nD) (k : Fin 3) (cc : Fin 64) (o : Fin 64) :
    V1 m ρ c main_v33 (ix3 k cc o) = Cert.Sem.wmat (m ((c : Thread nD τ).loc main_arg9)) ⟨cc.val * 3 + k.val, by have := cc.isLt; have := k.isLt; omega⟩ o := by
  unfold V1 W1
  after_results_simp
  exact wread 0 _ _ _ _ k cc o (⟨cc.val, by have := cc.isLt; omega⟩ : Fin 128) (Nat.zero_add _).symm _
theorem wc1h (c : Dev nD) (k : Fin 3) (u : Fin 64) (o : Fin 64) :
    V1 m ρ c main_v34 (ix3 k u o) = Cert.Sem.wmat (m ((c : Thread nD τ).loc main_arg9)) ⟨(64 + u.val) * 3 + k.val, by have := u.isLt; have := k.isLt; omega⟩ o := by
  unfold V1 W1
  after_results_simp
  exact wread 64 _ _ _ _ k u o (⟨64 + u.val, by have := u.isLt; omega⟩ : Fin 128) rfl _

theorem b_v35 (c : Dev nD) (o : Fin 128) : V1 m ρ c main_v35 (ix2 0 o) = Cert.Sem.bvec (m ((c : Thread nD τ).loc main_arg4)) o := by
  unfold V1 W1
  after_results_simp
  exact shapeCast_a_1a_apply _ _ 0 o
theorem b_v36 (c : Dev nD) (o : Fin 64) : V1 m ρ c main_v36 (ix2 0 o) = Cert.Sem.bvec (m ((c : Thread nD τ).loc main_arg6)) o := by
  unfold V1 W1
  after_results_simp
  exact shapeCast_a_1a_apply _ _ 0 o
theorem b_v37 (c : Dev nD) (o : Fin 128) : V1 m ρ c main_v37 (ix2 0 o) = Cert.Sem.bvec (m ((c : Thread nD τ).loc main_arg8)) o := by
  unfold V1 W1
  after_results_simp
  exact shapeCast_a_1a_apply _ _ 0 o
theorem b_v38 (c : Dev nD) (o : Fin 64) : V1 m ρ c main_v38 (ix2 0 o) = Cert.Sem.bvec (m ((c : Thread nD τ).loc main_arg10)) o := by
  unfold V1 W1
  after_results_simp
  exact shapeCast_a_1a_apply _ _ 0 o

end Cert.KernelIdeal.KInputs

end
-- ==== Proof.KWalk.lean ====
import proofs.«150681_g19885698580639_cont_8to1_2033_3_alg».proof.Proof.Gen.KernelIdeal.Frame

noncomputable section

namespace Cert.KernelIdeal.KWalk

open Cert.KernelIdeal Cert.KernelIdeal.Gen
open Idealize.ShloMosaic Idealize.ShloMosaic.TcCoe Idealize.SL.Sem

variable {F : FTy → Type} [FloatOps F]

/-- An operation whose one result is in the list writes only listed references. -/
theorem sub_of_mem {L : List (Ref sig .tc)} {y : Ref sig .tc} (h : y ∈ L) :
    ({Proc.devRef .tc y} : Finset (DevRef τ sig)) ⊆ (L.map (Proc.devRef .tc)).toFinset :=
  Finset.singleton_subset_iff.mpr (List.mem_toFinset.mpr (List.mem_map.mpr ⟨y, h, rfl⟩))

variable (m : (ℓ : Loc nD τ sig) → Buf (Elt F) ℓ) (ρ : Dev nD → PrngReg)

/-- A host stretch keeps every buffer that is not among its results (likewise `h3` to `h11`). -/
theorem h2 (c : Dev nD) (b : Ref sig .tc) (hb : b ∉ [main_v44, main_v45, main_v46, main_v47]) :
    W4 m ρ c (Proc.devRef .tc b) = W3 m ρ c (Proc.devRef .tc b) :=
  StableHlo.after_of_writes_sub hostOps2 _ ⟨sub_of_mem (by decide), sub_of_mem (by decide), sub_of_mem (by decide), sub_of_mem (by decide)⟩ hb
theorem h3 (c : Dev nD) (b : Ref sig .tc) (hb : b ∉ [main_v49]) :
    W6 m ρ c (Proc.devRef .tc b) = W5 m ρ c (Proc.devRef .tc b) :=
  StableHlo.after_of_writes_sub hostOps3 _ (sub_of_mem (by decide)) hb
theorem h5 (c : Dev nD) (b : Ref sig .tc) (hb : b ∉ [main_v52, main_v53, main_v54, main_v55]) :
    W9 m ρ c (Proc.devRef .tc b) = W8 m ρ c (Proc.devRef .tc b) :=
  StableHlo.after_of_writes_sub hostOps5 _ ⟨sub_of_mem (by decide), sub_of_mem (by decide), sub_of_mem (by decide), sub_of_mem (by decide)⟩ hb
theorem h6 (c : Dev nD) (b : Ref sig .tc) (hb : b ∉ [main_v57, main_v58, main_v59]) :
    W11 m ρ c (Proc.devRef .tc b) = W10 m ρ c (Proc.devRef .tc b) :=
  StableHlo.after_of_writes_sub hostOps6 _ ⟨sub_of_mem (by decide), sub_of_mem (by decide), sub_of_mem (by decide)⟩ hb
theorem h8 (c : Dev nD) (b : Ref sig .tc) (hb : b ∉ [main_v62, main_v63, main_v64, main_v65]) :
    W14 m ρ c (Proc.devRef .tc b) = W13 m ρ c (Proc.devRef .tc b) :=
  StableHlo.after_of_writes_sub hostOps8 _ ⟨sub_of_mem (by decide), sub_of_mem (by decide), sub_of_mem (by decide), sub_of_mem (by decide)⟩ hb
theorem h9 (c : Dev nD) (b : Ref sig .tc) (hb : b ∉ [main_v67]) :
    W16 m ρ c (Proc.devRef .tc b) = W15 m ρ c (Proc.devRef .tc b) :=
  StableHlo.after_of_writes_sub hostOps9 _ (sub_of_mem (by decide)) hb
theorem h11 (c : Dev nD) (b : Ref sig .tc) (hb : b ∉ [main_v70, main_v71, main_v72, main_v73]) :
    W19 m ρ c (Proc.devRef .tc b) = W18 m ρ c (Proc.devRef .tc b) :=
  StableHlo.after_of_writes_sub hostOps11 _ ⟨sub_of_mem (by decide), sub_of_mem (by decide), sub_of_mem (by decide), sub_of_mem (by decide)⟩ hb

/-- A region leaves the array of an input window as entered (likewise `in1` to `in10`). -/
theorem in0 (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw cfg0.N).trans (A_eq0 (V1 m ρ) c w))
theorem in1 (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw cfg1.N).trans (A_eq1 (V2 m ρ) c w))
theorem in2 (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hw cfg2.N).trans (A_eq2 (V4 m ρ) c w))
theorem in3 (c : Dev nD) (w : Fin cfg3.W) (hw : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hw cfg3.N).trans (A_eq3 (V6 m ρ) c w))
theorem in4 (c : Dev nD) (w : Fin cfg4.W) (hw : (cfg4.win w).isOut = false) :
    W8 m ρ c (Proc.devRef .tc (Pipeline.arrRef spec4 w)) = W7 m ρ c (Proc.devRef .tc (Pipeline.arrRef spec4 w)) :=
  (W8_arr m ρ c w).trans (((dat4 (V7 m ρ) c).arrAt_in w hw cfg4.N).trans (A_eq4 (V7 m ρ) c w))
theorem in6 (c : Dev nD) (w : Fin cfg6.W) (hw : (cfg6.win w).isOut = false) :
    W12 m ρ c (Proc.devRef .tc (Pipeline.arrRef spec6 w)) = W11 m ρ c (Proc.devRef .tc (Pipeline.arrRef spec6 w)) :=
  (W12_arr m ρ c w).trans (((dat6 (V11 m ρ) c).arrAt_in w hw cfg6.N).trans (A_eq6 (V11 m ρ) c w))
theorem in7 (c : Dev nD) (w : Fin cfg7.W) (hw : (cfg7.win w).isOut = false) :
    W13 m ρ c (Proc.devRef .tc (Pipeline.arrRef spec7 w)) = W12 m ρ c (Proc.devRef .tc (Pipeline.arrRef spec7 w)) :=
  (W13_arr m ρ c w).trans (((dat7 (V12 m ρ) c).arrAt_in w hw cfg7.N).trans (A_eq7 (V12 m ρ) c w))
theorem in8 (c : Dev nD) (w : Fin cfg8.W) (hw : (cfg8.win w).isOut = false) :
    W15 m ρ c (Proc.devRef .tc (Pipeline.arrRef spec8 w)) = W14 m ρ c (Proc.devRef .tc (Pipeline.arrRef spec8 w)) :=
  (W15_arr m ρ c w).trans (((dat8 (V14 m ρ) c).arrAt_in w hw cfg8.N).trans (A_eq8 (V14 m ρ) c w))
theorem in9 (c : Dev nD) (w : Fin cfg9.W) (hw : (cfg9.win w).isOut = false) :
    W17 m ρ c (Proc.devRef .tc (Pipeline.arrRef spec9 w)) = W16 m ρ c (Proc.devRef .tc (Pipeline.arrRef spec9 w)) :=
  (W17_arr m ρ c w).trans (((dat9 (V16 m ρ) c).arrAt_in w hw cfg9.N).trans (A_eq9 (V16 m ρ) c w))
theorem in10 (c : Dev nD) (w : Fin cfg10.W) (hw : (cfg10.win w).isOut = false) :
    W18 m ρ c (Proc.devRef .tc (Pipeline.arrRef spec10 w)) = W17 m ρ c (Proc.devRef .tc (Pipeline.arrRef spec10 w)) :=
  (W18_arr m ρ c w).trans (((dat10 (V17 m ρ) c).arrAt_in w hw cfg10.N).trans (A_eq10 (V17 m ρ) c w))

/-- No region up to the first gate region has b as a window's array and no host stretch up to there writes it
    (`U9`, `U14`, `U19`: the same up to the later gate and candidate regions). -/
abbrev U4 (b : Ref sig .tc) : Prop :=
  (∀ w, Pipeline.arrRef spec0 w ≠ b) ∧ (∀ w, Pipeline.arrRef spec1 w ≠ b) ∧ b ∉ [main_v44, main_v45, main_v46, main_v47]
/-- Such a buffer holds at that region's entry what it held after the opening host operations. -/
theorem k4 (c : Dev nD) (b : Ref sig .tc) : U4 b → W4 m ρ c (Proc.devRef .tc b) = W1 m ρ c (Proc.devRef .tc b)
  | ⟨p1, p2, p3⟩ => (h2 m ρ c b p3).trans ((W3_of_ne m ρ c b p2).trans (W2_of_ne m ρ c b p1))
abbrev U9 (b : Ref sig .tc) : Prop :=
  U4 b ∧ (∀ w, Pipeline.arrRef spec2 w ≠ b) ∧ b ∉ [main_v49] ∧ (∀ w, Pipeline.arrRef spec3 w ≠ b) ∧ (∀ w, Pipeline.arrRef spec4 w ≠ b) ∧ b ∉ [main_v52, main_v53, main_v54, main_v55]
theorem k9 (c : Dev nD) (b : Ref sig .tc) : U9 b → W9 m ρ c (Proc.devRef .tc b) = W1 m ρ c (Proc.devRef .tc b)
  | ⟨p0, p4, p5, p6, p7, p8⟩ => (h5 m ρ c b p8).trans ((W8_of_ne m ρ c b p7).trans ((W7_of_ne m ρ c b p6).trans ((h3 m ρ c b p5).trans ((W5_of_ne m ρ c b p4).trans (k4 m ρ c b p0)))))
abbrev U14 (b : Ref sig .tc) : Prop :=
  U9 b ∧ (∀ w, Pipeline.arrRef spec5 w ≠ b) ∧ b ∉ [main_v57, main_v58, main_v59] ∧ (∀ w, Pipeline.arrRef spec6 w ≠ b) ∧ (∀ w, Pipeline.arrRef spec7 w ≠ b) ∧ b ∉ [main_v62, main_v63, main_v64, main_v65]
theorem k14 (c : Dev nD) (b : Ref sig .tc) : U14 b → W14 m ρ c (Proc.devRef .tc b) = W1 m ρ c (Proc.devRef .tc b)
  | ⟨p0, p9, p10, p11, p12, p13⟩ => (h8 m ρ c b p13).trans ((W13_of_ne m ρ c b p12).trans ((W12_of_ne m ρ c b p11).trans ((h6 m ρ c b p10).trans ((W10_of_ne m ρ c b p9).trans (k9 m ρ c b p0)))))
abbrev U19 (b : Ref sig .tc) : Prop :=
  U14 b ∧ (∀ w, Pipeline.arrRef spec8 w ≠ b) ∧ b ∉ [main_v67] ∧ (∀ w, Pipeline.arrRef spec9 w ≠ b) ∧ (∀ w, Pipeline.arrRef spec10 w ≠ b) ∧ b ∉ [main_v70, main_v71, main_v72, main_v73]
theorem k19 (c : Dev nD) (b : Ref sig .tc) : U19 b → W19 m ρ c (Proc.devRef .tc b) = W1 m ρ c (Proc.devRef .tc b)
  | ⟨p0, p14, p15, p16, p17, p18⟩ => (h11 m ρ c b p18).trans ((W18_of_ne m ρ c b p17).trans ((W17_of_ne m ρ c b p16).trans ((h9 m ρ c b p15).trans ((W15_of_ne m ρ c b p14).trans (k14 m ρ c b p0)))))

theorem v0_at2 (c : Dev nD) : W2 m ρ c (Proc.devRef .tc main_v0) = W1 m ρ c (Proc.devRef .tc main_v0) :=
  in0 m ρ c 0 rfl
theorem v0_at6 (c : Dev nD) : W6 m ρ c (Proc.devRef .tc main_v0) = W1 m ρ c (Proc.devRef .tc main_v0) :=
  (h3 m ρ c main_v0 (by decide)).trans ((W5_of_ne m ρ c main_v0 (by decide)).trans ((h2 m ρ c main_v0 (by decide)).trans ((in1 m ρ c 0 rfl).trans (v0_at2 m ρ c))))
theorem v0_at7 (c : Dev nD) : W7 m ρ c (Proc.devRef .tc main_v0) = W1 m ρ c (Proc.devRef .tc main_v0) :=
  (in3 m ρ c 0 rfl).trans (v0_at6 m ρ c)
theorem v0_at11 (c : Dev nD) : W11 m ρ c (Proc.devRef .tc main_v0) = W1 m ρ c (Proc.devRef .tc main_v0) :=
  (h6 m ρ c main_v0 (by decide)).trans ((W10_of_ne m ρ c main_v0 (by decide)).trans ((h5 m ρ c main_v0 (by decide)).trans ((in4 m ρ c 0 rfl).trans (v0_at7 m ρ c))))
theorem v0_at12 (c : Dev nD) : W12 m ρ c (Proc.devRef .tc main_v0) = W1 m ρ c (Proc.devRef .tc main_v0) :=
  (in6 m ρ c 0 rfl).trans (v0_at11 m ρ c)
theorem v0_at16 (c : Dev nD) : W16 m ρ c (Proc.devRef .tc main_v0) = W1 m ρ c (Proc.devRef .tc main_v0) :=
  (h9 m ρ c main_v0 (by decide)).trans ((W15_of_ne m ρ c main_v0 (by decide)).trans ((h8 m ρ c main_v0 (by decide)).trans ((in7 m ρ c 0 rfl).trans (v0_at12 m ρ c))))
theorem v0_at17 (c : Dev nD) : W17 m ρ c (Proc.devRef .tc main_v0) = W1 m ρ c (Proc.devRef .tc main_v0) :=
  (in9 m ρ c 0 rfl).trans (v0_at16 m ρ c)
theorem v40_at2 (c : Dev nD) : W2 m ρ c (Proc.devRef .tc main_v40) = W1 m ρ c (Proc.devRef .tc main_v40) :=
  in0 m ρ c 1 rfl
theorem v41_at2 (c : Dev nD) : W2 m ρ c (Proc.devRef .tc main_v41) = W1 m ρ c (Proc.devRef .tc main_v41) :=
  in0 m ρ c 2 rfl
theorem v42_0_at3 (c : Dev nD) : W3 m ρ c (Proc.devRef .tc main_v42_0) = W2 m ρ c (Proc.devRef .tc main_v42_0) :=
  in1 m ρ c 2 rfl
theorem v42_0_at8 (c : Dev nD) : W8 m ρ c (Proc.devRef .tc main_v42_0) = W2 m ρ c (Proc.devRef .tc main_v42_0) :=
  (W8_of_ne m ρ c main_v42_0 (by decide)).trans ((W7_of_ne m ρ c main_v42_0 (by decide)).trans ((h3 m ρ c main_v42_0 (by decide)).trans ((W5_of_ne m ρ c main_v42_0 (by decide)).trans ((h2 m ρ c main_v42_0 (by decide)).trans (v42_0_at3 m ρ c)))))
theorem v42_1_at3 (c : Dev nD) : W3 m ρ c (Proc.devRef .tc main_v42_1) = W2 m ρ c (Proc.devRef .tc main_v42_1) :=
  in1 m ρ c 4 rfl
theorem v43_0_at8 (c : Dev nD) : W8 m ρ c (Proc.devRef .tc main_v43_0) = W3 m ρ c (Proc.devRef .tc main_v43_0) :=
  (W8_of_ne m ρ c main_v43_0 (by decide)).trans ((W7_of_ne m ρ c main_v43_0 (by decide)).trans ((h3 m ρ c main_v43_0 (by decide)).trans ((W5_of_ne m ρ c main_v43_0 (by decide)).trans (h2 m ρ c main_v43_0 (by decide)))))
theorem v4_at4 (c : Dev nD) : W4 m ρ c (Proc.devRef .tc main_v4) = W1 m ρ c (Proc.devRef .tc main_v4) :=
  k4 m ρ c main_v4 (by decide)
theorem v4_at9 (c : Dev nD) : W9 m ρ c (Proc.devRef .tc main_v4) = W1 m ρ c (Proc.devRef .tc main_v4) :=
  (h5 m ρ c main_v4 (by decide)).trans ((W8_of_ne m ρ c main_v4 (by decide)).trans ((W7_of_ne m ρ c main_v4 (by decide)).trans ((h3 m ρ c main_v4 (by decide)).trans ((in2 m ρ c 0 rfl).trans (v4_at4 m ρ c)))))
theorem v9_at4 (c : Dev nD) : W4 m ρ c (Proc.devRef .tc main_v9) = W1 m ρ c (Proc.devRef .tc main_v9) :=
  k4 m ρ c main_v9 (by decide)
theorem v9_at9 (c : Dev nD) : W9 m ρ c (Proc.devRef .tc main_v9) = W1 m ρ c (Proc.devRef .tc main_v9) :=
  (h5 m ρ c main_v9 (by decide)).trans ((W8_of_ne m ρ c main_v9 (by decide)).trans ((W7_of_ne m ρ c main_v9 (by decide)).trans ((h3 m ρ c main_v9 (by decide)).trans ((in2 m ρ c 6 rfl).trans (v9_at4 m ρ c)))))
theorem v39_at4 (c : Dev nD) : W4 m ρ c (Proc.devRef .tc main_v39) = W1 m ρ c (Proc.devRef .tc main_v39) :=
  k4 m ρ c main_v39 (by decide)
theorem v18_at4 (c : Dev nD) : W4 m ρ c (Proc.devRef .tc main_v18) = W1 m ρ c (Proc.devRef .tc main_v18) :=
  k4 m ρ c main_v18 (by decide)
theorem v19_at4 (c : Dev nD) : W4 m ρ c (Proc.devRef .tc main_v19) = W1 m ρ c (Proc.devRef .tc main_v19) :=
  k4 m ρ c main_v19 (by decide)
theorem v35_at4 (c : Dev nD) : W4 m ρ c (Proc.devRef .tc main_v35) = W1 m ρ c (Proc.devRef .tc main_v35) :=
  k4 m ρ c main_v35 (by decide)
theorem v23_at9 (c : Dev nD) : W9 m ρ c (Proc.devRef .tc main_v23) = W1 m ρ c (Proc.devRef .tc main_v23) :=
  k9 m ρ c main_v23 (by decide)
theorem v24_at9 (c : Dev nD) : W9 m ρ c (Proc.devRef .tc main_v24) = W1 m ρ c (Proc.devRef .tc main_v24) :=
  k9 m ρ c main_v24 (by decide)
theorem v36_at9 (c : Dev nD) : W9 m ρ c (Proc.devRef .tc main_v36) = W1 m ρ c (Proc.devRef .tc main_v36) :=
  k9 m ρ c main_v36 (by decide)
theorem v48_0_at9 (c : Dev nD) : W9 m ρ c (Proc.devRef .tc main_v48_0) = W5 m ρ c (Proc.devRef .tc main_v48_0) :=
  (h5 m ρ c main_v48_0 (by decide)).trans ((W8_of_ne m ρ c main_v48_0 (by decide)).trans ((W7_of_ne m ρ c main_v48_0 (by decide)).trans (h3 m ρ c main_v48_0 (by decide))))
theorem v48_1_at9 (c : Dev nD) : W9 m ρ c (Proc.devRef .tc main_v48_1) = W5 m ρ c (Proc.devRef .tc main_v48_1) :=
  (h5 m ρ c main_v48_1 (by decide)).trans ((W8_of_ne m ρ c main_v48_1 (by decide)).trans ((W7_of_ne m ρ c main_v48_1 (by decide)).trans (h3 m ρ c main_v48_1 (by decide))))
theorem v49_at7 (c : Dev nD) : W7 m ρ c (Proc.devRef .tc main_v49) = W6 m ρ c (Proc.devRef .tc main_v49) :=
  in3 m ρ c 1 rfl
theorem v50_at8 (c : Dev nD) : W8 m ρ c (Proc.devRef .tc main_v50) = W7 m ρ c (Proc.devRef .tc main_v50) :=
  in4 m ρ c 2 rfl
theorem v56_0_at20 (c : Dev nD) : W20 m ρ c (Proc.devRef .tc main_v56_0) = W10 m ρ c (Proc.devRef .tc main_v56_0) :=
  (W20_of_ne m ρ c main_v56_0 (by decide)).trans ((h11 m ρ c main_v56_0 (by decide)).trans ((W18_of_ne m ρ c main_v56_0 (by decide)).trans ((W17_of_ne m ρ c main_v56_0 (by decide)).trans ((h9 m ρ c main_v56_0 (by decide)).trans ((W15_of_ne m ρ c main_v56_0 (by decide)).trans ((h8 m ρ c main_v56_0 (by decide)).trans ((W13_of_ne m ρ c main_v56_0 (by decide)).trans ((W12_of_ne m ρ c main_v56_0 (by decide)).trans (h6 m ρ c main_v56_0 (by decide))))))))))
theorem v56_1_at14 (c : Dev nD) : W14 m ρ c (Proc.devRef .tc main_v56_1) = W10 m ρ c (Proc.devRef .tc main_v56_1) :=
  (h8 m ρ c main_v56_1 (by decide)).trans ((W13_of_ne m ρ c main_v56_1 (by decide)).trans ((W12_of_ne m ρ c main_v56_1 (by decide)).trans (h6 m ρ c main_v56_1 (by decide))))
theorem v56_1_at19 (c : Dev nD) : W19 m ρ c (Proc.devRef .tc main_v56_1) = W10 m ρ c (Proc.devRef .tc main_v56_1) :=
  (h11 m ρ c main_v56_1 (by decide)).trans ((W18_of_ne m ρ c main_v56_1 (by decide)).trans ((W17_of_ne m ρ c main_v56_1 (by decide)).trans ((h9 m ρ c main_v56_1 (by decide)).trans ((in8 m ρ c 0 rfl).trans (v56_1_at14 m ρ c)))))
theorem v14_at10 (c : Dev nD) : W10 m ρ c (Proc.devRef .tc main_v14) = W1 m ρ c (Proc.devRef .tc main_v14) :=
  (W10_of_ne m ρ c main_v14 (by decide)).trans (k9 m ρ c main_v14 (by decide))
theorem v14_at14 (c : Dev nD) : W14 m ρ c (Proc.devRef .tc main_v14) = W1 m ρ c (Proc.devRef .tc main_v14) :=
  k14 m ρ c main_v14 (by decide)
theorem v14_at19 (c : Dev nD) : W19 m ρ c (Proc.devRef .tc main_v14) = W1 m ρ c (Proc.devRef .tc main_v14) :=
  (h11 m ρ c main_v14 (by decide)).trans ((W18_of_ne m ρ c main_v14 (by decide)).trans ((W17_of_ne m ρ c main_v14 (by decide)).trans ((h9 m ρ c main_v14 (by decide)).trans ((in8 m ρ c 6 rfl).trans (v14_at14 m ρ c)))))
theorem v57_at14 (c : Dev nD) : W14 m ρ c (Proc.devRef .tc main_v57) = W11 m ρ c (Proc.devRef .tc main_v57) :=
  (h8 m ρ c main_v57 (by decide)).trans ((W13_of_ne m ρ c main_v57 (by decide)).trans (W12_of_ne m ρ c main_v57 (by decide)))
theorem v58_at12 (c : Dev nD) : W12 m ρ c (Proc.devRef .tc main_v58) = W11 m ρ c (Proc.devRef .tc main_v58) :=
  in6 m ρ c 1 rfl
theorem v59_at12 (c : Dev nD) : W12 m ρ c (Proc.devRef .tc main_v59) = W11 m ρ c (Proc.devRef .tc main_v59) :=
  in6 m ρ c 2 rfl
theorem v60_0_at13 (c : Dev nD) : W13 m ρ c (Proc.devRef .tc main_v60_0) = W12 m ρ c (Proc.devRef .tc main_v60_0) :=
  in7 m ρ c 2 rfl
theorem v60_0_at18 (c : Dev nD) : W18 m ρ c (Proc.devRef .tc main_v60_0) = W12 m ρ c (Proc.devRef .tc main_v60_0) :=
  (W18_of_ne m ρ c main_v60_0 (by decide)).trans ((W17_of_ne m ρ c main_v60_0 (by decide)).trans ((h9 m ρ c main_v60_0 (by decide)).trans ((W15_of_ne m ρ c main_v60_0 (by decide)).trans ((h8 m ρ c main_v60_0 (by decide)).trans (v60_0_at13 m ρ c)))))
theorem v60_1_at13 (c : Dev nD) : W13 m ρ c (Proc.devRef .tc main_v60_1) = W12 m ρ c (Proc.devRef .tc main_v60_1) :=
  in7 m ρ c 4 rfl
theorem v61_0_at18 (c : Dev nD) : W18 m ρ c (Proc.devRef .tc main_v61_0) = W13 m ρ c (Proc.devRef .tc main_v61_0) :=
  (W18_of_ne m ρ c main_v61_0 (by decide)).trans ((W17_of_ne m ρ c main_v61_0 (by decide)).trans ((h9 m ρ c main_v61_0 (by decide)).trans ((W15_of_ne m ρ c main_v61_0 (by decide)).trans (h8 m ρ c main_v61_0 (by decide)))))
theorem v28_at14 (c : Dev nD) : W14 m ρ c (Proc.devRef .tc main_v28) = W1 m ρ c (Proc.devRef .tc main_v28) :=
  k14 m ρ c main_v28 (by decide)
theorem v29_at14 (c : Dev nD) : W14 m ρ c (Proc.devRef .tc main_v29) = W1 m ρ c (Proc.devRef .tc main_v29) :=
  k14 m ρ c main_v29 (by decide)
theorem v37_at14 (c : Dev nD) : W14 m ρ c (Proc.devRef .tc main_v37) = W1 m ρ c (Proc.devRef .tc main_v37) :=
  k14 m ρ c main_v37 (by decide)
theorem v33_at19 (c : Dev nD) : W19 m ρ c (Proc.devRef .tc main_v33) = W1 m ρ c (Proc.devRef .tc main_v33) :=
  k19 m ρ c main_v33 (by decide)
theorem v34_at19 (c : Dev nD) : W19 m ρ c (Proc.devRef .tc main_v34) = W1 m ρ c (Proc.devRef .tc main_v34) :=
  k19 m ρ c main_v34 (by decide)
theorem v38_at19 (c : Dev nD) : W19 m ρ c (Proc.devRef .tc main_v38) = W1 m ρ c (Proc.devRef .tc main_v38) :=
  k19 m ρ c main_v38 (by decide)
theorem v66_0_at19 (c : Dev nD) : W19 m ρ c (Proc.devRef .tc main_v66_0) = W15 m ρ c (Proc.devRef .tc main_v66_0) :=
  (h11 m ρ c main_v66_0 (by decide)).trans ((W18_of_ne m ρ c main_v66_0 (by decide)).trans ((W17_of_ne m ρ c main_v66_0 (by decide)).trans (h9 m ρ c main_v66_0 (by decide))))
theorem v66_1_at19 (c : Dev nD) : W19 m ρ c (Proc.devRef .tc main_v66_1) = W15 m ρ c (Proc.devRef .tc main_v66_1) :=
  (h11 m ρ c main_v66_1 (by decide)).trans ((W18_of_ne m ρ c main_v66_1 (by decide)).trans ((W17_of_ne m ρ c main_v66_1 (by decide)).trans (h9 m ρ c main_v66_1 (by decide))))
theorem v67_at17 (c : Dev nD) : W17 m ρ c (Proc.devRef .tc main_v67) = W16 m ρ c (Proc.devRef .tc main_v67) :=
  in9 m ρ c 1 rfl
theorem v68_at18 (c : Dev nD) : W18 m ρ c (Proc.devRef .tc main_v68) = W17 m ρ c (Proc.devRef .tc main_v68) :=
  in10 m ρ c 2 rfl

end Cert.KernelIdeal.KWalk

end
-- ==== Proof.KLayer0.lean ====
import proofs.«150681_g19885698580639_cont_8to1_2033_3_alg».proof.Proof.Gen.KernelIdeal.Frame
import proofs.«150681_g19885698580639_cont_8to1_2033_3_alg».proof.Proof.RegD1
import proofs.«150681_g19885698580639_cont_8to1_2033_3_alg».proof.Proof.RegD2
import proofs.«150681_g19885698580639_cont_8to1_2033_3_alg».proof.Proof.RegGate
import proofs.«150681_g19885698580639_cont_8to1_2033_3_alg».proof.Proof.RegCand
import proofs.«150681_g19885698580639_cont_8to1_2033_3_alg».proof.Proof.Sem
import proofs.«150681_g19885698580639_cont_8to1_2033_3_alg».proof.Proof.ArrSem
import proofs.«150681_g19885698580639_cont_8to1_2033_3_alg».proof.Proof.KInputs
import proofs.«150681_g19885698580639_cont_8to1_2033_3_alg».proof.Proof.KWalk
import proofs.«150681_g19885698580639_cont_8to1_2033_3_alg».proof.Proof.KLayer0a
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.KLayer0

open Cert.KernelIdeal Cert.KernelIdeal.Gen
open Idealize.ShloMosaic Idealize.ShloMosaic.TcCoe Idealize.ShloMosaic.ValueIdx Idealize.SL.Sem
open Cert.ArrSem (row)
open scoped BigOperators

variable (m : (ℓ : Loc nD τ sig) → Buf (Elt Ideal) ℓ) (ρ : Dev nD → PrngReg)

abbrev L0 (c : Dev nD) : Fin 32 → Fin 1024 → Fin 64 → EReal :=
  Cert.Sem.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

abbrev A (c : Dev nD) : Fin 1024 → Fin 1024 → EReal := Cert.Sem.adj (m ((c : Thread nD τ).loc main_arg1))
abbrev X (c : Dev nD) : Fin 32 → Fin 1024 → Fin 2 → EReal := Cert.Sem.feat (m ((c : Thread nD τ).loc main_arg0))
abbrev H (c : Dev nD) : Fin 32 → Fin 1024 → Fin 64 → EReal := Cert.Sem.state (m ((c : Thread nD τ).loc main_arg2)) 0
abbrev Wg (c : Dev nD) : Fin ((2 + 64) * 3) → Fin 128 → EReal := Cert.Sem.wmat (m ((c : Thread nD τ).loc main_arg3))
abbrev bg (c : Dev nD) : Fin 128 → EReal := Cert.Sem.bvec (m ((c : Thread nD τ).loc main_arg4))
abbrev Wc (c : Dev nD) : Fin ((2 + 64) * 3) → Fin 64 → EReal := Cert.Sem.wmat (m ((c : Thread nD τ).loc main_arg5))
abbrev bc (c : Dev nD) : Fin 64 → EReal := Cert.Sem.bvec (m ((c : Thread nD τ).loc main_arg6))

abbrev RH (c : Dev nD) : Fin 32 → Fin 1024 → Fin 64 → EReal :=
  fun b n u => Cert.Sem.reset (A m c) (X m c) (H m c) (Wg m c) (bg m c) b n u * H m c b n u

-- An array equal to the adjacency array has the adjacency's entries.
theorem adj_of (c : Dev nD) {W : S1024x1024.Idx → EReal} (e : W = V1 m ρ c main_v0) (n k : Fin 1024) : W (ix2 n k) = A m c n k :=
  e ▸ KInputs.adj_v0 m ρ c n k

theorem x1_nodes (c : Dev nD) (n : Fin 1024) (b : Fin 32) (cc : Fin 2) :
    V2 m ρ c main_v42_0 (ix2 n (colX b cc)) = Cert.Sem.d1 (A m c) (fun k => X m c b k cc) n := by
  refine (congrFun ((W2_arr m ρ c 3).trans (RegD1.r0_out3 (V1 m ρ) c)) _).trans ?_
  rw [Cert.ArrSem.mm_sem (A m c) _ _ (KInputs.adj_v0 m ρ c) n (colX b cc)]
  exact congrArg (fun f => Cert.Sem.d1 (A m c) f n) (funext fun k => KInputs.x_v40 m ρ c k b cc)

theorem h1_nodes (c : Dev nD) (n : Fin 1024) (b : Fin 32) (u : Fin 64) :
    V2 m ρ c main_v42_1 (ix2 n (colH b u)) = Cert.Sem.d1 (A m c) (fun k => H m c b k u) n := by
  refine (congrFun ((W2_arr m ρ c 4).trans (RegD1.r0_out4 (V1 m ρ) c)) _).trans ?_
  rw [Cert.ArrSem.mm_sem (A m c) _ _ (KInputs.adj_v0 m ρ c) n (colH b u)]
  exact congrArg (fun f => Cert.Sem.d1 (A m c) f n) (funext fun k => KInputs.h_v41 m ρ c k b u)

theorem x2_nodes (c : Dev nD) (n : Fin 1024) (b : Fin 32) (cc : Fin 2) :
    V3 m ρ c main_v43_0 (ix2 n (colX b cc)) = Cert.Sem.d2 (A m c) (fun k => X m c b k cc) n :=
  (congrFun ((W3_arr m ρ c 5).trans (RegD2.r1_out5 (V2 m ρ) c)) _).trans <| Cert.ArrSem.cheb2_sem (A m c) _ _ _ (adj_of m ρ c (KWalk.v0_at2 m ρ c)) (colX b cc) (fun k => X m c b k cc)
    (fun k => (congrFun (KWalk.v40_at2 m ρ c) _).trans (KInputs.x_v40 m ρ c k b cc)) (fun k => x1_nodes m ρ c k b cc) n

theorem h2_nodes (c : Dev nD) (n : Fin 1024) (b : Fin 32) (u : Fin 64) :
    V3 m ρ c main_v43_1 (ix2 n (colH b u)) = Cert.Sem.d2 (A m c) (fun k => H m c b k u) n :=
  (congrFun ((W3_arr m ρ c 6).trans (RegD2.r1_out6 (V2 m ρ) c)) _).trans <| Cert.ArrSem.cheb2_sem (A m c) _ _ _ (adj_of m ρ c (KWalk.v0_at2 m ρ c)) (colH b u) (fun k => H m c b k u)
    (fun k => (congrFun (KWalk.v41_at2 m ρ c) _).trans (KInputs.h_v41 m ρ c k b u)) (fun k => h1_nodes m ρ c k b u) n

theorem x1_rows (c : Dev nD) (n : Fin 1024) (b : Fin 32) (cc : Fin 2) :
    V4 m ρ c main_v44 (ix2 (row n b) cc) = Cert.Sem.d1 (A m c) (fun k => X m c b k cc) n :=
  (host2_v44 (W3 m ρ c) n b cc (row n b) rfl).trans ((congrFun (KWalk.v42_0_at3 m ρ c) _).trans (x1_nodes m ρ c n b cc))

theorem x2_rows (c : Dev nD) (n : Fin 1024) (b : Fin 32) (cc : Fin 2) :
    V4 m ρ c main_v45 (ix2 (row n b) cc) = Cert.Sem.d2 (A m c) (fun k => X m c b k cc) n :=
  (host2_v45 (W3 m ρ c) n b cc (row n b) rfl).trans (x2_nodes m ρ c n b cc)

theorem h1_rows (c : Dev nD) (n : Fin 1024) (b : Fin 32) (u : Fin 64) :
    V4 m ρ c main_v46 (ix2 (row n b) u) = Cert.Sem.d1 (A m c) (fun k => H m c b k u) n :=
  (host2_v46 (W3 m ρ c) n b u (row n b) rfl).trans ((congrFun (KWalk.v42_1_at3 m ρ c) _).trans (h1_nodes m ρ c n b u))

theorem h2_rows (c : Dev nD) (n : Fin 1024) (b : Fin 32) (u : Fin 64) :
    V4 m ρ c main_v47 (ix2 (row n b) u) = Cert.Sem.d2 (A m c) (fun k => H m c b k u) n :=
  (host2_v47 (W3 m ρ c) n b u (row n b) rfl).trans (h2_nodes m ρ c n b u)

theorem gates (c : Dev nD) (n : Fin 1024) (b : Fin 32) (u : Fin 64) :
    V5 m ρ c main_v48_0 (ix2 (row n b) u) = RH m c b n u
    ∧ V5 m ρ c main_v48_1 (ix2 (row n b) u) = Cert.Sem.update (A m c) (X m c) (H m c) (Wg m c) (bg m c) b n u := by
  have g := Cert.ArrSem.gate_sem (cin := 2) (A m c) (X m c) (H m c) (Wg m c) (bg m c) _ _ _ _ _ _ _ _ _ _
    (fun n b cc => (congrFun (KWalk.v4_at4 m ρ c) _).trans (KInputs.x_v4 m ρ c n b cc)) (x1_rows m ρ c) (x2_rows m ρ c)
    (fun n b u => (congrFun (KWalk.v39_at4 m ρ c) _).trans (KInputs.h_v39 m ρ c n b u)) (h1_rows m ρ c) (h2_rows m ρ c)
    (fun n b u => (congrFun (KWalk.v9_at4 m ρ c) _).trans (KInputs.h_v9 m ρ c n b u))
    (fun k cc o => (congrFun (KWalk.v18_at4 m ρ c) _).trans (KInputs.wg0x m ρ c k cc o))
    (fun k u o => (congrFun (KWalk.v19_at4 m ρ c) _).trans (KInputs.wg0h m ρ c k u o))
    (fun o => (congrFun (KWalk.v35_at4 m ρ c) _).trans (KInputs.b_v35 m ρ c o)) n b u
  exact ⟨(congrFun ((W5_arr m ρ c 10).trans (RegGate.r2_out10 (V4 m ρ) c)) _).trans g.1,
    (congrFun ((W5_arr m ρ c 11).trans (RegGate.r2_out11 (V4 m ρ) c)) _).trans g.2⟩

theorem s0_nodes (c : Dev nD) (n : Fin 1024) (b : Fin 32) (u : Fin 64) :
    V6 m ρ c main_v49 (ix2 n (colH b u)) = RH m c b n u :=
  (host3_v49 (W5 m ρ c) n b u (row n b) rfl).trans (gates m ρ c n b u).1

theorem s1_nodes (c : Dev nD) (n : Fin 1024) (b : Fin 32) (u : Fin 64) :
    V7 m ρ c main_v50 (ix2 n (colH b u)) = Cert.Sem.d1 (A m c) (fun k => RH m c b k u) n := by
  refine (congrFun ((W7_arr m ρ c 2).trans (RegD1.r3_out2 (V6 m ρ) c)) _).trans ?_
  rw [Cert.ArrSem.mm_sem (A m c) _ _ (adj_of m ρ c (KWalk.v0_at6 m ρ c)) n (colH b u)]
  exact congrArg (fun f => Cert.Sem.d1 (A m c) f n) (funext fun k => s0_nodes m ρ c k b u)

theorem s2_nodes (c : Dev nD) (n : Fin 1024) (b : Fin 32) (u : Fin 64) :
    V8 m ρ c main_v51 (ix2 n (colH b u)) = Cert.Sem.d2 (A m c) (fun k => RH m c b k u) n :=
  (congrFun ((W8_arr m ρ c 3).trans (RegD2.r4_out3 (V7 m ρ) c)) _).trans <| Cert.ArrSem.cheb2_sem (A m c) _ _ _ (adj_of m ρ c (KWalk.v0_at7 m ρ c)) (colH b u) (fun k => RH m c b k u)
    (fun k => (congrFun (KWalk.v49_at7 m ρ c) _).trans (s0_nodes m ρ c k b u)) (fun k => s1_nodes m ρ c k b u) n

theorem x1_rows9 (c : Dev nD) (n : Fin 1024) (b : Fin 32) (cc : Fin 2) :
    V9 m ρ c main_v52 (ix2 (row n b) cc) = Cert.Sem.d1 (A m c) (fun k => X m c b k cc) n :=
  (host5_v52 (W8 m ρ c) n b cc (row n b) rfl).trans ((congrFun (KWalk.v42_0_at8 m ρ c) _).trans (x1_nodes m ρ c n b cc))

theorem x2_rows9 (c : Dev nD) (n : Fin 1024) (b : Fin 32) (cc : Fin 2) :
    V9 m ρ c main_v53 (ix2 (row n b) cc) = Cert.Sem.d2 (A m c) (fun k => X m c b k cc) n :=
  (host5_v53 (W8 m ρ c) n b cc (row n b) rfl).trans ((congrFun (KWalk.v43_0_at8 m ρ c) _).trans (x2_nodes m ρ c n b cc))

theorem s1_rows (c : Dev nD) (n : Fin 1024) (b : Fin 32) (u : Fin 64) :
    V9 m ρ c main_v54 (ix2 (row n b) u) = Cert.Sem.d1 (A m c) (fun k => RH m c b k u) n :=
  (host5_v54 (W8 m ρ c) n b u (row n b) rfl).trans ((congrFun (KWalk.v50_at8 m ρ c) _).trans (s1_nodes m ρ c n b u))

theorem s2_rows (c : Dev nD) (n : Fin 1024) (b : Fin 32) (u : Fin 64) :
    V9 m ρ c main_v55 (ix2 (row n b) u) = Cert.Sem.d2 (A m c) (fun k => RH m c b k u) n :=
  (host5_v55 (W8 m ρ c) n b u (row n b) rfl).trans (s2_nodes m ρ c n b u)

theorem cand_rows (c : Dev nD) (n : Fin 1024) (b : Fin 32) (u : Fin 64) :
    Cert.Arr.cand (V9 m ρ c main_v4) (V9 m ρ c main_v52) (V9 m ρ c main_v53) (V9 m ρ c main_v48_0) (V9 m ρ c main_v54)
      (V9 m ρ c main_v55) (V9 m ρ c main_v48_1) (V9 m ρ c main_v9) (V9 m ρ c main_v23) (V9 m ρ c main_v24) (V9 m ρ c main_v36)
      (ix2 (row n b) u) = L0 m c b n u :=
  Cert.ArrSem.cand_sem (cin := 2) (A m c) (X m c) (H m c) (Wg m c) (bg m c) (Wc m c) (bc m c) _ _ _ _ _ _ _ _ _ _ _
    (fun n b cc => (congrFun (KWalk.v4_at9 m ρ c) _).trans (KInputs.x_v4 m ρ c n b cc)) (x1_rows9 m ρ c) (x2_rows9 m ρ c)
    (fun n b u => (congrFun (KWalk.v48_0_at9 m ρ c) _).trans ((gates m ρ c n b u).1)) (s1_rows m ρ c) (s2_rows m ρ c)
    (fun n b u => (congrFun (KWalk.v48_1_at9 m ρ c) _).trans ((gates m ρ c n b u).2))
    (fun n b u => (congrFun (KWalk.v9_at9 m ρ c) _).trans (KInputs.h_v9 m ρ c n b u))
    (fun k cc o => (congrFun (KWalk.v23_at9 m ρ c) _).trans (KInputs.wc0x m ρ c k cc o))
    (fun k u o => (congrFun (KWalk.v24_at9 m ρ c) _).trans (KInputs.wc0h m ρ c k u o))
    (fun o => (congrFun (KWalk.v36_at9 m ρ c) _).trans (KInputs.b_v36 m ρ c o)) n b u

theorem h0f (c : Dev nD) (i : S32768x64.Idx) (b : Fin 32) (n : Fin 1024) (u : Fin 64)
    (hr : (i 0).val = n.val * 32 + b.val) (hu : (i 1).val = u.val) :
    V10 m ρ c main_v56_0 i = L0 m c b n u :=
  (congrFun ((W10_arr m ρ c 11).trans (RegCand.r5_out11 (V9 m ρ) c)) i).trans
    (by rw [show i = ix2 (row n b) u from Shape.idx_ext₂ hr hu]; exact cand_rows m ρ c n b u)

theorem h0b (c : Dev nD) (i : S32768x64.Idx) (b : Fin 32) (n : Fin 1024) (u : Fin 64)
    (hr : (i 0).val = n.val * 32 + b.val) (hu : (i 1).val = u.val) :
    V10 m ρ c main_v56_1 i = L0 m c b n u :=
  (congrFun ((W10_arr m ρ c 12).trans (RegCand.r5_out12 (V9 m ρ) c)) i).trans
    (by rw [show i = ix2 (row n b) u from Shape.idx_ext₂ hr hu]; exact cand_rows m ρ c n b u)

end Cert.KernelIdeal.KLayer0

end
-- ==== Proof.KLayer1a.lean ====
import proofs.«150681_g19885698580639_cont_8to1_2033_3_alg».proof.Proof.Gen.KernelIdeal.Launch
import proofs.«150681_g19885698580639_cont_8to1_2033_3_alg».proof.Proof.ArrSem
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.KLayer1

open Cert.KernelIdeal Cert.KernelIdeal.Gen
open Idealize.ShloMosaic Idealize.ShloMosaic.TcCoe Idealize.ShloMosaic.ValueIdx Idealize.SL.Sem
open scoped BigOperators
open Cert.ArrSem (row)

section layout
variable {α : Type}

def col (b : Fin 32) (u : Fin 64) : Fin 2048 := ⟨b.val * 64 + u.val, by have := b.isLt; have := u.isLt; omega⟩

theorem cast_cols (x : (⟨2, ![32768, 64]⟩ : Shape).Idx → α)
    (h : (⟨2, ![32768, 64]⟩ : Shape).ShapeCasts ⟨2, ![1024, 2048]⟩) (n : Fin 1024) (b : Fin 32) (u : Fin 64) :
    shapeCast ⟨2, ![1024, 2048]⟩ x h (ix2 n (col b u)) = x (ix2 (row n b) u) :=
  shapeCast_apply x h _ _ (by
    rw [Shape.rowMajor_val_two, Shape.rowMajor_val_two]
    show (n.val * 32 + b.val) * 64 + u.val = n.val * 2048 + (b.val * 64 + u.val)
    omega)

theorem cast_rows (y : (⟨2, ![1024, 2048]⟩ : Shape).Idx → α)
    (h : (⟨2, ![1024, 2048]⟩ : Shape).ShapeCasts ⟨2, ![32768, 64]⟩) (n : Fin 1024) (b : Fin 32) (u : Fin 64) :
    shapeCast ⟨2, ![32768, 64]⟩ y h (ix2 (row n b) u) = y (ix2 n (col b u)) :=
  shapeCast_apply y h _ _ (by
    rw [Shape.rowMajor_val_two, Shape.rowMajor_val_two]
    show n.val * 2048 + (b.val * 64 + u.val) = (n.val * 32 + b.val) * 64 + u.val
    omega)

theorem batch_major (x : (⟨2, ![32768, 64]⟩ : Shape).Idx → α)
    (h1 : (⟨2, ![32768, 64]⟩ : Shape).ShapeCasts ⟨3, ![1024, 32, 64]⟩)
    (h2 : (⟨3, ![1024, 32, 64]⟩ : Shape).Transposes [1, 0, 2] ⟨3, ![32, 1024, 64]⟩)
    (h3 : (⟨3, ![32, 1024, 64]⟩ : Shape).ShapeCasts ⟨2, ![32, 65536]⟩)
    (i : (⟨2, ![32, 65536]⟩ : Shape).Idx) (b : Fin 32) (n : Fin 1024) (u : Fin 64)
    (hb : (i 0).val = b.val) (hq : (i 1).val = n.val * 64 + u.val) :
    shapeCast ⟨2, ![32, 65536]⟩ (transpose ⟨3, ![32, 1024, 64]⟩ [1, 0, 2] (shapeCast ⟨3, ![1024, 32, 64]⟩ x h1) h2) h3 i
      = x (ix2 (row n b) u) := by
  refine (shapeCast_apply _ h3 i (ix3 b n u) (by
    rw [Shape.rowMajor_val_three, Shape.rowMajor_val_two]
    show (b.val * 1024 + n.val) * 64 + u.val = (i 0).val * 65536 + (i 1).val
    omega)).trans ?_
  refine (transpose_apply _ _ h2 (ix3 b n u) (ix3 n b u)
    (fun a => match a with | ⟨0, _⟩ => rfl | ⟨1, _⟩ => rfl | ⟨2, _⟩ => rfl)).trans ?_
  exact shapeCast_apply x h1 _ _ (by
    rw [Shape.rowMajor_val_two, Shape.rowMajor_val_three]
    show (n.val * 32 + b.val) * 64 + u.val = (n.val * 32 + b.val) * 64 + u.val
    rfl)

end layout

abbrev RowsOf (Z : (⟨2, ![32768, 64]⟩ : Shape).Idx → EReal) (F : Fin 32 → Fin 1024 → Fin 64 → EReal) : Prop :=
  ∀ (n : Fin 1024) (b : Fin 32) (u : Fin 64), Z (ix2 (row n b) u) = F b n u
abbrev ColsOf (Y : (⟨2, ![1024, 2048]⟩ : Shape).Idx → EReal) (F : Fin 32 → Fin 1024 → Fin 64 → EReal) : Prop :=
  ∀ (n : Fin 1024) (b : Fin 32) (u : Fin 64), Y (ix2 n (col b u)) = F b n u

section host
variable (V : Valuation τ sig (Elt Ideal)) (F : Fin 32 → Fin 1024 → Fin 64 → EReal)

theorem h6_v57 (h : RowsOf (V (Proc.devRef .tc main_v14)) F) :
    RowsOf (StableHlo.after hostOps6 V (Proc.devRef .tc main_v57)) F := fun n b u => by
  refine Eq.trans ?_ (h n b u)
  after_results; rfl

theorem h6_v58 (h : RowsOf (V (Proc.devRef .tc main_v56_1)) F) :
    ColsOf (StableHlo.after hostOps6 V (Proc.devRef .tc main_v58)) F := fun n b u => by
  refine Eq.trans ?_ (h n b u)
  after_results
  exact cast_cols _ _ n b u

theorem h6_v59 (h : RowsOf (V (Proc.devRef .tc main_v14)) F) :
    ColsOf (StableHlo.after hostOps6 V (Proc.devRef .tc main_v59)) F := fun n b u => by
  refine Eq.trans ?_ (h n b u)
  after_results
  exact cast_cols _ _ n b u

end host

section sem
variable (A : Fin 1024 → Fin 1024 → EReal) (a : (⟨2, ![1024, 1024]⟩ : Shape).Idx → EReal)

theorem cols_mm (x : (⟨2, ![1024, 2048]⟩ : Shape).Idx → EReal) (F : Fin 32 → Fin 1024 → Fin 64 → EReal)
    (ha : ∀ n k, a (ix2 n k) = A n k) (hx : ColsOf x F) :
    ColsOf (Cert.Arr.mm a x) (fun b n u => Cert.Sem.d1 A (fun k => F b k u) n) := fun n b u =>
  (Cert.ArrSem.mm_sem A a x ha n (col b u)).trans (congrArg (fun f => Cert.Sem.d1 A f n) (funext fun k => hx k b u))

theorem cols_cheb2 (x0 x1 : (⟨2, ![1024, 2048]⟩ : Shape).Idx → EReal) (F : Fin 32 → Fin 1024 → Fin 64 → EReal)
    (ha : ∀ n k, a (ix2 n k) = A n k) (h0 : ColsOf x0 F)
    (h1 : ColsOf x1 (fun b n u => Cert.Sem.d1 A (fun k => F b k u) n)) :
    ColsOf (Cert.Arr.cheb2 a x0 x1) (fun b n u => Cert.Sem.d2 A (fun k => F b k u) n) := fun n b u =>
  Cert.ArrSem.cheb2_sem A a x0 x1 ha (col b u) (fun k => F b k u) (fun k => h0 k b u) (fun k => h1 k b u) n

end sem

section host2
variable (V : Valuation τ sig (Elt Ideal)) (F : Fin 32 → Fin 1024 → Fin 64 → EReal)

theorem h8_v62 (h : ColsOf (V (Proc.devRef .tc main_v60_0)) F) :
    RowsOf (StableHlo.after hostOps8 V (Proc.devRef .tc main_v62)) F := fun n b u => by
  refine Eq.trans ?_ (h n b u)
  after_results
  exact cast_rows _ _ n b u
theorem h8_v63 (h : ColsOf (V (Proc.devRef .tc main_v61_0)) F) :
    RowsOf (StableHlo.after hostOps8 V (Proc.devRef .tc main_v63)) F := fun n b u => by
  refine Eq.trans ?_ (h n b u)
  after_results
  exact cast_rows _ _ n b u
theorem h8_v64 (h : ColsOf (V (Proc.devRef .tc main_v60_1)) F) :
    RowsOf (StableHlo.after hostOps8 V (Proc.devRef .tc main_v64)) F := fun n b u => by
  refine Eq.trans ?_ (h n b u)
  after_results
  exact cast_rows _ _ n b u
theorem h8_v65 (h : ColsOf (V (Proc.devRef .tc main_v61_1)) F) :
    RowsOf (StableHlo.after hostOps8 V (Proc.devRef .tc main_v65)) F := fun n b u => by
  refine Eq.trans ?_ (h n b u)
  after_results
  exact cast_rows _ _ n b u

theorem h9_v67 (h : RowsOf (V (Proc.devRef .tc main_v66_0)) F) :
    ColsOf (StableHlo.after hostOps9 V (Proc.devRef .tc main_v67)) F := fun n b u => by
  refine Eq.trans ?_ (h n b u)
  after_results
  exact cast_cols _ _ n b u

theorem h11_v70 (h : ColsOf (V (Proc.devRef .tc main_v60_0)) F) :
    RowsOf (StableHlo.after hostOps11 V (Proc.devRef .tc main_v70)) F := fun n b u => by
  refine Eq.trans ?_ (h n b u)
  after_results
  exact cast_rows _ _ n b u
theorem h11_v71 (h : ColsOf (V (Proc.devRef .tc main_v61_0)) F) :
    RowsOf (StableHlo.after hostOps11 V (Proc.devRef .tc main_v71)) F := fun n b u => by
  refine Eq.trans ?_ (h n b u)
  after_results
  exact cast_rows _ _ n b u
theorem h11_v72 (h : ColsOf (V (Proc.devRef .tc main_v68)) F) :
    RowsOf (StableHlo.after hostOps11 V (Proc.devRef .tc main_v72)) F := fun n b u => by
  refine Eq.trans ?_ (h n b u)
  after_results
  exact cast_rows _ _ n b u
theorem h11_v73 (h : ColsOf (V (Proc.devRef .tc main_v69)) F) :
    RowsOf (StableHlo.after hostOps11 V (Proc.devRef .tc main_v73)) F := fun n b u => by
  refine Eq.trans ?_ (h n b u)
  after_results
  exact cast_rows _ _ n b u

theorem h12_v80 (h : RowsOf (V (Proc.devRef .tc main_v74_0)) F) (i : S32x65536.Idx) (b : Fin 32) (n : Fin 1024) (u : Fin 64)
    (hb : (i 0).val = b.val) (hq : (i 1).val = n.val * 64 + u.val) :
    StableHlo.after hostOps12 V (Proc.devRef .tc main_v80) i = F b n u := by
  refine Eq.trans ?_ (h n b u)
  after_results
  exact batch_major _ _ _ _ i b n u hb hq

theorem h12_v77 (h : RowsOf (V (Proc.devRef .tc main_v56_0)) F) (i : S32x65536.Idx) (b : Fin 32) (n : Fin 1024) (u : Fin 64)
    (hb : (i 0).val = b.val) (hq : (i 1).val = n.val * 64 + u.val) :
    StableHlo.after hostOps12 V (Proc.devRef .tc main_v77) i = F b n u := by
  refine Eq.trans ?_ (h n b u)
  after_results
  exact batch_major _ _ _ _ i b n u hb hq

end host2

section host3
variable (V : Valuation τ sig (Elt Ideal)) (F0 F1 : Fin 32 → Fin 1024 → Fin 64 → EReal)

theorem h12_v83 (h0 : RowsOf (V (Proc.devRef .tc main_v56_0)) F0) (h1 : RowsOf (V (Proc.devRef .tc main_v74_0)) F1)
    (i : S2x32x65536.Idx) (l : Fin 2) (b : Fin 32) (n : Fin 1024) (u : Fin 64)
    (hl : (i 0).val = l.val) (hb : (i 1).val = b.val) (hq : (i 2).val = n.val * 64 + u.val) :
    StableHlo.after hostOps12 V (Proc.devRef .tc main_v83) i = if l.val = 0 then F0 b n u else F1 b n u := by
  have hq' : n.val * 64 + u.val < 65536 := by have := n.isLt; have := u.isLt; omega
  after_results
  by_cases h : l.val = 0
  · rw [if_pos h]
    refine (concatenate_pair_apply_left (t := S2x32x65536) (s₁ := S1x32x65536) (s₂ := S1x32x65536) 0 _ _ _ i rfl
      (ix3 (0 : Fin 1) b ⟨n.val * 64 + u.val, hq'⟩) (fun a => match a with
        | ⟨0, _⟩ => by show 0 = (i 0).val; omega
        | ⟨1, _⟩ => by show b.val = (i 1).val; omega
        | ⟨2, _⟩ => by show n.val * 64 + u.val = (i 2).val; omega)).trans ?_
    refine (broadcastInDim_apply (s := S32x65536) (t := S1x32x65536) _ _ _ _ (ix2 b ⟨n.val * 64 + u.val, hq'⟩) (fun a => match a with
        | ⟨0, _⟩ => rfl
        | ⟨1, _⟩ => rfl)).trans ?_
    refine Eq.trans ?_ (h0 n b u)
    exact batch_major _ _ _ _ _ b n u rfl rfl
  · rw [if_neg h]
    have hl1 : l.val = 1 := by have := l.isLt; omega
    refine (concatenate_pair_apply_right (t := S2x32x65536) (s₁ := S1x32x65536) (s₂ := S1x32x65536) 0 _ _ _ i rfl rfl
      (ix3 (0 : Fin 1) b ⟨n.val * 64 + u.val, hq'⟩) (fun a => match a with
        | ⟨0, _⟩ => fun hne => (hne rfl).elim
        | ⟨1, _⟩ => fun _ => by show b.val = (i 1).val; omega
        | ⟨2, _⟩ => fun _ => by show n.val * 64 + u.val = (i 2).val; omega)
      (by show 0 + 1 = (i 0).val; omega)).trans ?_
    refine (broadcastInDim_apply (s := S32x65536) (t := S1x32x65536) _ _ _ _ (ix2 b ⟨n.val * 64 + u.val, hq'⟩) (fun a => match a with
        | ⟨0, _⟩ => rfl
        | ⟨1, _⟩ => rfl)).trans ?_
    refine Eq.trans ?_ (h1 n b u)
    exact batch_major _ _ _ _ _ b n u rfl rfl

end host3

end Cert.KernelIdeal.KLayer1

end
-- ==== Proof.KLayer1.lean ====
import proofs.«150681_g19885698580639_cont_8to1_2033_3_alg».proof.Proof.Gen.KernelIdeal.Frame
import proofs.«150681_g19885698580639_cont_8to1_2033_3_alg».proof.Proof.RegD1
import proofs.«150681_g19885698580639_cont_8to1_2033_3_alg».proof.Proof.RegD2
import proofs.«150681_g19885698580639_cont_8to1_2033_3_alg».proof.Proof.RegGate
import proofs.«150681_g19885698580639_cont_8to1_2033_3_alg».proof.Proof.RegCand
import proofs.«150681_g19885698580639_cont_8to1_2033_3_alg».proof.Proof.Sem
import proofs.«150681_g19885698580639_cont_8to1_2033_3_alg».proof.Proof.ArrSem
import proofs.«150681_g19885698580639_cont_8to1_2033_3_alg».proof.Proof.KLayer0
import proofs.«150681_g19885698580639_cont_8to1_2033_3_alg».proof.Proof.KInputs
import proofs.«150681_g19885698580639_cont_8to1_2033_3_alg».proof.Proof.KWalk
import proofs.«150681_g19885698580639_cont_8to1_2033_3_alg».proof.Proof.KLayer1a
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.KLayer1

open Cert.KernelIdeal Cert.KernelIdeal.Gen
open Idealize.ShloMosaic Idealize.ShloMosaic.TcCoe Idealize.ShloMosaic.ValueIdx Idealize.SL.Sem
open scoped BigOperators
open Cert.ArrSem (row)

variable (m : (ℓ : Loc nD τ sig) → Buf (Elt Ideal) ℓ) (ρ : Dev nD → PrngReg)

abbrev L0 (c : Dev nD) : Fin 32 → Fin 1024 → Fin 64 → EReal :=
  Cert.Sem.layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
abbrev L1 (c : Dev nD) : Fin 32 → Fin 1024 → Fin 64 → EReal :=
  Cert.Sem.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

abbrev Adj (c : Dev nD) : Fin 1024 → Fin 1024 → EReal := Cert.Sem.adj (m ((c : Thread nD τ).loc main_arg1))
abbrev H1 (c : Dev nD) : Fin 32 → Fin 1024 → Fin 64 → EReal := Cert.Sem.state (m ((c : Thread nD τ).loc main_arg2)) 1
abbrev Wg (c : Dev nD) : Fin ((64 + 64) * 3) → Fin 128 → EReal := Cert.Sem.wmat (m ((c : Thread nD τ).loc main_arg7))
abbrev Bg (c : Dev nD) : Fin 128 → EReal := Cert.Sem.bvec (m ((c : Thread nD τ).loc main_arg8))
abbrev Wc (c : Dev nD) : Fin ((64 + 64) * 3) → Fin 64 → EReal := Cert.Sem.wmat (m ((c : Thread nD τ).loc main_arg9))
abbrev Bc (c : Dev nD) : Fin 64 → EReal := Cert.Sem.bvec (m ((c : Thread nD τ).loc main_arg10))
abbrev RS (c : Dev nD) : Fin 32 → Fin 1024 → Fin 64 → EReal :=
  fun b n u => Cert.Sem.reset (Adj m c) (L0 m c) (H1 m c) (Wg m c) (Bg m c) b n u * H1 m c b n u
abbrev UG (c : Dev nD) : Fin 32 → Fin 1024 → Fin 64 → EReal :=
  fun b n u => Cert.Sem.update (Adj m c) (L0 m c) (H1 m c) (Wg m c) (Bg m c) b n u
abbrev D1 (c : Dev nD) (F : Fin 32 → Fin 1024 → Fin 64 → EReal) : Fin 32 → Fin 1024 → Fin 64 → EReal :=
  fun b n u => Cert.Sem.d1 (Adj m c) (fun k => F b k u) n
abbrev D2 (c : Dev nD) (F : Fin 32 → Fin 1024 → Fin 64 → EReal) : Fin 32 → Fin 1024 → Fin 64 → EReal :=
  fun b n u => Cert.Sem.d2 (Adj m c) (fun k => F b k u) n

-- An array equal to the adjacency array has the adjacency's entries.
theorem adj_of (c : Dev nD) {W : S1024x1024.Idx → EReal} (e : W = V1 m ρ c main_v0) (n k : Fin 1024) : W (ix2 n k) = Adj m c n k :=
  e ▸ KInputs.adj_v0 m ρ c n k

theorem x10 (c : Dev nD) : RowsOf (V10 m ρ c main_v56_1) (L0 m c) := fun n b u =>
  KLayer0.h0b m ρ c (ix2 (row n b) u) b n u rfl rfl
theorem hf10 (c : Dev nD) : RowsOf (V10 m ρ c main_v14) (H1 m c) := fun n b u =>
  (congrFun (KWalk.v14_at10 m ρ c) _).trans (KInputs.h_v14 m ρ c n b u)

theorem h57_11 (c : Dev nD) : RowsOf (V11 m ρ c main_v57) (H1 m c) := h6_v57 (W10 m ρ c) _ (hf10 m ρ c)
theorem x58_11 (c : Dev nD) : ColsOf (V11 m ρ c main_v58) (L0 m c) := h6_v58 (W10 m ρ c) _ (x10 m ρ c)
theorem h59_11 (c : Dev nD) : ColsOf (V11 m ρ c main_v59) (H1 m c) := h6_v59 (W10 m ρ c) _ (hf10 m ρ c)

theorem x60_12 (c : Dev nD) : ColsOf (V12 m ρ c main_v60_0) (D1 m c (L0 m c)) := fun n b u =>
  (congrFun ((W12_arr m ρ c 3).trans (RegD1.r6_out3 (V11 m ρ) c)) _).trans (cols_mm (Adj m c) _ _ (L0 m c) (adj_of m ρ c (KWalk.v0_at11 m ρ c)) (x58_11 m ρ c) n b u)
theorem h60_12 (c : Dev nD) : ColsOf (V12 m ρ c main_v60_1) (D1 m c (H1 m c)) := fun n b u =>
  (congrFun ((W12_arr m ρ c 4).trans (RegD1.r6_out4 (V11 m ρ) c)) _).trans (cols_mm (Adj m c) _ _ (H1 m c) (adj_of m ρ c (KWalk.v0_at11 m ρ c)) (h59_11 m ρ c) n b u)

theorem x61_13 (c : Dev nD) : ColsOf (V13 m ρ c main_v61_0) (D2 m c (L0 m c)) := fun n b u =>
  (congrFun ((W13_arr m ρ c 5).trans (RegD2.r7_out5 (V12 m ρ) c)) _).trans
    (cols_cheb2 (Adj m c) _ _ _ (L0 m c) (adj_of m ρ c (KWalk.v0_at12 m ρ c))
      (fun n b u => (congrFun (KWalk.v58_at12 m ρ c) _).trans (x58_11 m ρ c n b u)) (x60_12 m ρ c) n b u)
theorem h61_13 (c : Dev nD) : ColsOf (V13 m ρ c main_v61_1) (D2 m c (H1 m c)) := fun n b u =>
  (congrFun ((W13_arr m ρ c 6).trans (RegD2.r7_out6 (V12 m ρ) c)) _).trans
    (cols_cheb2 (Adj m c) _ _ _ (H1 m c) (adj_of m ρ c (KWalk.v0_at12 m ρ c))
      (fun n b u => (congrFun (KWalk.v59_at12 m ρ c) _).trans (h59_11 m ρ c n b u)) (h60_12 m ρ c) n b u)

theorem x62_14 (c : Dev nD) : RowsOf (V14 m ρ c main_v62) (D1 m c (L0 m c)) :=
  h8_v62 (W13 m ρ c) _ (fun n b u => (congrFun (KWalk.v60_0_at13 m ρ c) _).trans (x60_12 m ρ c n b u))
theorem x63_14 (c : Dev nD) : RowsOf (V14 m ρ c main_v63) (D2 m c (L0 m c)) := h8_v63 (W13 m ρ c) _ (x61_13 m ρ c)
theorem h64_14 (c : Dev nD) : RowsOf (V14 m ρ c main_v64) (D1 m c (H1 m c)) :=
  h8_v64 (W13 m ρ c) _ (fun n b u => (congrFun (KWalk.v60_1_at13 m ρ c) _).trans (h60_12 m ρ c n b u))
theorem h65_14 (c : Dev nD) : RowsOf (V14 m ρ c main_v65) (D2 m c (H1 m c)) := h8_v65 (W13 m ρ c) _ (h61_13 m ρ c)
theorem wgx14 (c : Dev nD) (k : Fin 3) (cc : Fin 64) (o : Fin 128) :
    V14 m ρ c main_v28 (ix3 k cc o) = Wg m c ⟨cc.val * 3 + k.val, by have := cc.isLt; have := k.isLt; omega⟩ o :=
  (congrFun (KWalk.v28_at14 m ρ c) _).trans (KInputs.wg1x m ρ c k cc o)
theorem wgh14 (c : Dev nD) (k : Fin 3) (u : Fin 64) (o : Fin 128) :
    V14 m ρ c main_v29 (ix3 k u o) = Wg m c ⟨(64 + u.val) * 3 + k.val, by have := u.isLt; have := k.isLt; omega⟩ o :=
  (congrFun (KWalk.v29_at14 m ρ c) _).trans (KInputs.wg1h m ρ c k u o)
theorem bg14 (c : Dev nD) (o : Fin 128) : V14 m ρ c main_v37 (ix2 0 o) = Bg m c o :=
  (congrFun (KWalk.v37_at14 m ρ c) _).trans (KInputs.b_v37 m ρ c o)

theorem gate15 (c : Dev nD) (n : Fin 1024) (b : Fin 32) (u : Fin 64) :
    V15 m ρ c main_v66_0 (ix2 (row n b) u) = RS m c b n u ∧ V15 m ρ c main_v66_1 (ix2 (row n b) u) = UG m c b n u := by
  have g := Cert.ArrSem.gate_sem (cin := 64) (Adj m c) (L0 m c) (H1 m c) (Wg m c) (Bg m c) _ _ _ _ _ _ _ _ _ _
    (fun n b u => (congrFun (KWalk.v56_1_at14 m ρ c) _).trans (x10 m ρ c n b u)) (x62_14 m ρ c) (x63_14 m ρ c)
      (fun n b u => (congrFun (KWalk.v57_at14 m ρ c) _).trans (h57_11 m ρ c n b u)) (h64_14 m ρ c) (h65_14 m ρ c)
      (fun n b u => (congrFun (KWalk.v14_at14 m ρ c) _).trans (KInputs.h_v14 m ρ c n b u))
    (wgx14 m ρ c) (wgh14 m ρ c) (bg14 m ρ c) n b u
  exact ⟨(congrFun ((W15_arr m ρ c 10).trans (RegGate.r8_out10 (V14 m ρ) c)) _).trans g.1,
    (congrFun ((W15_arr m ρ c 11).trans (RegGate.r8_out11 (V14 m ρ) c)) _).trans g.2⟩
theorem s66_15 (c : Dev nD) : RowsOf (V15 m ρ c main_v66_0) (RS m c) := fun n b u => (gate15 m ρ c n b u).1
theorem u66_15 (c : Dev nD) : RowsOf (V15 m ρ c main_v66_1) (UG m c) := fun n b u => (gate15 m ρ c n b u).2

theorem s67_16 (c : Dev nD) : ColsOf (V16 m ρ c main_v67) (RS m c) := h9_v67 (W15 m ρ c) _ (s66_15 m ρ c)
theorem s68_17 (c : Dev nD) : ColsOf (V17 m ρ c main_v68) (D1 m c (RS m c)) := fun n b u =>
  (congrFun ((W17_arr m ρ c 2).trans (RegD1.r9_out2 (V16 m ρ) c)) _).trans (cols_mm (Adj m c) _ _ (RS m c) (adj_of m ρ c (KWalk.v0_at16 m ρ c)) (s67_16 m ρ c) n b u)
theorem s69_18 (c : Dev nD) : ColsOf (V18 m ρ c main_v69) (D2 m c (RS m c)) := fun n b u =>
  (congrFun ((W18_arr m ρ c 3).trans (RegD2.r10_out3 (V17 m ρ) c)) _).trans
    (cols_cheb2 (Adj m c) _ _ _ (RS m c) (adj_of m ρ c (KWalk.v0_at17 m ρ c))
      (fun n b u => (congrFun (KWalk.v67_at17 m ρ c) _).trans (s67_16 m ρ c n b u)) (s68_17 m ρ c) n b u)

theorem x70_19 (c : Dev nD) : RowsOf (V19 m ρ c main_v70) (D1 m c (L0 m c)) :=
  h11_v70 (W18 m ρ c) _ (fun n b u => (congrFun (KWalk.v60_0_at18 m ρ c) _).trans (x60_12 m ρ c n b u))
theorem x71_19 (c : Dev nD) : RowsOf (V19 m ρ c main_v71) (D2 m c (L0 m c)) :=
  h11_v71 (W18 m ρ c) _ (fun n b u => (congrFun (KWalk.v61_0_at18 m ρ c) _).trans (x61_13 m ρ c n b u))
theorem s72_19 (c : Dev nD) : RowsOf (V19 m ρ c main_v72) (D1 m c (RS m c)) :=
  h11_v72 (W18 m ρ c) _ (fun n b u => (congrFun (KWalk.v68_at18 m ρ c) _).trans (s68_17 m ρ c n b u))
theorem s73_19 (c : Dev nD) : RowsOf (V19 m ρ c main_v73) (D2 m c (RS m c)) := h11_v73 (W18 m ρ c) _ (s69_18 m ρ c)
theorem wcx19 (c : Dev nD) (k : Fin 3) (cc : Fin 64) (o : Fin 64) :
    V19 m ρ c main_v33 (ix3 k cc o) = Wc m c ⟨cc.val * 3 + k.val, by have := cc.isLt; have := k.isLt; omega⟩ o :=
  (congrFun (KWalk.v33_at19 m ρ c) _).trans (KInputs.wc1x m ρ c k cc o)
theorem wch19 (c : Dev nD) (k : Fin 3) (u : Fin 64) (o : Fin 64) :
    V19 m ρ c main_v34 (ix3 k u o) = Wc m c ⟨(64 + u.val) * 3 + k.val, by have := u.isLt; have := k.isLt; omega⟩ o :=
  (congrFun (KWalk.v34_at19 m ρ c) _).trans (KInputs.wc1h m ρ c k u o)
theorem bc19 (c : Dev nD) (o : Fin 64) : V19 m ρ c main_v38 (ix2 0 o) = Bc m c o :=
  (congrFun (KWalk.v38_at19 m ρ c) _).trans (KInputs.b_v38 m ρ c o)

theorem new20 (c : Dev nD) : RowsOf (V20 m ρ c main_v74_0) (L1 m c) := fun n b u =>
  (congrFun ((W20_arr m ρ c 11).trans (RegCand.r11_out11 (V19 m ρ) c)) _).trans
    (Cert.ArrSem.cand_sem (cin := 64) (Adj m c) (L0 m c) (H1 m c) (Wg m c) (Bg m c) (Wc m c) (Bc m c) _ _ _ _ _ _ _ _ _ _ _
      (fun n b u => (congrFun (KWalk.v56_1_at19 m ρ c) _).trans (x10 m ρ c n b u)) (x70_19 m ρ c) (x71_19 m ρ c)
        (fun n b u => (congrFun (KWalk.v66_0_at19 m ρ c) _).trans (s66_15 m ρ c n b u)) (s72_19 m ρ c) (s73_19 m ρ c)
        (fun n b u => (congrFun (KWalk.v66_1_at19 m ρ c) _).trans (u66_15 m ρ c n b u))
        (fun n b u => (congrFun (KWalk.v14_at19 m ρ c) _).trans (KInputs.h_v14 m ρ c n b u))
      (wcx19 m ρ c) (wch19 m ρ c) (bc19 m ρ c) n b u)
theorem old20 (c : Dev nD) : RowsOf (V20 m ρ c main_v56_0) (L0 m c) := fun n b u =>
  (congrFun (KWalk.v56_0_at20 m ρ c) _).trans (KLayer0.h0f m ρ c (ix2 (row n b) u) b n u rfl rfl)

theorem out1 (c : Dev nD) (i : S32x65536.Idx) (b : Fin 32) (n : Fin 1024) (u : Fin 64)
    (hb : (i 0).val = b.val) (hq : (i 1).val = n.val * 64 + u.val) :
    W21 m ρ c (Proc.devRef .tc main_v80) i = L1 m c b n u :=
  h12_v80 (W20 m ρ c) _ (new20 m ρ c) i b n u hb hq

theorem out2 (c : Dev nD) (i : S2x32x65536.Idx) (l : Fin 2) (b : Fin 32) (n : Fin 1024) (u : Fin 64)
    (hl : (i 0).val = l.val) (hb : (i 1).val = b.val) (hq : (i 2).val = n.val * 64 + u.val) :
    W21 m ρ c (Proc.devRef .tc main_v83) i = if l.val = 0 then L0 m c b n u else L1 m c b n u :=
  h12_v83 (W20 m ρ c) _ _ (old20 m ρ c) (new20 m ρ c) i l b n u hl hb hq

end Cert.KernelIdeal.KLayer1

end
-- ==== Proof.RLayer0.lean ====
import proofs.«150681_g19885698580639_cont_8to1_2033_3_alg».proof.Proof.RunP
import proofs.«150681_g19885698580639_cont_8to1_2033_3_alg».proof.Proof.Sem
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.ReferenceIdeal.RLayer0

open Cert.ReferenceIdeal Cert.ReferenceIdeal.Gen Cert.ReferenceIdeal.ValueP
open Idealize.ShloMosaic Idealize.ShloMosaic.TcCoe Idealize.ShloMosaic.ValueIdx Idealize.SL.Sem Idealize.ShloMosaic.StableHlo
open scoped BigOperators

theorem ofBits_one : Ideal.ofBits .f32 0x3F800000#32 = (1 : EReal) := by
  simp [Ideal.ofBits, Ideal.ieee, -EReal.coe_mul]; norm_num

theorem dot_plain_apply {m k n : ℕ} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    Host.dotGeneral D none A B (ix2 a b) = ∑ c : Fin k, A (ix2 a c) * B (ix2 c b) := by
  subst hD
  exact StackMember.dotGeneral_plain_apply none A B a b

theorem bcast_scalar_apply {t : Shape} (dims : Fin 0 → Fin t.rank) (h : S_.BroadcastsInDim t dims) (w : BitVec 32) (i : t.Idx) :
    broadcastInDim t dims h (constant (F := Ideal) S_ .f32 w) i = Ideal.ofBits .f32 w :=
  (broadcastInDim_apply dims h _ i ix0 (fun a => a.elim0)).trans rfl

theorem bias_apply {R O : ℕ} (h1 : (⟨1, ![O]⟩ : Shape).BroadcastsInDim ⟨2, ![1, O]⟩ ![1])
    (h2 : (⟨2, ![1, O]⟩ : Shape).BroadcastsInDim ⟨2, ![R, O]⟩ ![0, 1]) (bias : (⟨1, ![O]⟩ : Shape).Idx → EReal)
    (r : Fin R) (o : Fin O) :
    broadcastInDim ⟨2, ![R, O]⟩ ![0, 1] h2 (broadcastInDim ⟨2, ![1, O]⟩ ![1] h1 bias) (ix2 r o) = bias (ix1 o) := by
  refine (broadcastInDim_apply _ h2 _ _ (ix2 (0 : Fin 1) o) (fun a => match a with
    | ⟨0, _⟩ => by show (0 : ℕ) = if (1 : ℕ) = 1 then 0 else r.val; rfl
    | ⟨1, _⟩ => by
        show o.val = if O = 1 then 0 else o.val
        split
        · have := o.isLt; omega
        · rfl)).trans ?_
  exact broadcastInDim_apply _ h1 _ _ (ix1 o) (fun a => match a with
    | ⟨0, _⟩ => by
        show o.val = if O = 1 then 0 else o.val
        split
        · have := o.isLt; omega
        · rfl)

theorem x0_apply (X3 : S32x1024x2.Idx → EReal) (S3 : S32x1024x64.Idx → EReal)
    (j : S1024x2112.Idx) (n : Fin 1024) (c : ℕ) (hc : c < 66) (b : Fin 32)
    (hj0 : (j 0).val = n.val) (hj1 : (j 1).val = c * 32 + b.val) :
    shapeCast S1024x2112 (transpose S1024x66x32 [1, 2, 0] (concatenate S32x1024x66 2 [⟨S32x1024x2, X3⟩, ⟨S32x1024x64, S3⟩] concatenates_S32x1024x2_S32x1024x64_S32x1024x66_d2) transposes_S32x1024x66_S1024x66x32_1_2_0) shapeCasts_S1024x66x32_S1024x2112 j
      = if h : c < 2 then X3 (ix3 b n ⟨c, h⟩) else S3 (ix3 b n ⟨c - 2, by omega⟩) := by
  refine (shapeCast_apply _ _ j (ix3 n (⟨c, hc⟩ : Fin 66) b) (by
    rw [Shape.rowMajor_val_two, Shape.rowMajor_val_three]
    show (n.val * 66 + c) * 32 + b.val = (j 0).val * 2112 + (j 1).val
    rw [hj0, hj1]; omega)).trans ?_
  refine (transpose_apply _ _ _ _ (ix3 b n (⟨c, hc⟩ : Fin 66))
    (fun a => match a with | ⟨0, _⟩ => rfl | ⟨1, _⟩ => rfl | ⟨2, _⟩ => rfl)).trans ?_
  by_cases h : c < 2
  · rw [dif_pos h]
    exact concatenate_pair_apply_left (t := S32x1024x66) 2 X3 S3 concatenates_S32x1024x2_S32x1024x64_S32x1024x66_d2
      (ix3 b n (⟨c, hc⟩ : Fin 66)) rfl (ix3 b n (⟨c, h⟩ : Fin 2))
      (fun a => match a with | ⟨0, _⟩ => rfl | ⟨1, _⟩ => rfl | ⟨2, _⟩ => rfl)
  · rw [dif_neg h]
    exact concatenate_pair_apply_right (t := S32x1024x66) 2 X3 S3 concatenates_S32x1024x2_S32x1024x64_S32x1024x66_d2
      (ix3 b n (⟨c, hc⟩ : Fin 66)) rfl rfl (ix3 b n (⟨c - 2, by omega⟩ : Fin 64))
      (fun a ha => match a, ha with | ⟨0, _⟩, _ => rfl | ⟨1, _⟩, _ => rfl | ⟨2, _⟩, ha => absurd rfl ha)
      (by show (c - 2) + 2 = c; omega)

theorem stack_apply (x0 x1 x2 : S1024x2112.Idx → EReal)
    (j : S32768x198.Idx) (b : Fin 32) (n : Fin 1024) (c : ℕ) (hc : c < 66) (k : ℕ) (hk : k < 3)
    (hj0 : (j 0).val = b.val * 1024 + n.val) (hj1 : (j 1).val = c * 3 + k) :
    shapeCast S32768x198 (transpose S32x1024x66x3 [3, 1, 2, 0] (shapeCast S3x1024x66x32 (concatenate S3x1024x2112 0
      [⟨S1x1024x2112, broadcastInDim S1x1024x2112 ![1, 2] bcast_S1024x2112_S1x1024x2112_1_2 x0⟩,
       ⟨S1x1024x2112, broadcastInDim S1x1024x2112 ![1, 2] bcast_S1024x2112_S1x1024x2112_1_2 x1⟩,
       ⟨S1x1024x2112, broadcastInDim S1x1024x2112 ![1, 2] bcast_S1024x2112_S1x1024x2112_1_2 x2⟩]
      concatenates_S1x1024x2112_S1x1024x2112_S1x1024x2112_S3x1024x2112_d0) shapeCasts_S3x1024x2112_S3x1024x66x32)
      transposes_S3x1024x66x32_S32x1024x66x3_3_1_2_0) shapeCasts_S32x1024x66x3_S32768x198 j
      = (if k = 0 then x0 else if k = 1 then x1 else x2) (ix2 n ⟨c * 32 + b.val, by have := b.isLt; omega⟩) := by
  have hq : c * 32 + b.val < 2112 := by have := b.isLt; omega
  refine (shapeCast_apply _ _ j (ix4 b n (⟨c, hc⟩ : Fin 66) (⟨k, hk⟩ : Fin 3)) (by
    rw [Shape.rowMajor_val_four, Shape.rowMajor_val_two]
    show ((b.val * 1024 + n.val) * 66 + c) * 3 + k = (j 0).val * 198 + (j 1).val
    rw [hj0, hj1]; omega)).trans ?_
  refine (transpose_apply _ _ _ _ (ix4 (⟨k, hk⟩ : Fin 3) n (⟨c, hc⟩ : Fin 66) b)
    (fun a => match a with | ⟨0, _⟩ => rfl | ⟨1, _⟩ => rfl | ⟨2, _⟩ => rfl | ⟨3, _⟩ => rfl)).trans ?_
  refine (shapeCast_apply _ _ _ (ix3 (⟨k, hk⟩ : Fin 3) n (⟨c * 32 + b.val, hq⟩ : Fin 2112)) (by
    rw [Shape.rowMajor_val_three, Shape.rowMajor_val_four]
    show (k * 1024 + n.val) * 2112 + (c * 32 + b.val) = ((k * 1024 + n.val) * 66 + c) * 32 + b.val
    omega)).trans ?_
  have hb : ∀ x : S1024x2112.Idx → EReal,
      broadcastInDim S1x1024x2112 ![1, 2] bcast_S1024x2112_S1x1024x2112_1_2 x (ix3 (0 : Fin 1) n (⟨c * 32 + b.val, hq⟩ : Fin 2112))
        = x (ix2 n ⟨c * 32 + b.val, hq⟩) := fun x =>
    broadcastInDim_apply _ _ x _ _ (fun a => match a with | ⟨0, _⟩ => rfl | ⟨1, _⟩ => rfl)
  obtain rfl | rfl | rfl : k = 0 ∨ k = 1 ∨ k = 2 := by omega
  · refine (concatenate_apply_piece (t := S3x1024x2112) 0 _ _ _
      0 (by show 0 < 3; omega) S1x1024x2112 _ rfl rfl 0 rfl (ix3 (0 : Fin 1) n (⟨c * 32 + b.val, hq⟩ : Fin 2112))
      (fun a ha => match a, ha with | ⟨0, _⟩, ha => absurd rfl ha | ⟨1, _⟩, _ => rfl | ⟨2, _⟩, _ => rfl) rfl).trans ?_
    exact hb x0
  · refine (concatenate_apply_piece (t := S3x1024x2112) 0 _ _ _
      1 (by show 1 < 3; omega) S1x1024x2112 _ rfl rfl 1 rfl (ix3 (0 : Fin 1) n (⟨c * 32 + b.val, hq⟩ : Fin 2112))
      (fun a ha => match a, ha with | ⟨0, _⟩, ha => absurd rfl ha | ⟨1, _⟩, _ => rfl | ⟨2, _⟩, _ => rfl) rfl).trans ?_
    exact hb x1
  · refine (concatenate_apply_piece (t := S3x1024x2112) 0 _ _ _
      2 (by show 2 < 3; omega) S1x1024x2112 _ rfl rfl 2 rfl (ix3 (0 : Fin 1) n (⟨c * 32 + b.val, hq⟩ : Fin 2112))
      (fun a ha => match a, ha with | ⟨0, _⟩, ha => absurd rfl ha | ⟨1, _⟩, _ => rfl | ⟨2, _⟩, _ => rfl) rfl).trans ?_
    exact hb x2

theorem d1_apply (a1 : FVec Ideal S1024x1024 .f32) (x : FVec Ideal S1024x2112 .f32) (n : Fin 1024) (q : Fin 2112) :
    Host.dotGeneral dot_S1024x1024_S1024x2112_S1024x2112_1_0_0_1_n_n none a1 x (ix2 n q) = ∑ m : Fin 1024, a1 (ix2 n m) * x (ix2 m q) :=
  dot_plain_apply _ rfl a1 x n q

theorem d2_apply (a1 : FVec Ideal S1024x1024 .f32) (x : FVec Ideal S1024x2112 .f32) (n : Fin 1024) (q : Fin 2112) :
    subf (mulf (broadcastInDim S1024x2112 ![] bcast_S_S1024x2112 (constant S_ .f32 0x40000000#32))
        (Host.dotGeneral dot_S1024x1024_S1024x2112_S1024x2112_1_0_0_1_n_n none a1 (Host.dotGeneral dot_S1024x1024_S1024x2112_S1024x2112_1_0_0_1_n_n none a1 x))) x (ix2 n q)
      = Cert.Sem.two * (∑ m : Fin 1024, a1 (ix2 n m) * ∑ m' : Fin 1024, a1 (ix2 m m') * x (ix2 m' q)) - x (ix2 n q) := by
  rw [subf_apply, mulf_apply, bcast_scalar_apply, d1_apply]
  simp only [d1_apply]
  rfl

theorem gconv_read {O : ℕ} (a1 : FVec Ideal S1024x1024 .f32) (x0 : FVec Ideal S1024x2112 .f32)
    (X : Fin 32 → Fin 1024 → Fin 2 → EReal) (S : Fin 32 → Fin 1024 → Fin 64 → EReal)
    (hx0 : ∀ (m : Fin 1024) (c : ℕ) (hc : c < 66) (b : Fin 32),
      x0 (ix2 m ⟨c * 32 + b.val, by have := b.isLt; omega⟩) = Cert.Sem.cat X S b m c)
    (D : DotDims S32768x198 ⟨2, ![198, O]⟩ ⟨2, ![32768, O]⟩) (hD : D = DotDims.plain 32768 198 O)
    (W : FVec Ideal ⟨2, ![198, O]⟩ .f32)
    (h1 : (⟨1, ![O]⟩ : Shape).BroadcastsInDim ⟨2, ![1, O]⟩ ![1])
    (h2 : (⟨2, ![1, O]⟩ : Shape).BroadcastsInDim ⟨2, ![32768, O]⟩ ![0, 1])
    (bias : FVec Ideal ⟨1, ![O]⟩ .f32)
    (r : Fin 32768) (b : Fin 32) (n : Fin 1024) (o : Fin O) (hr : r.val = b.val * 1024 + n.val) :
    addf (Host.dotGeneral D none (shapeCast S32768x198 (transpose S32x1024x66x3 [3, 1, 2, 0] (shapeCast S3x1024x66x32 (concatenate S3x1024x2112 0
      [⟨S1x1024x2112, broadcastInDim S1x1024x2112 ![1, 2] bcast_S1024x2112_S1x1024x2112_1_2 x0⟩,
       ⟨S1x1024x2112, broadcastInDim S1x1024x2112 ![1, 2] bcast_S1024x2112_S1x1024x2112_1_2 (Host.dotGeneral dot_S1024x1024_S1024x2112_S1024x2112_1_0_0_1_n_n none a1 x0)⟩,
       ⟨S1x1024x2112, broadcastInDim S1x1024x2112 ![1, 2] bcast_S1024x2112_S1x1024x2112_1_2 (subf (mulf (broadcastInDim S1024x2112 ![] bcast_S_S1024x2112 (constant S_ .f32 0x40000000#32)) (Host.dotGeneral dot_S1024x1024_S1024x2112_S1024x2112_1_0_0_1_n_n none a1 (Host.dotGeneral dot_S1024x1024_S1024x2112_S1024x2112_1_0_0_1_n_n none a1 x0))) x0)⟩]
      concatenates_S1x1024x2112_S1x1024x2112_S1x1024x2112_S3x1024x2112_d0) shapeCasts_S3x1024x2112_S3x1024x66x32)
      transposes_S3x1024x66x32_S32x1024x66x3_3_1_2_0) shapeCasts_S32x1024x66x3_S32768x198) W)
        (broadcastInDim ⟨2, ![32768, O]⟩ ![0, 1] h2 (broadcastInDim ⟨2, ![1, O]⟩ ![1] h1 bias)) (ix2 r o)
      = Cert.Sem.gconv (cin := 2) (Cert.Sem.adj a1) X S (Cert.Sem.wmat W) (Cert.Sem.bvec bias) b n o := by
  rw [addf_apply, bias_apply, dot_plain_apply D hD]
  show _ = (∑ p : Fin 198, Cert.Sem.xcat (Cert.Sem.adj a1) X S b n p.val * W (ix2 p o)) + bias (ix1 o)
  congr 1
  refine Finset.sum_congr rfl fun p _ => ?_
  refine congrArg (· * W (ix2 p o)) ?_
  have hp : p.val < 198 := p.isLt
  have hc : p.val / 3 < 66 := by omega
  refine (stack_apply _ _ _ (ix2 r p) b n (p.val / 3) hc (p.val % 3) (Nat.mod_lt _ (by omega)) hr
    (by show p.val = p.val / 3 * 3 + p.val % 3; omega)).trans ?_
  unfold Cert.Sem.xcat Cert.Sem.cheb
  by_cases h0 : p.val % 3 = 0
  · rw [if_pos h0, if_pos h0]
    exact hx0 n (p.val / 3) hc b
  · rw [if_neg h0, if_neg h0]
    by_cases h1 : p.val % 3 = 1
    · rw [if_pos h1, if_pos h1, d1_apply]
      unfold Cert.Sem.d1
      simp only [hx0 _ (p.val / 3) hc b]
      rfl
    · rw [if_neg h1, if_neg h1, d2_apply]
      unfold Cert.Sem.d2 Cert.Sem.d1
      simp only [hx0 _ (p.val / 3) hc b]
      rfl

theorem logistic_apply (g : FVec Ideal S32768x128 .f32) (b : Fin 32) (n : Fin 1024) (o : Fin 128) :
    Host.divf (broadcastInDim S32x1024x128 ![] bcast_S_S32x1024x128 (constant S_ .f32 0x3F800000#32))
      (addf (broadcastInDim S32x1024x128 ![] bcast_S_S32x1024x128 (constant S_ .f32 0x3F800000#32))
        (Host.exp (Host.negf (shapeCast S32x1024x128 g shapeCasts_S32768x128_S32x1024x128)))) (ix3 b n o)
      = Ideal.logistic (g (ix2 (⟨b.val * 1024 + n.val, by have := b.isLt; have := n.isLt; omega⟩ : Fin 32768) o)) := by
  have hs : shapeCast S32x1024x128 g shapeCasts_S32768x128_S32x1024x128 (ix3 b n o)
      = g (ix2 (⟨b.val * 1024 + n.val, by have := b.isLt; have := n.isLt; omega⟩ : Fin 32768) o) :=
    shapeCast_apply _ _ _ _ (by
      rw [Shape.rowMajor_val_two, Shape.rowMajor_val_three]
      show (b.val * 1024 + n.val) * 128 + o.val = (b.val * 1024 + n.val) * 128 + o.val
      rfl)
  show Ideal.div (broadcastInDim S32x1024x128 ![] bcast_S_S32x1024x128 (constant (F := Ideal) S_ .f32 0x3F800000#32) (ix3 b n o))
      (broadcastInDim S32x1024x128 ![] bcast_S_S32x1024x128 (constant (F := Ideal) S_ .f32 0x3F800000#32) (ix3 b n o)
        + Ideal.exp (-(shapeCast S32x1024x128 g shapeCasts_S32768x128_S32x1024x128 (ix3 b n o)))) = _
  rw [bcast_scalar_apply, ofBits_one, hs]
  rfl

theorem gate_slice_apply (v : FVec Ideal S32x1024x128 .f32) (off : ℕ) (hoff : off + 64 ≤ 128)
    (hs : S32x1024x128.Slices ![0, 0, off] S32x1024x64)
    (i : S32x65536.Idx) (b : Fin 32) (n : Fin 1024) (u : Fin 64) (w : Fin 128)
    (hb : (i 0).val = b.val) (hq : (i 1).val = n.val * 64 + u.val) (hw : w.val = off + u.val) :
    shapeCast S32x65536 (extractStridedSlice S32x1024x64 ![0, 0, off] v hs) shapeCasts_S32x1024x64_S32x65536 i
      = v (ix3 b n w) := by
  refine (shapeCast_apply _ _ i (ix3 b n u) (by
    rw [Shape.rowMajor_val_three, Shape.rowMajor_val_two]
    show (b.val * 1024 + n.val) * 64 + u.val = (i 0).val * 65536 + (i 1).val
    rw [hb, hq]; omega)).trans ?_
  exact extractStridedSlice_apply _ _ hs _ _ (fun a => match a with
    | ⟨0, _⟩ => by show b.val = 0 + b.val; omega
    | ⟨1, _⟩ => by show n.val = 0 + n.val; omega
    | ⟨2, _⟩ => hw)

theorem mix_apply (U H : FVec Ideal S32x65536 .f32) (cnd : FVec Ideal S32768x64 .f32)
    (i : S32x65536.Idx) (b : Fin 32) (n : Fin 1024) (u : Fin 64)
    (hb : (i 0).val = b.val) (hq : (i 1).val = n.val * 64 + u.val) :
    addf (mulf U H) (mulf (subf (broadcastInDim S32x65536 ![] bcast_S_S32x65536 (constant S_ .f32 0x3F800000#32)) U)
        (Host.tanh (shapeCast S32x65536 (shapeCast S32x1024x64 cnd shapeCasts_S32768x64_S32x1024x64) shapeCasts_S32x1024x64_S32x65536))) i
      = U i * H i + (Cert.Sem.one - U i)
          * Ideal.tanh (cnd (ix2 (⟨b.val * 1024 + n.val, by have := b.isLt; have := n.isLt; omega⟩ : Fin 32768) u)) := by
  have hs : shapeCast S32x65536 (shapeCast S32x1024x64 cnd shapeCasts_S32768x64_S32x1024x64) shapeCasts_S32x1024x64_S32x65536 i
      = cnd (ix2 (⟨b.val * 1024 + n.val, by have := b.isLt; have := n.isLt; omega⟩ : Fin 32768) u) := by
    refine (shapeCast_apply _ _ i (ix3 b n u) (by
      rw [Shape.rowMajor_val_three, Shape.rowMajor_val_two]
      show (b.val * 1024 + n.val) * 64 + u.val = (i 0).val * 65536 + (i 1).val
      rw [hb, hq]; omega)).trans ?_
    exact shapeCast_apply _ _ _ _ (by
      rw [Shape.rowMajor_val_two, Shape.rowMajor_val_three]
      show (b.val * 1024 + n.val) * 64 + u.val = (b.val * 1024 + n.val) * 64 + u.val
      rfl)
  show U i * H i + (broadcastInDim S32x65536 ![] bcast_S_S32x65536 (constant (F := Ideal) S_ .f32 0x3F800000#32) i - U i)
      * Ideal.tanh (shapeCast S32x65536 (shapeCast S32x1024x64 cnd shapeCasts_S32768x64_S32x1024x64) shapeCasts_S32x1024x64_S32x65536 i) = _
  rw [bcast_scalar_apply, hs]
  rfl

theorem state_apply (a2 : FVec Ideal S2x32x65536 .f32) (l : ℕ) (hl : l < 2) (hs : S2x32x65536.Slices ![l, 0, 0] S1x32x65536)
    (i : S32x65536.Idx) (b : Fin 32) (n : Fin 1024) (u : Fin 64)
    (hb : (i 0).val = b.val) (hq : (i 1).val = n.val * 64 + u.val) :
    shapeCast S32x65536 (extractStridedSlice S1x32x65536 ![l, 0, 0] a2 hs) shapeCasts_S1x32x65536_S32x65536 i
      = Cert.Sem.state a2 ⟨l, hl⟩ b n u := by
  have hq' : n.val * 64 + u.val < 65536 := by have := n.isLt; have := u.isLt; omega
  refine (shapeCast_apply _ _ i (ix3 (0 : Fin 1) b (⟨n.val * 64 + u.val, hq'⟩ : Fin 65536)) (by
    rw [Shape.rowMajor_val_three, Shape.rowMajor_val_two]
    show (0 * 32 + b.val) * 65536 + (n.val * 64 + u.val) = (i 0).val * 65536 + (i 1).val
    rw [hb, hq]; omega)).trans ?_
  exact extractStridedSlice_apply _ _ hs _ _ (fun a => match a with
    | ⟨0, _⟩ => by show l = l + 0; omega
    | ⟨1, _⟩ => by show b.val = 0 + b.val; omega
    | ⟨2, _⟩ => by show n.val * 64 + u.val = 0 + (n.val * 64 + u.val); omega)

theorem feat_apply (a0 : FVec Ideal S32x2048 .f32) (b : Fin 32) (n : Fin 1024) (c : Fin 2) :
    shapeCast S32x1024x2 a0 shapeCasts_S32x2048_S32x1024x2 (ix3 b n c) = Cert.Sem.feat a0 b n c :=
  shapeCast_apply _ _ _ _ (by
    rw [Shape.rowMajor_val_two, Shape.rowMajor_val_three]
    show b.val * 2048 + (n.val * 2 + c.val) = (b.val * 1024 + n.val) * 2 + c.val
    omega)

theorem unflat_apply (h : FVec Ideal S32x65536 .f32) (b : Fin 32) (n : Fin 1024) (u : Fin 64) :
    shapeCast S32x1024x64 h shapeCasts_S32x65536_S32x1024x64 (ix3 b n u)
      = h (ix2 b (⟨n.val * 64 + u.val, by have := n.isLt; have := u.isLt; omega⟩ : Fin 65536)) :=
  shapeCast_apply _ _ _ _ (by
    rw [Shape.rowMajor_val_two, Shape.rowMajor_val_three]
    show b.val * 65536 + (n.val * 64 + u.val) = (b.val * 1024 + n.val) * 64 + u.val
    omega)

variable (V0 : Valuation τ sig (Elt Ideal))

abbrev a0 : FVec Ideal S32x2048 .f32 := V0 (Proc.devRef .tc main_arg0)
abbrev a1 : FVec Ideal S1024x1024 .f32 := V0 (Proc.devRef .tc main_arg1)
abbrev a2 : FVec Ideal S2x32x65536 .f32 := V0 (Proc.devRef .tc main_arg2)
abbrev a3 : FVec Ideal S198x128 .f32 := V0 (Proc.devRef .tc main_arg3)
abbrev a4 : FVec Ideal S128 .f32 := V0 (Proc.devRef .tc main_arg4)
abbrev a5 : FVec Ideal S198x64 .f32 := V0 (Proc.devRef .tc main_arg5)
abbrev a6 : FVec Ideal S64 .f32 := V0 (Proc.devRef .tc main_arg6)

abbrev X0 : Fin 32 → Fin 1024 → Fin 2 → EReal := Cert.Sem.feat (a0 V0)
abbrev H0 : Fin 32 → Fin 1024 → Fin 64 → EReal := Cert.Sem.state (a2 V0) 0
abbrev Adj : Fin 1024 → Fin 1024 → EReal := Cert.Sem.adj (a1 V0)

theorem v1_eq (i : S32x65536.Idx) (b : Fin 32) (n : Fin 1024) (u : Fin 64)
    (hb : (i 0).val = b.val) (hq : (i 1).val = n.val * 64 + u.val) :
    res_main_v1 V0 i = H0 V0 b n u := by
  unfold res_main_v1
  exact state_apply _ 0 (by omega) _ i b n u hb hq

theorem v6_eq (m : Fin 1024) (c : ℕ) (hc : c < 66) (b : Fin 32) :
    res_main_v6 V0 (ix2 m ⟨c * 32 + b.val, by have := b.isLt; omega⟩) = Cert.Sem.cat (X0 V0) (H0 V0) b m c := by
  unfold res_main_v6
  refine (x0_apply _ _ _ m c hc b rfl rfl).trans ?_
  unfold Cert.Sem.cat
  by_cases h : c < 2
  · rw [dif_pos h, dif_pos h]
    exact feat_apply _ b m ⟨c, h⟩
  · have h' : c - 2 < 64 := by omega
    rw [dif_neg h, dif_neg h, dif_pos h']
    refine (unflat_apply _ b m ⟨c - 2, h'⟩).trans ?_
    exact v1_eq V0 _ b m ⟨c - 2, h'⟩ rfl rfl

theorem v29_eq (b : Fin 32) (n : Fin 1024) (o : Fin 128) :
    res_main_v29 V0 (ix3 b n o)
      = Ideal.logistic (Cert.Sem.gconv (cin := 2) (Adj V0) (X0 V0) (H0 V0) (Cert.Sem.wmat (a3 V0)) (Cert.Sem.bvec (a4 V0)) b n o) := by
  unfold res_main_v29
  refine (logistic_apply _ b n o).trans ?_
  refine congrArg Ideal.logistic ?_
  exact gconv_read (a1 V0) (res_main_v6 V0) (X0 V0) (H0 V0) (v6_eq V0) dot_S32768x198_S198x128_S32768x128_1_0_0_1_n_n rfl
    (a3 V0) bcast_S128_S1x128_1 bcast_S1x128_S32768x128_0_1 (a4 V0) _ b n o rfl

theorem v33_eq (i : S32x65536.Idx) (b : Fin 32) (n : Fin 1024) (u : Fin 64)
    (hb : (i 0).val = b.val) (hq : (i 1).val = n.val * 64 + u.val) :
    res_main_v33 V0 i
      = Cert.Sem.update (cin := 2) (Adj V0) (X0 V0) (H0 V0) (Cert.Sem.wmat (a3 V0)) (Cert.Sem.bvec (a4 V0)) b n u := by
  unfold res_main_v33
  refine (gate_slice_apply _ 64 (by omega) _ i b n u ⟨64 + u.val, by have := u.isLt; omega⟩ hb hq rfl).trans ?_
  exact v29_eq V0 b n _

theorem reset_eq (i : S32x65536.Idx) (b : Fin 32) (n : Fin 1024) (u : Fin 64)
    (hb : (i 0).val = b.val) (hq : (i 1).val = n.val * 64 + u.val) :
    shapeCast S32x65536 (extractStridedSlice S32x1024x64 ![0, 0, 0] (res_main_v29 V0) slices_S32x1024x128_S32x1024x64_0_0_0) shapeCasts_S32x1024x64_S32x65536 i
      = Cert.Sem.reset (cin := 2) (Adj V0) (X0 V0) (H0 V0) (Cert.Sem.wmat (a3 V0)) (Cert.Sem.bvec (a4 V0)) b n u := by
  refine (gate_slice_apply _ 0 (by omega) _ i b n u ⟨u.val, by have := u.isLt; omega⟩ hb hq (by show u.val = 0 + u.val; omega)).trans ?_
  exact v29_eq V0 b n _

theorem v39_eq (m : Fin 1024) (c : ℕ) (hc : c < 66) (b : Fin 32) :
    res_main_v39 V0 (ix2 m ⟨c * 32 + b.val, by have := b.isLt; omega⟩)
      = Cert.Sem.cat (X0 V0) (fun b' n' u' => Cert.Sem.reset (cin := 2) (Adj V0) (X0 V0) (H0 V0) (Cert.Sem.wmat (a3 V0)) (Cert.Sem.bvec (a4 V0)) b' n' u' * H0 V0 b' n' u') b m c := by
  unfold res_main_v39
  refine (x0_apply _ _ _ m c hc b rfl rfl).trans ?_
  unfold Cert.Sem.cat
  by_cases h : c < 2
  · rw [dif_pos h, dif_pos h]
    exact feat_apply _ b m ⟨c, h⟩
  · have h' : c - 2 < 64 := by omega
    rw [dif_neg h, dif_neg h, dif_pos h']
    refine (unflat_apply _ b m ⟨c - 2, h'⟩).trans ?_
    rw [mulf_apply]
    exact congrArg₂ (· * ·) (reset_eq V0 _ b m ⟨c - 2, h'⟩ rfl rfl) (v1_eq V0 _ b m ⟨c - 2, h'⟩ rfl rfl)

abbrev L0 : Fin 32 → Fin 1024 → Fin 64 → EReal :=
  Cert.Sem.layer0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))

theorem h0 (i : S32x65536.Idx) (b : Fin 32) (n : Fin 1024) (u : Fin 64)
    (hb : (i 0).val = b.val) (hq : (i 1).val = n.val * 64 + u.val) :
    res_main_v63 V0 i = L0 V0 b n u := by
  unfold res_main_v63
  refine (mix_apply _ _ _ i b n u hb hq).trans ?_
  have e33 := v33_eq V0 i b n u hb hq
  have e1 := v1_eq V0 i b n u hb hq
  refine congrArg₂ (· + ·) (congrArg₂ (· * ·) e33 e1)
    (congrArg₂ (· * ·) (congrArg (Cert.Sem.one - ·) e33) (congrArg Ideal.tanh ?_))
  exact gconv_read (a1 V0) (res_main_v39 V0) (X0 V0) _ (v39_eq V0) dot_S32768x198_S198x64_S32768x64_1_0_0_1_n_n rfl
    (a5 V0) bcast_S64_S1x64_1 bcast_S1x64_S32768x64_0_1 (a6 V0) _ b n u rfl

end Cert.ReferenceIdeal.RLayer0

end
-- ==== Proof.RLayer1.lean ====
import proofs.«150681_g19885698580639_cont_8to1_2033_3_alg».proof.Proof.RunP
import proofs.«150681_g19885698580639_cont_8to1_2033_3_alg».proof.Proof.Sem
import proofs.«150681_g19885698580639_cont_8to1_2033_3_alg».proof.Proof.RLayer0
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RLayer1

open Cert.ReferenceIdeal Cert.ReferenceIdeal.Gen Cert.ReferenceIdeal.ValueP
open Idealize.ShloMosaic Idealize.ShloMosaic.TcCoe Idealize.ShloMosaic.ValueIdx Idealize.SL.Sem Idealize.ShloMosaic.StableHlo
open scoped BigOperators

theorem dotA_apply (A : S1024x1024.Idx → EReal) (x : S1024x4096.Idx → EReal) (n : Fin 1024) (q : Fin 4096) :
    Host.dotGeneral (F := Ideal) (φ₁ := .f32) (φ₂ := .f32) dot_S1024x1024_S1024x4096_S1024x4096_1_0_0_1_n_n none A x (ix2 n q)
      = ∑ m : Fin 1024, A (ix2 n m) * x (ix2 m q) :=
  RLayer0.dot_plain_apply _ rfl A x n q

def X0 (xa sa : FVec Ideal S32x65536 .f32) : FVec Ideal S1024x4096 .f32 :=
  shapeCast _ (transpose S1024x128x32 [1, 2, 0] (concatenate S32x1024x128 2 [⟨S32x1024x64, (shapeCast _ xa shapeCasts_S32x65536_S32x1024x64)⟩, ⟨S32x1024x64, (shapeCast _ sa shapeCasts_S32x65536_S32x1024x64)⟩] concatenates_S32x1024x64_S32x1024x64_S32x1024x128_d2) transposes_S32x1024x128_S1024x128x32_1_2_0) shapeCasts_S1024x128x32_S1024x4096

theorem X0_apply (xa sa : FVec Ideal S32x65536 .f32) (X S : Fin 32 → Fin 1024 → Fin 64 → EReal)
    (hx : ∀ (i : S32x65536.Idx) (b : Fin 32) (n : Fin 1024) (u : Fin 64),
      (i 0).val = b.val → (i 1).val = n.val * 64 + u.val → xa i = X b n u)
    (hs : ∀ (i : S32x65536.Idx) (b : Fin 32) (n : Fin 1024) (u : Fin 64),
      (i 0).val = b.val → (i 1).val = n.val * 64 + u.val → sa i = S b n u)
    (n : Fin 1024) (c : ℕ) (hc : c < 128) (b : Fin 32) :
    X0 xa sa (ix2 n ⟨c * 32 + b.val, by have := b.isLt; omega⟩) = Cert.Sem.cat X S b n c := by
  have hb := b.isLt
  have hn := n.isLt
  unfold X0
  refine (shapeCast_apply _ _ _ (ix3 n ⟨c, hc⟩ b) (by
    rw [Shape.rowMajor_val_three, Shape.rowMajor_val_two]
    show (n.val * 128 + c) * 32 + b.val = n.val * 4096 + (c * 32 + b.val)
    omega)).trans ?_
  refine (transpose_apply _ _ _ _ (ix3 b n ⟨c, hc⟩)
    (fun r => match r with | ⟨0, _⟩ => rfl | ⟨1, _⟩ => rfl | ⟨2, _⟩ => rfl)).trans ?_
  unfold Cert.Sem.cat
  by_cases h : c < 64
  · rw [dif_pos h]
    refine (concatenate_pair_apply_left (t := S32x1024x128) 2 _ _ concatenates_S32x1024x64_S32x1024x64_S32x1024x128_d2
      (ix3 b n ⟨c, hc⟩) rfl (ix3 b n ⟨c, h⟩)
      (fun r => match r with | ⟨0, _⟩ => rfl | ⟨1, _⟩ => rfl | ⟨2, _⟩ => rfl)).trans ?_
    exact (RLayer0.unflat_apply _ b n ⟨c, h⟩).trans (hx _ b n ⟨c, h⟩ rfl rfl)
  · rw [dif_neg h, dif_pos (show c - 64 < 64 by omega)]
    refine (concatenate_pair_apply_right (t := S32x1024x128) 2 _ _ concatenates_S32x1024x64_S32x1024x64_S32x1024x128_d2
      (ix3 b n ⟨c, hc⟩) rfl rfl (ix3 b n ⟨c - 64, by omega⟩)
      (fun r hr => match r, hr with
        | ⟨0, _⟩, _ => rfl
        | ⟨1, _⟩, _ => rfl
        | ⟨2, _⟩, h2 => absurd rfl h2)
      (by show (c - 64) + 64 = c; omega)).trans ?_
    exact (RLayer0.unflat_apply _ b n ⟨c - 64, by omega⟩).trans (hs _ b n ⟨c - 64, by omega⟩ rfl rfl)

def X2 (A : FVec Ideal S1024x1024 .f32) (x0 x1 : FVec Ideal S1024x4096 .f32) : FVec Ideal S1024x4096 .f32 :=
  subf (F := Ideal) (φ := .f32) (mulf (F := Ideal) (φ := .f32) (broadcastInDim S1024x4096 ![] bcast_S_S1024x4096 (constant (F := Ideal) S_ .f32 0x40000000#32)) (Host.dotGeneral (F := Ideal) (φ₁ := .f32) (φ₂ := .f32) dot_S1024x1024_S1024x4096_S1024x4096_1_0_0_1_n_n none A x1)) x0

theorem X2_apply (A : FVec Ideal S1024x1024 .f32) (x0 x1 : FVec Ideal S1024x4096 .f32) (n : Fin 1024) (q : Fin 4096) :
    X2 A x0 x1 (ix2 n q) = Cert.Sem.two * (∑ m : Fin 1024, A (ix2 n m) * x1 (ix2 m q)) - x0 (ix2 n q) := by
  unfold X2
  rw [subf_apply, mulf_apply, dotA_apply]
  rfl

def STK (x0 x1 x2 : FVec Ideal S1024x4096 .f32) : FVec Ideal S32768x384 .f32 :=
  shapeCast _ (transpose S32x1024x128x3 [3, 1, 2, 0] (shapeCast _ (concatenate S3x1024x4096 0 [⟨S1x1024x4096, (broadcastInDim S1x1024x4096 ![1, 2] bcast_S1024x4096_S1x1024x4096_1_2 x0)⟩, ⟨S1x1024x4096, (broadcastInDim S1x1024x4096 ![1, 2] bcast_S1024x4096_S1x1024x4096_1_2 x1)⟩, ⟨S1x1024x4096, (broadcastInDim S1x1024x4096 ![1, 2] bcast_S1024x4096_S1x1024x4096_1_2 x2)⟩] concatenates_S1x1024x4096_S1x1024x4096_S1x1024x4096_S3x1024x4096_d0) shapeCasts_S3x1024x4096_S3x1024x128x32) transposes_S3x1024x128x32_S32x1024x128x3_3_1_2_0) shapeCasts_S32x1024x128x3_S32768x384

theorem stack3 (y0 y1 y2 : FVec Ideal S1x1024x4096 .f32) (k : ℕ) (hk : k < 3) (n : Fin 1024) (q : Fin 4096) :
    concatenate S3x1024x4096 0 [⟨S1x1024x4096, y0⟩, ⟨S1x1024x4096, y1⟩, ⟨S1x1024x4096, y2⟩]
        concatenates_S1x1024x4096_S1x1024x4096_S1x1024x4096_S3x1024x4096_d0 (ix3 ⟨k, hk⟩ n q)
      = (if k = 0 then y0 else if k = 1 then y1 else y2) (ix3 0 n q) := by
  obtain rfl | rfl | rfl : k = 0 ∨ k = 1 ∨ k = 2 := by omega
  · exact concatenate_apply_piece (t := S3x1024x4096) 0 _ _ _ 0 (by show 0 < 3; omega) S1x1024x4096 _ rfl rfl 0 rfl
      (ix3 0 n q) (fun a ha => match a, ha with | ⟨0, _⟩, ha => absurd rfl ha | ⟨1, _⟩, _ => rfl | ⟨2, _⟩, _ => rfl) rfl
  · exact concatenate_apply_piece (t := S3x1024x4096) 0 _ _ _ 1 (by show 1 < 3; omega) S1x1024x4096 _ rfl rfl 1 rfl
      (ix3 0 n q) (fun a ha => match a, ha with | ⟨0, _⟩, ha => absurd rfl ha | ⟨1, _⟩, _ => rfl | ⟨2, _⟩, _ => rfl) rfl
  · exact concatenate_apply_piece (t := S3x1024x4096) 0 _ _ _ 2 (by show 2 < 3; omega) S1x1024x4096 _ rfl rfl 2 rfl
      (ix3 0 n q) (fun a ha => match a, ha with | ⟨0, _⟩, ha => absurd rfl ha | ⟨1, _⟩, _ => rfl | ⟨2, _⟩, _ => rfl) rfl

theorem STK_apply (x0 x1 x2 : FVec Ideal S1024x4096 .f32) (b : Fin 32) (n : Fin 1024) (c : ℕ) (hc : c < 128) (k : ℕ) (hk : k < 3) :
    STK x0 x1 x2 (ix2 ⟨b.val * 1024 + n.val, by have := b.isLt; have := n.isLt; omega⟩ ⟨c * 3 + k, by omega⟩)
      = (if k = 0 then x0 else if k = 1 then x1 else x2) (ix2 n ⟨c * 32 + b.val, by have := b.isLt; omega⟩) := by
  have hb := b.isLt
  have hn := n.isLt
  unfold STK
  refine (shapeCast_apply _ _ _ (ix4 b n ⟨c, hc⟩ ⟨k, hk⟩) (by
    rw [Shape.rowMajor_val_four, Shape.rowMajor_val_two]
    show ((b.val * 1024 + n.val) * 128 + c) * 3 + k = (b.val * 1024 + n.val) * 384 + (c * 3 + k)
    omega)).trans ?_
  refine (transpose_apply _ _ _ _ (ix4 ⟨k, hk⟩ n ⟨c, hc⟩ b)
    (fun r => match r with | ⟨0, _⟩ => rfl | ⟨1, _⟩ => rfl | ⟨2, _⟩ => rfl | ⟨3, _⟩ => rfl)).trans ?_
  refine (shapeCast_apply _ _ _ (ix3 ⟨k, hk⟩ n ⟨c * 32 + b.val, by omega⟩) (by
    rw [Shape.rowMajor_val_three, Shape.rowMajor_val_four]
    show (k * 1024 + n.val) * 4096 + (c * 32 + b.val) = ((k * 1024 + n.val) * 128 + c) * 32 + b.val
    omega)).trans ?_
  refine (stack3 _ _ _ k hk n ⟨c * 32 + b.val, by omega⟩).trans ?_
  have hbc : ∀ x : FVec Ideal S1024x4096 .f32,
      broadcastInDim S1x1024x4096 ![1, 2] bcast_S1024x4096_S1x1024x4096_1_2 x (ix3 0 n ⟨c * 32 + b.val, by omega⟩)
        = x (ix2 n ⟨c * 32 + b.val, by omega⟩) := fun x =>
    broadcastInDim_apply _ _ x _ _ (fun a => match a with | ⟨0, _⟩ => rfl | ⟨1, _⟩ => rfl)
  by_cases k0 : k = 0
  · rw [if_pos k0, if_pos k0]; exact hbc x0
  · rw [if_neg k0, if_neg k0]
    by_cases k1 : k = 1
    · rw [if_pos k1, if_pos k1]; exact hbc x1
    · rw [if_neg k1, if_neg k1]; exact hbc x2

theorem dotA_d1 (A : FVec Ideal S1024x1024 .f32) (x0 : FVec Ideal S1024x4096 .f32) (f : Fin 1024 → EReal) (q : Fin 4096)
    (hf : ∀ m, x0 (ix2 m q) = f m) (n : Fin 1024) :
    Host.dotGeneral (F := Ideal) (φ₁ := .f32) (φ₂ := .f32) dot_S1024x1024_S1024x4096_S1024x4096_1_0_0_1_n_n none A x0 (ix2 n q)
      = Cert.Sem.d1 (Cert.Sem.adj A) f n := by
  rw [dotA_apply]
  unfold Cert.Sem.d1 Cert.Sem.adj
  exact Finset.sum_congr rfl fun m _ => by rw [hf m]

theorem STK_xcat (A : FVec Ideal S1024x1024 .f32) (x0 x1 x2 : FVec Ideal S1024x4096 .f32)
    (X S : Fin 32 → Fin 1024 → Fin 64 → EReal)
    (h0 : ∀ (m : Fin 1024) (c : ℕ) (hc : c < 128) (b : Fin 32),
      x0 (ix2 m ⟨c * 32 + b.val, by have := b.isLt; omega⟩) = Cert.Sem.cat X S b m c)
    (h1 : x1 = Host.dotGeneral (F := Ideal) (φ₁ := .f32) (φ₂ := .f32) dot_S1024x1024_S1024x4096_S1024x4096_1_0_0_1_n_n none A x0)
    (h2 : x2 = X2 A x0 x1)
    (b : Fin 32) (n : Fin 1024) (j : Fin 384) :
    STK x0 x1 x2 (ix2 ⟨b.val * 1024 + n.val, by have := b.isLt; have := n.isLt; omega⟩ j)
      = Cert.Sem.xcat (Cert.Sem.adj A) X S b n j.val := by
  have hj := j.isLt
  have hb := b.isLt
  have hc : j.val / 3 < 128 := by omega
  have hk : j.val % 3 < 3 := Nat.mod_lt _ (by omega)
  have hjj : j = ⟨j.val / 3 * 3 + j.val % 3, by omega⟩ := Fin.ext (by show j.val = j.val / 3 * 3 + j.val % 3; omega)
  have hf : ∀ m : Fin 1024, x0 (ix2 m ⟨j.val / 3 * 32 + b.val, by omega⟩) = Cert.Sem.cat X S b m (j.val / 3) :=
    fun m => h0 m _ hc b
  have e1 : ∀ m : Fin 1024, x1 (ix2 m ⟨j.val / 3 * 32 + b.val, by omega⟩)
      = Cert.Sem.d1 (Cert.Sem.adj A) (fun m => Cert.Sem.cat X S b m (j.val / 3)) m := fun m => by
    rw [h1]; exact dotA_d1 A x0 _ _ hf m
  refine (congrArg (fun jj => STK x0 x1 x2 (ix2 ⟨b.val * 1024 + n.val, by have := n.isLt; omega⟩ jj)) hjj).trans ?_
  refine (STK_apply x0 x1 x2 b n (j.val / 3) hc (j.val % 3) hk).trans ?_
  unfold Cert.Sem.xcat Cert.Sem.cheb
  by_cases k0 : j.val % 3 = 0
  · rw [if_pos k0, if_pos k0]
    exact hf n
  · rw [if_neg k0, if_neg k0]
    by_cases k1 : j.val % 3 = 1
    · rw [if_pos k1, if_pos k1]
      exact e1 n
    · rw [if_neg k1, if_neg k1, h2, X2_apply]
      unfold Cert.Sem.d2
      simp only [e1, hf]
      rfl

theorem GC_apply {O : ℕ} (D : DotDims S32768x384 ⟨2, ![384, O]⟩ ⟨2, ![32768, O]⟩) (hD : D = DotDims.plain 32768 384 O)
    (h1 : (⟨1, ![O]⟩ : Shape).BroadcastsInDim ⟨2, ![1, O]⟩ ![1])
    (h2 : (⟨2, ![1, O]⟩ : Shape).BroadcastsInDim ⟨2, ![32768, O]⟩ ![0, 1])
    (stk : FVec Ideal S32768x384 .f32) (W : FVec Ideal ⟨2, ![384, O]⟩ .f32) (bias : FVec Ideal ⟨1, ![O]⟩ .f32)
    (A : Fin 1024 → Fin 1024 → EReal) (X S : Fin 32 → Fin 1024 → Fin 64 → EReal) (b : Fin 32) (n : Fin 1024)
    (hstk : ∀ j : Fin 384, stk (ix2 ⟨b.val * 1024 + n.val, by have := b.isLt; have := n.isLt; omega⟩ j) = Cert.Sem.xcat A X S b n j.val)
    (o : Fin O) :
    addf (Host.dotGeneral D none stk W) (broadcastInDim ⟨2, ![32768, O]⟩ ![0, 1] h2 (broadcastInDim ⟨2, ![1, O]⟩ ![1] h1 bias))
        (ix2 ⟨b.val * 1024 + n.val, by have := b.isLt; have := n.isLt; omega⟩ o)
      = Cert.Sem.gconv (cin := 64) A X S (Cert.Sem.wmat W) (Cert.Sem.bvec bias) b n o := by
  rw [addf_apply, RLayer0.dot_plain_apply D hD, RLayer0.bias_apply]
  show _ = (∑ j : Fin 384, Cert.Sem.xcat A X S b n j.val * W (ix2 j o)) + bias (ix1 o)
  congr 1
  exact Finset.sum_congr rfl fun j _ => by rw [hstk j]

variable (V0 : Valuation τ sig (Elt Ideal))

abbrev L0 : Fin 32 → Fin 1024 → Fin 64 → EReal :=
  Cert.Sem.layer0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))
abbrev L1 : Fin 32 → Fin 1024 → Fin 64 → EReal :=
  Cert.Sem.layer1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))

set_option maxRecDepth 8192 in
def out1 : (Proc.devRef .tc main_v127 : DevRef τ sig).ty.Contents (Elt Ideal) :=
  addf (mulf (res_main_v97 V0) (res_main_v65 V0)) (mulf (subf (broadcastInDim S32x65536 ![] bcast_S_S32x65536 (constant S_ .f32 0x3F800000#32)) (res_main_v97 V0)) (Host.tanh (shapeCast _ (shapeCast _ (addf (Host.dotGeneral (φ₁ := .f32) (φ₂ := .f32) dot_S32768x384_S384x64_S32768x64_1_0_0_1_n_n none (shapeCast _ (transpose S32x1024x128x3 [3, 1, 2, 0] (shapeCast _ (concatenate S3x1024x4096 0 [⟨S1x1024x4096, (broadcastInDim S1x1024x4096 ![1, 2] bcast_S1024x4096_S1x1024x4096_1_2 (res_main_v103 V0))⟩, ⟨S1x1024x4096, (broadcastInDim S1x1024x4096 ![1, 2] bcast_S1024x4096_S1x1024x4096_1_2 (res_main_v104 V0))⟩, ⟨S1x1024x4096, (broadcastInDim S1x1024x4096 ![1, 2] bcast_S1024x4096_S1x1024x4096_1_2 (subf (mulf (broadcastInDim S1024x4096 ![] bcast_S_S1024x4096 (constant S_ .f32 0x40000000#32)) (Host.dotGeneral (φ₁ := .f32) (φ₂ := .f32) dot_S1024x1024_S1024x4096_S1024x4096_1_0_0_1_n_n none (V0 (Proc.devRef .tc main_arg1)) (res_main_v104 V0))) (res_main_v103 V0)))⟩] concatenates_S1x1024x4096_S1x1024x4096_S1x1024x4096_S3x1024x4096_d0) shapeCasts_S3x1024x4096_S3x1024x128x32) transposes_S3x1024x128x32_S32x1024x128x3_3_1_2_0) shapeCasts_S32x1024x128x3_S32768x384) (V0 (Proc.devRef .tc main_arg9))) (broadcastInDim S32768x64 ![0, 1] bcast_S1x64_S32768x64_0_1 (broadcastInDim S1x64 ![1] bcast_S64_S1x64_1 (V0 (Proc.devRef .tc main_arg10))))) shapeCasts_S32768x64_S32x1024x64) shapeCasts_S32x1024x64_S32x65536)))

set_option maxRecDepth 8192 in
def out2 : (Proc.devRef .tc main_v130 : DevRef τ sig).ty.Contents (Elt Ideal) :=
  concatenate S2x32x65536 0 [⟨S1x32x65536, (broadcastInDim S1x32x65536 ![1, 2] bcast_S32x65536_S1x32x65536_1_2 (res_main_v63 V0))⟩, ⟨S1x32x65536, (broadcastInDim S1x32x65536 ![1, 2] bcast_S32x65536_S1x32x65536_1_2 (addf (mulf (res_main_v97 V0) (res_main_v65 V0)) (mulf (subf (broadcastInDim S32x65536 ![] bcast_S_S32x65536 (constant S_ .f32 0x3F800000#32)) (res_main_v97 V0)) (Host.tanh (shapeCast _ (shapeCast _ (addf (Host.dotGeneral (φ₁ := .f32) (φ₂ := .f32) dot_S32768x384_S384x64_S32768x64_1_0_0_1_n_n none (shapeCast _ (transpose S32x1024x128x3 [3, 1, 2, 0] (shapeCast _ (concatenate S3x1024x4096 0 [⟨S1x1024x4096, (broadcastInDim S1x1024x4096 ![1, 2] bcast_S1024x4096_S1x1024x4096_1_2 (res_main_v103 V0))⟩, ⟨S1x1024x4096, (broadcastInDim S1x1024x4096 ![1, 2] bcast_S1024x4096_S1x1024x4096_1_2 (res_main_v104 V0))⟩, ⟨S1x1024x4096, (broadcastInDim S1x1024x4096 ![1, 2] bcast_S1024x4096_S1x1024x4096_1_2 (subf (mulf (broadcastInDim S1024x4096 ![] bcast_S_S1024x4096 (constant S_ .f32 0x40000000#32)) (Host.dotGeneral (φ₁ := .f32) (φ₂ := .f32) dot_S1024x1024_S1024x4096_S1024x4096_1_0_0_1_n_n none (V0 (Proc.devRef .tc main_arg1)) (res_main_v104 V0))) (res_main_v103 V0)))⟩] concatenates_S1x1024x4096_S1x1024x4096_S1x1024x4096_S3x1024x4096_d0) shapeCasts_S3x1024x4096_S3x1024x128x32) transposes_S3x1024x128x32_S32x1024x128x3_3_1_2_0) shapeCasts_S32x1024x128x3_S32768x384) (V0 (Proc.devRef .tc main_arg9))) (broadcastInDim S32768x64 ![0, 1] bcast_S1x64_S32768x64_0_1 (broadcastInDim S1x64 ![1] bcast_S64_S1x64_1 (V0 (Proc.devRef .tc main_arg10))))) shapeCasts_S32768x64_S32x1024x64) shapeCasts_S32x1024x64_S32x65536)))))⟩] concatenates_S1x32x65536_S1x32x65536_S2x32x65536_d0

abbrev Adj : Fin 1024 → Fin 1024 → EReal := Cert.Sem.adj (V0 (Proc.devRef .tc main_arg1))
abbrev H1 : Fin 32 → Fin 1024 → Fin 64 → EReal := Cert.Sem.state (V0 (Proc.devRef .tc main_arg2)) 1
abbrev Wg : Fin 384 → Fin 128 → EReal := Cert.Sem.wmat (V0 (Proc.devRef .tc main_arg7))
abbrev bg : Fin 128 → EReal := Cert.Sem.bvec (V0 (Proc.devRef .tc main_arg8))
abbrev Wc : Fin 384 → Fin 64 → EReal := Cert.Sem.wmat (V0 (Proc.devRef .tc main_arg9))
abbrev bc : Fin 64 → EReal := Cert.Sem.bvec (V0 (Proc.devRef .tc main_arg10))

theorem v65_eq (i : S32x65536.Idx) (b : Fin 32) (n : Fin 1024) (u : Fin 64)
    (hb : (i 0).val = b.val) (hq : (i 1).val = n.val * 64 + u.val) :
    res_main_v65 V0 i = H1 V0 b n u := by
  unfold res_main_v65
  exact RLayer0.state_apply _ 1 (by omega) _ i b n u hb hq

theorem v70_eq (m : Fin 1024) (c : ℕ) (hc : c < 128) (b : Fin 32) :
    res_main_v70 V0 (ix2 m ⟨c * 32 + b.val, by have := b.isLt; omega⟩) = Cert.Sem.cat (L0 V0) (H1 V0) b m c := by
  unfold res_main_v70
  exact X0_apply (res_main_v63 V0) (res_main_v65 V0) (L0 V0) (H1 V0) (Cert.ReferenceIdeal.RLayer0.h0 V0) (v65_eq V0) m c hc b

theorem v93_eq (b : Fin 32) (n : Fin 1024) (o : Fin 128) :
    res_main_v93 V0 (ix3 b n o)
      = Ideal.logistic (Cert.Sem.gconv (cin := 64) (Adj V0) (L0 V0) (H1 V0) (Wg V0) (bg V0) b n o) := by
  unfold res_main_v93
  refine (RLayer0.logistic_apply _ b n o).trans ?_
  refine congrArg Ideal.logistic ?_
  refine GC_apply dot_S32768x384_S384x128_S32768x128_1_0_0_1_n_n rfl bcast_S128_S1x128_1 bcast_S1x128_S32768x128_0_1 _ _ _ (Adj V0) (L0 V0) (H1 V0) b n ?_ o
  intro j
  exact STK_xcat (V0 (Proc.devRef .tc main_arg1)) (res_main_v70 V0) (res_main_v71 V0) _ (L0 V0) (H1 V0) (v70_eq V0) rfl rfl b n j

theorem v97_eq (i : S32x65536.Idx) (b : Fin 32) (n : Fin 1024) (u : Fin 64)
    (hb : (i 0).val = b.val) (hq : (i 1).val = n.val * 64 + u.val) :
    res_main_v97 V0 i = Cert.Sem.update (cin := 64) (Adj V0) (L0 V0) (H1 V0) (Wg V0) (bg V0) b n u := by
  unfold res_main_v97
  refine (RLayer0.gate_slice_apply _ 64 (by omega) _ i b n u ⟨64 + u.val, by have := u.isLt; omega⟩ hb hq rfl).trans ?_
  exact v93_eq V0 b n _

theorem rs_eq (i : S32x65536.Idx) (b : Fin 32) (n : Fin 1024) (u : Fin 64)
    (hb : (i 0).val = b.val) (hq : (i 1).val = n.val * 64 + u.val) :
    shapeCast S32x65536 (extractStridedSlice S32x1024x64 ![0, 0, 0] (res_main_v93 V0) slices_S32x1024x128_S32x1024x64_0_0_0) shapeCasts_S32x1024x64_S32x65536 i
      = Cert.Sem.reset (cin := 64) (Adj V0) (L0 V0) (H1 V0) (Wg V0) (bg V0) b n u := by
  refine (RLayer0.gate_slice_apply _ 0 (by omega) _ i b n u ⟨u.val, by have := u.isLt; omega⟩ hb hq (by show u.val = 0 + u.val; omega)).trans ?_
  exact v93_eq V0 b n _

theorem v103_eq (m : Fin 1024) (c : ℕ) (hc : c < 128) (b : Fin 32) :
    res_main_v103 V0 (ix2 m ⟨c * 32 + b.val, by have := b.isLt; omega⟩)
      = Cert.Sem.cat (L0 V0) (fun b' n' u' => Cert.Sem.reset (cin := 64) (Adj V0) (L0 V0) (H1 V0) (Wg V0) (bg V0) b' n' u' * H1 V0 b' n' u') b m c := by
  unfold res_main_v103
  refine X0_apply (res_main_v63 V0) _ (L0 V0)
    (fun b' n' u' => Cert.Sem.reset (cin := 64) (Adj V0) (L0 V0) (H1 V0) (Wg V0) (bg V0) b' n' u' * H1 V0 b' n' u')
    (Cert.ReferenceIdeal.RLayer0.h0 V0) (fun i b n u hb hq => ?_) m c hc b
  rw [mulf_apply]
  exact congrArg₂ (· * ·) (rs_eq V0 i b n u hb hq) (v65_eq V0 i b n u hb hq)

theorem out1_eq (i : S32x65536.Idx) (b : Fin 32) (n : Fin 1024) (u : Fin 64)
    (hb : (i 0).val = b.val) (hq : (i 1).val = n.val * 64 + u.val) :
    out1 V0 i = L1 V0 b n u := by
  unfold out1
  refine (RLayer0.mix_apply _ _ _ i b n u hb hq).trans ?_
  show _ = Cert.Sem.cell (cin := 64) (Adj V0) (L0 V0) (H1 V0) (Wg V0) (bg V0) (Wc V0) (bc V0) b n u
  unfold Cert.Sem.cell
  have e97 := v97_eq V0 i b n u hb hq
  have e65 := v65_eq V0 i b n u hb hq
  refine congrArg₂ (· + ·) (congrArg₂ (· * ·) e97 e65) (congrArg₂ (· * ·) (congrArg (Cert.Sem.one - ·) e97) (congrArg Ideal.tanh ?_))
  refine GC_apply dot_S32768x384_S384x64_S32768x64_1_0_0_1_n_n rfl bcast_S64_S1x64_1 bcast_S1x64_S32768x64_0_1 _ _ _ (Adj V0) (L0 V0) _ b n ?_ u
  intro j
  exact STK_xcat (V0 (Proc.devRef .tc main_arg1)) (res_main_v103 V0) (res_main_v104 V0) _ (L0 V0) _ (v103_eq V0) rfl rfl b n j

theorem out2_eq (i : S2x32x65536.Idx) (l : Fin 2) (b : Fin 32) (n : Fin 1024) (u : Fin 64)
    (hl : (i 0).val = l.val) (hb : (i 1).val = b.val) (hq : (i 2).val = n.val * 64 + u.val) :
    out2 V0 i = if l.val = 0 then L0 V0 b n u else L1 V0 b n u := by
  have hq' : n.val * 64 + u.val < 65536 := by have := n.isLt; have := u.isLt; omega
  have hl2 := l.isLt
  unfold out2
  by_cases h : l.val = 0
  · rw [if_pos h]
    refine (concatenate_pair_apply_left (t := S2x32x65536) 0 _ _ concatenates_S1x32x65536_S1x32x65536_S2x32x65536_d0 i rfl
      (ix3 (0 : Fin 1) b (⟨n.val * 64 + u.val, hq'⟩ : Fin 65536)) (fun a => match a with
        | ⟨0, _⟩ => by show 0 = (i 0).val; omega
        | ⟨1, _⟩ => hb.symm
        | ⟨2, _⟩ => hq.symm)).trans ?_
    refine (broadcastInDim_apply _ _ _ _ (ix2 b (⟨n.val * 64 + u.val, hq'⟩ : Fin 65536))
      (fun a => match a with | ⟨0, _⟩ => rfl | ⟨1, _⟩ => rfl)).trans ?_
    exact Cert.ReferenceIdeal.RLayer0.h0 V0 _ b n u rfl rfl
  · rw [if_neg h]
    refine (concatenate_pair_apply_right (t := S2x32x65536) 0 _ _ concatenates_S1x32x65536_S1x32x65536_S2x32x65536_d0 i rfl rfl
      (ix3 (0 : Fin 1) b (⟨n.val * 64 + u.val, hq'⟩ : Fin 65536)) (fun a ha => match a, ha with
        | ⟨0, _⟩, ha => absurd rfl ha
        | ⟨1, _⟩, _ => hb.symm
        | ⟨2, _⟩, _ => hq.symm)
      (by show 0 + 1 = (i 0).val; omega)).trans ?_
    refine (broadcastInDim_apply _ _ _ _ (ix2 b (⟨n.val * 64 + u.val, hq'⟩ : Fin 65536))
      (fun a => match a with | ⟨0, _⟩ => rfl | ⟨1, _⟩ => rfl)).trans ?_
    exact out1_eq V0 _ b n u rfl rfl

end Cert.ReferenceIdeal.RLayer1

end
-- ==== Proof.RRun.lean ====
import proofs.«150681_g19885698580639_cont_8to1_2033_3_alg».proof.Proof.RunP
import proofs.«150681_g19885698580639_cont_8to1_2033_3_alg».proof.Proof.RLayer1
import Idealize.ShloMosaic.Lib.Pipeline.Frame

set_option maxRecDepth 16384

noncomputable section

namespace Cert.ReferenceIdeal.RRun

open Cert.ReferenceIdeal Cert.ReferenceIdeal.Gen Cert.ReferenceIdeal.ValueP
open Idealize.ShloMosaic Idealize.ShloMosaic.TcCoe Idealize.SL.Sem Idealize.ShloMosaic.StableHlo

-- A run may be cut anywhere: the rest runs from whatever the first k operations left.
theorem after_cut {τ : Topo} {sig : RefSig} {Val : EltTy → Type} (k : Nat) (l : List (HloOp τ sig Val))
    (V : Valuation τ sig Val) : after l V = after (l.drop k) (after (l.take k) V) := by
  rw [← after_append, List.take_append_drop]

variable {F : FTy → Type} [FloatOps F] (V0 : Valuation τ sig (Elt F))

-- No operation writes an argument.
theorem a_0 : after ops V0 main_arg0 = V0 main_arg0 := by after_results_simp
theorem a_1 : after ops V0 main_arg1 = V0 main_arg1 := by after_results_simp
theorem a_2 : after ops V0 main_arg2 = V0 main_arg2 := by after_results_simp
theorem a_3 : after ops V0 main_arg3 = V0 main_arg3 := by after_results_simp
theorem a_4 : after ops V0 main_arg4 = V0 main_arg4 := by after_results_simp
theorem a_5 : after ops V0 main_arg5 = V0 main_arg5 := by after_results_simp
theorem a_6 : after ops V0 main_arg6 = V0 main_arg6 := by after_results_simp
theorem a_7 : after ops V0 main_arg7 = V0 main_arg7 := by after_results_simp
theorem a_8 : after ops V0 main_arg8 = V0 main_arg8 := by after_results_simp
theorem a_9 : after ops V0 main_arg9 = V0 main_arg9 := by after_results_simp
theorem a_10 : after ops V0 main_arg10 = V0 main_arg10 := by after_results_simp

-- Each named term is what the run leaves in its buffer: the operations from the cut on compute it, from any contents, out of earlier named buffers and arguments, which they do not write.
theorem n_v1 : after ops V0 main_v1 = res_main_v1 V0 := by
  rw [res_main_v1, ← a_2 V0, after_cut 0]
  generalize after (List.take 0 (ops (F := F))) V0 = W
  simp only [ops, List.drop_succ_cons, List.drop_zero]
  after_results_simp

theorem n_v6 : after ops V0 main_v6 = res_main_v6 V0 := by
  rw [res_main_v6, ← a_0 V0, ← n_v1 V0, after_cut 2]
  generalize after (List.take 2 (ops (F := F))) V0 = W
  simp only [ops, List.drop_succ_cons, List.drop_zero]
  after_results_simp
  rfl

theorem n_v7 : after ops V0 main_v7 = res_main_v7 V0 := by
  rw [res_main_v7, ← a_1 V0, ← n_v6 V0, after_cut 7]
  generalize after (List.take 7 (ops (F := F))) V0 = W
  simp only [ops, List.drop_succ_cons, List.drop_zero]
  after_results_simp

theorem n_v29 : after ops V0 main_v29 = res_main_v29 V0 := by
  rw [res_main_v29, ← n_v6 V0, ← n_v7 V0, ← a_1 V0, ← a_3 V0, ← a_4 V0, after_cut 8]
  generalize after (List.take 8 (ops (F := F))) V0 = W
  simp only [ops, List.drop_succ_cons, List.drop_zero]
  after_results_simp
  rfl

theorem n_v33 : after ops V0 main_v33 = res_main_v33 V0 := by
  rw [res_main_v33, ← n_v29 V0, after_cut 35]
  generalize after (List.take 35 (ops (F := F))) V0 = W
  simp only [ops, List.drop_succ_cons, List.drop_zero]
  after_results_simp

theorem n_v39 : after ops V0 main_v39 = res_main_v39 V0 := by
  rw [res_main_v39, ← a_0 V0, ← n_v29 V0, ← n_v1 V0, after_cut 33]
  generalize after (List.take 33 (ops (F := F))) V0 = W
  simp only [ops, List.drop_succ_cons, List.drop_zero]
  after_results_simp
  rfl

theorem n_v40 : after ops V0 main_v40 = res_main_v40 V0 := by
  rw [res_main_v40, ← a_1 V0, ← n_v39 V0, after_cut 43]
  generalize after (List.take 43 (ops (F := F))) V0 = W
  simp only [ops, List.drop_succ_cons, List.drop_zero]
  after_results_simp

-- A buffer no operation writes keeps its contents through any last part of the run.
theorem keep {r : Ref sig .tc} (H : ∀ op ∈ ops (F := F), (r : DevRef τ sig) ∉ op.writes) (s : Nat) (W : Valuation τ sig (Elt F)) :
    after (ops.drop s) W r = W r :=
  after_of_forall_not_mem _ W fun op h => H op (List.mem_of_mem_drop h)

theorem w_1 : ∀ op ∈ ops (F := F), (main_arg1 : DevRef τ sig) ∉ op.writes := by
  simp +decide only [ops, List.forall_mem_cons, unary_writes, binary_writes, nullary_writes, reshape_writes, nary_writes,
    Finset.mem_singleton, (Proc.devRef_injective _).eq_iff, List.not_mem_nil, false_imp_iff, implies_true, and_self, not_false_eq_true]

theorem w_5 : ∀ op ∈ ops (F := F), (main_arg5 : DevRef τ sig) ∉ op.writes := by
  simp +decide only [ops, List.forall_mem_cons, unary_writes, binary_writes, nullary_writes, reshape_writes, nary_writes,
    Finset.mem_singleton, (Proc.devRef_injective _).eq_iff, List.not_mem_nil, false_imp_iff, implies_true, and_self, not_false_eq_true]

theorem w_6 : ∀ op ∈ ops (F := F), (main_arg6 : DevRef τ sig) ∉ op.writes := by
  simp +decide only [ops, List.forall_mem_cons, unary_writes, binary_writes, nullary_writes, reshape_writes, nary_writes,
    Finset.mem_singleton, (Proc.devRef_injective _).eq_iff, List.not_mem_nil, false_imp_iff, implies_true, and_self, not_false_eq_true]

theorem n_v63 : after ops V0 main_v63 = res_main_v63 V0 := by
  rw [res_main_v63, ← n_v33 V0, ← n_v1 V0, ← n_v39 V0, ← n_v40 V0, ← a_1 V0, ← a_5 V0, ← a_6 V0, after_cut 44]
  generalize after (List.take 44 (ops (F := F))) V0 = W
  rw [keep w_1, keep w_5, keep w_6]
  simp only [ops, List.drop_succ_cons, List.drop_zero]
  after_results_simp
  rfl

theorem n_v65 : after ops V0 main_v65 = res_main_v65 V0 := by
  rw [res_main_v65, ← a_2 V0, after_cut 69]
  generalize after (List.take 69 (ops (F := F))) V0 = W
  simp only [ops, List.drop_succ_cons, List.drop_zero]
  after_results_simp

theorem n_v70 : after ops V0 main_v70 = res_main_v70 V0 := by
  rw [res_main_v70, ← n_v63 V0, ← n_v65 V0, after_cut 71]
  generalize after (List.take 71 (ops (F := F))) V0 = W
  simp only [ops, List.drop_succ_cons, List.drop_zero]
  after_results_simp
  rfl

theorem n_v71 : after ops V0 main_v71 = res_main_v71 V0 := by
  rw [res_main_v71, ← a_1 V0, ← n_v70 V0, after_cut 76]
  generalize after (List.take 76 (ops (F := F))) V0 = W
  simp only [ops, List.drop_succ_cons, List.drop_zero]
  after_results_simp

theorem n_v93 : after ops V0 main_v93 = res_main_v93 V0 := by
  rw [res_main_v93, ← n_v70 V0, ← n_v71 V0, ← a_1 V0, ← a_7 V0, ← a_8 V0, after_cut 77]
  generalize after (List.take 77 (ops (F := F))) V0 = W
  simp only [ops, List.drop_succ_cons, List.drop_zero]
  after_results_simp
  rfl

theorem n_v97 : after ops V0 main_v97 = res_main_v97 V0 := by
  rw [res_main_v97, ← n_v93 V0, after_cut 104]
  generalize after (List.take 104 (ops (F := F))) V0 = W
  simp only [ops, List.drop_succ_cons, List.drop_zero]
  after_results_simp

theorem n_v103 : after ops V0 main_v103 = res_main_v103 V0 := by
  rw [res_main_v103, ← n_v63 V0, ← n_v93 V0, ← n_v65 V0, after_cut 102]
  generalize after (List.take 102 (ops (F := F))) V0 = W
  simp only [ops, List.drop_succ_cons, List.drop_zero]
  after_results_simp
  rfl

theorem n_v104 : after ops V0 main_v104 = res_main_v104 V0 := by
  rw [res_main_v104, ← a_1 V0, ← n_v103 V0, after_cut 112]
  generalize after (List.take 112 (ops (F := F))) V0 = W
  simp only [ops, List.drop_succ_cons, List.drop_zero]
  after_results_simp

theorem res1 (V : Valuation τ sig (Elt Ideal)) : after ops V main_v127 = RLayer1.out1 V := by
  rw [RLayer1.out1, ← n_v97 V, ← n_v65 V, ← n_v103 V, ← n_v104 V, ← a_1 V, ← a_9 V, ← a_10 V, after_cut 113]
  generalize after (List.take 113 (ops (F := Ideal))) V = W
  simp only [ops, List.drop_succ_cons, List.drop_zero]
  after_results_simp
  rfl

-- The second result stacks the first named state and the first result.
theorem res2 (V : Valuation τ sig (Elt Ideal)) : after ops V main_v130 = RLayer1.out2 V := by
  have h : after ops V main_v130 = concatenate S2x32x65536 0 [⟨S1x32x65536, broadcastInDim S1x32x65536 ![1, 2] bcast_S32x65536_S1x32x65536_1_2 (after ops V main_v63)⟩, ⟨S1x32x65536, broadcastInDim S1x32x65536 ![1, 2] bcast_S32x65536_S1x32x65536_1_2 (after ops V main_v127)⟩] concatenates_S1x32x65536_S1x32x65536_S2x32x65536_d0 := by
    rw [after_cut 138]
    generalize after (List.take 138 (ops (F := Ideal))) V = W
    simp only [ops, List.drop_succ_cons, List.drop_zero]
    after_results_simp
    rfl
  rw [h, n_v63 V, res1 V]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v127) = Cert.ReferenceIdeal.RLayer1.out1 (launchContents m c)
      ∧ r.2.mem ((c.tc : Thread nD τ).loc main_v130) = Cert.ReferenceIdeal.RLayer1.out2 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v127).trans (res1 _), (h c main_v130).trans (res2 _),
      (h c main_arg0).trans (a_0 _),
      (h c main_arg1).trans (a_1 _),
      (h c main_arg2).trans (a_2 _),
      (h c main_arg3).trans (a_3 _),
      (h c main_arg4).trans (a_4 _),
      (h c main_arg5).trans (a_5 _),
      (h c main_arg6).trans (a_6 _),
      (h c main_arg7).trans (a_7 _),
      (h c main_arg8).trans (a_8 _),
      (h c main_arg9).trans (a_9 _),
      (h c main_arg10).trans (a_10 _)⟩)
    (run_seq scopedRefs_eq scopedSems_eq defs main (fun _ => ops) main_eq (fun _ => ops_sub) m ρ)

end Cert.ReferenceIdeal.RRun

end
-- ==== Proof.lean ====
import proofs.«150681_g19885698580639_cont_8to1_2033_3_alg».proof.Defs
import proofs.«150681_g19885698580639_cont_8to1_2033_3_alg».proof.Proof.Gen.Kernel
import proofs.«150681_g19885698580639_cont_8to1_2033_3_alg».proof.Proof.Gen.Kernel.Skeleton
import proofs.«150681_g19885698580639_cont_8to1_2033_3_alg».proof.Proof.Gen.Kernel.Launch
import proofs.«150681_g19885698580639_cont_8to1_2033_3_alg».proof.Proof.Gen.Kernel.Points
import proofs.«150681_g19885698580639_cont_8to1_2033_3_alg».proof.Proof.Gen.Kernel.Frame
import proofs.«150681_g19885698580639_cont_8to1_2033_3_alg».proof.Proof.Gen.KernelIdeal
import proofs.«150681_g19885698580639_cont_8to1_2033_3_alg».proof.Proof.Gen.KernelIdeal.Skeleton
import proofs.«150681_g19885698580639_cont_8to1_2033_3_alg».proof.Proof.Gen.KernelIdeal.Launch
import proofs.«150681_g19885698580639_cont_8to1_2033_3_alg».proof.Proof.Gen.KernelIdeal.Points
import proofs.«150681_g19885698580639_cont_8to1_2033_3_alg».proof.Proof.Gen.KernelIdeal.Frame
import proofs.«150681_g19885698580639_cont_8to1_2033_3_alg».proof.Proof.Gen.ReferenceIdeal
import proofs.«150681_g19885698580639_cont_8to1_2033_3_alg».proof.Proof.Gen.Pre_finite_inputs
import proofs.«150681_g19885698580639_cont_8to1_2033_3_alg».proof.Proof.KRun
import proofs.«150681_g19885698580639_cont_8to1_2033_3_alg».proof.Proof.KLayer1
import proofs.«150681_g19885698580639_cont_8to1_2033_3_alg».proof.Proof.RLayer1
import proofs.«150681_g19885698580639_cont_8to1_2033_3_alg».proof.Proof.RRun
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.RRun.run m ρ)

/-- Both programs end with the second layer's new state, and the two layers' new states stacked, of one two-layer
    diffusion-convolution gated recurrent cell read at (batch, node, unit). -/
theorem algebraic : Cert.algebraic_KernelIdeal_ReferenceIdeal := by
  intro m ρ m' ρ' _ hagree
  refine ⟨fun c => Cert.KernelIdeal.Gen.W21 m ρ c (Proc.devRef .tc Cert.KernelIdeal.main_v80),
    fun c => Cert.KernelIdeal.Gen.W21 m ρ c (Proc.devRef .tc Cert.KernelIdeal.main_v83), ?_, ?_⟩
  · refine (θ_run Cert.KernelIdeal.defs _ _).mono (fun r h c => ⟨h c _ (by decide), h c _ (by decide),
      (h c Cert.KernelIdeal.main_arg0 (by decide)).trans (Cert.KernelIdeal.Gen.W21_main_arg0 m ρ c),
      (h c Cert.KernelIdeal.main_arg1 (by decide)).trans (Cert.KernelIdeal.Gen.W21_main_arg1 m ρ c),
      (h c Cert.KernelIdeal.main_arg2 (by decide)).trans (Cert.KernelIdeal.Gen.W21_main_arg2 m ρ c),
      (h c Cert.KernelIdeal.main_arg3 (by decide)).trans (Cert.KernelIdeal.Gen.W21_main_arg3 m ρ c),
      (h c Cert.KernelIdeal.main_arg4 (by decide)).trans (Cert.KernelIdeal.Gen.W21_main_arg4 m ρ c),
      (h c Cert.KernelIdeal.main_arg5 (by decide)).trans (Cert.KernelIdeal.Gen.W21_main_arg5 m ρ c),
      (h c Cert.KernelIdeal.main_arg6 (by decide)).trans (Cert.KernelIdeal.Gen.W21_main_arg6 m ρ c),
      (h c Cert.KernelIdeal.main_arg7 (by decide)).trans (Cert.KernelIdeal.Gen.W21_main_arg7 m ρ c),
      (h c Cert.KernelIdeal.main_arg8 (by decide)).trans (Cert.KernelIdeal.Gen.W21_main_arg8 m ρ c),
      (h c Cert.KernelIdeal.main_arg9 (by decide)).trans (Cert.KernelIdeal.Gen.W21_main_arg9 m ρ c),
      (h c Cert.KernelIdeal.main_arg10 (by decide)).trans (Cert.KernelIdeal.Gen.W21_main_arg10 m ρ c)⟩)
      (Cert.KernelIdeal.RunAll.run_at (F := Ideal) m ρ)
  · have hL : ∀ c, Cert.ReferenceIdeal.RLayer1.L0 (StableHlo.launchContents m' c) = Cert.KernelIdeal.KLayer1.L0 m c
        ∧ Cert.ReferenceIdeal.RLayer1.L1 (StableHlo.launchContents m' c) = Cert.KernelIdeal.KLayer1.L1 m c := fun c => by
      obtain ⟨h0, h1, h2, h3, h4, h5, h6, h7, h8, h9, h10⟩ := hagree c
      exact ⟨congr (congr (congr (congr (congr (congr (congrArg Cert.Sem.layer0 h0) h1) h2) h3) h4) h5) h6,
        congr (congr (congr (congr (congr (congr (congr (congr (congr (congr (congrArg Cert.Sem.layer1 h0) h1) h2) h3) h4) h5) h6) h7) h8) h9) h10⟩
    refine (θ_run Cert.ReferenceIdeal.defs _ _).mono (fun r h c => ⟨(h c).1.trans ?_, (h c).2.1.trans ?_, (h c).2.2⟩)
      (Cert.ReferenceIdeal.RRun.run m' ρ')
    · obtain ⟨-, hL1⟩ := hL c
      show Cert.ReferenceIdeal.RLayer1.out1 (StableHlo.launchContents m' c)
        = Cert.KernelIdeal.Gen.W21 m ρ c (Proc.devRef .tc Cert.KernelIdeal.main_v80)
      funext i
      have hi0 := idx2_lt0 i
      have hi1 := idx2_lt1 i
      have hq : (i 1).val = (⟨(i 1).val / 64, by omega⟩ : Fin 1024).val * 64 + (⟨(i 1).val % 64, by omega⟩ : Fin 64).val := by
        show (i 1).val = (i 1).val / 64 * 64 + (i 1).val % 64
        omega
      rw [Cert.ReferenceIdeal.RLayer1.out1_eq _ i ⟨(i 0).val, hi0⟩ _ _ rfl hq,
        Cert.KernelIdeal.KLayer1.out1 m ρ c i ⟨(i 0).val, hi0⟩ _ _ rfl hq, hL1]
    · obtain ⟨hL0, hL1⟩ := hL c
      show Cert.ReferenceIdeal.RLayer1.out2 (StableHlo.launchContents m' c)
        = Cert.KernelIdeal.Gen.W21 m ρ c (Proc.devRef .tc Cert.KernelIdeal.main_v83)
      funext i
      have hi0 : (i 0).val < 2 := (i 0).isLt
      have hi1 : (i 1).val < 32 := (i 1).isLt
      have hi2 : (i 2).val < 65536 := (i 2).isLt
      have hq : (i 2).val = (⟨(i 2).val / 64, by omega⟩ : Fin 1024).val * 64 + (⟨(i 2).val % 64, by omega⟩ : Fin 64).val := by
        show (i 2).val = (i 2).val / 64 * 64 + (i 2).val % 64
        omega
      rw [Cert.ReferenceIdeal.RLayer1.out2_eq _ i ⟨(i 0).val, hi0⟩ ⟨(i 1).val, hi1⟩ _ _ rfl rfl hq,
        Cert.KernelIdeal.KLayer1.out2 m ρ c i ⟨(i 0).val, hi0⟩ ⟨(i 1).val, hi1⟩ _ _ rfl rfl hq, hL0, hL1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
